-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v305)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v305) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v385) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000x128 : Shape := ⟨2, ![320000, 128]⟩
abbrev S320000 : Shape := ⟨1, ![320000]⟩
abbrev S200000x2 : Shape := ⟨2, ![200000, 2]⟩
abbrev S20000 : Shape := ⟨1, ![20000]⟩
abbrev S2x128x128 : Shape := ⟨3, ![2, 128, 128]⟩
abbrev S2x128 : Shape := ⟨2, ![2, 128]⟩
abbrev S2 : Shape := ⟨1, ![2]⟩
abbrev S128x128 : Shape := ⟨2, ![128, 128]⟩
abbrev S128 : Shape := ⟨1, ![128]⟩
abbrev S2x256x128 : Shape := ⟨3, ![2, 256, 128]⟩
abbrev S2x128x2 : Shape := ⟨3, ![2, 128, 2]⟩
abbrev S2x2 : Shape := ⟨2, ![2, 2]⟩
abbrev S128x10 : Shape := ⟨2, ![128, 10]⟩
abbrev S10 : Shape := ⟨1, ![10]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S320000 : S_.BroadcastsInDim S320000 (![] : Fin 0 → Fin S320000.rank)
  reducesTo_S320000_S_d0 : S320000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x256x128 : S_.BroadcastsInDim S2x256x128 (![] : Fin 0 → Fin S2x256x128.rank)
  reducesTo_S2x256x128_S_d0_1_2 : S2x256x128.ReducesTo [0, 1, 2] S_
  bcast_S_S2x128x2 : S_.BroadcastsInDim S2x128x2 (![] : Fin 0 → Fin S2x128x2.rank)
  reducesTo_S2x128x2_S_d0_1_2 : S2x128x2.ReducesTo [0, 1, 2] S_
  bcast_S_S2x2 : S_.BroadcastsInDim S2x2 (![] : Fin 0 → Fin S2x2.rank)
  reducesTo_S2x2_S_d0_1 : S2x2.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_v118 : IVec S_ 1) (main_v119 : FVec F S10 .f32) : IVec S_ 1 :=
  let main_cst_46 : FVec F S_ .f32 := constant S_ .f32 0x7F800000#32
  let main_v120 : FVec F S10 .f32 := broadcastInDim S10 ![] bcast_S_S10 main_cst_46
  let main_v121 : IVec S10 1 := cmpf .olt main_v119 main_v120
  let main_c_47 : IVec S_ 1 := constantI S_ 1 1#1
  let main_v122 : IVec S_ 1 := (fun x v => Host.reduce IntOp.andi x v reducesTo_S10_S_d0 h_S_) main_v121 main_c_47
  let main_v123 : IVec S_ 1 := andi main_v118 main_v122
  main_v123

def fn_part6 {F : FTy → Type} [FloatOps F] (main_arg24 : FVec F S2x128 .f32) (main_arg25 : FVec F S2 .f32) (main_arg26 : FVec F S128x10 .f32) (main_arg27 : FVec F S10 .f32) (main_v98 : IVec S_ 1) (main_v101 : IVec S2x128x128 1) (main_c_39 : IVec S_ 1) : IVec S_ 1 :=
  let main_v102 : IVec S_ 1 := (fun x v => Host.reduce IntOp.andi x v reducesTo_S2x128x128_S_d0_1_2 h_S_) main_v101 main_c_39
  let main_v103 : IVec S_ 1 := andi main_v98 main_v102
  let main_v104 : FVec F S2x128 .f32 := Host.absf main_arg24
  let main_cst_40 : FVec F S_ .f32 := constant S_ .f32 0x7F800000#32
  let main_v105 : FVec F S2x128 .f32 := broadcastInDim S2x128 ![] bcast_S_S2x128 main_cst_40
  let main_v106 : IVec S2x128 1 := cmpf .olt main_v104 main_v105
  let main_c_41 : IVec S_ 1 := constantI S_ 1 1#1
  let main_v107 : IVec S_ 1 := (fun x v => Host.reduce IntOp.andi x v reducesTo_S2x128_S_d0_1 h_S_) main_v106 main_c_41
  let main_v108 : IVec S_ 1 := andi main_v103 main_v107
  let main_v109 : FVec F S2 .f32 := Host.absf main_arg25
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  let main_v114 : FVec F S128x10 .f32 := Host.absf main_arg26
  let main_cst_44 : FVec F S_ .f32 := constant S_ .f32 0x7F800000#32
  let main_v115 : FVec F S128x10 .f32 := broadcastInDim S128x10 ![] bcast_S_S128x10 main_cst_44
  let main_v116 : IVec S128x10 1 := cmpf .olt main_v114 main_v115
  let main_c_45 : IVec S_ 1 := constantI S_ 1 1#1
  let main_v117 : IVec S_ 1 := (fun x v => Host.reduce IntOp.andi x v reducesTo_S128x10_S_d0_1 h_S_) main_v116 main_c_45
  let main_v118 : IVec S_ 1 := andi main_v113 main_v117
  let main_v119 : FVec F S10 .f32 := Host.absf main_arg27
  fn_part7 (F := F) main_v118 main_v119

def fn_part5 {F : FTy → Type} [FloatOps F] (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) (main_v83 : IVec S_ 1) (main_v84 : FVec F S2x2 .f32) (main_cst_32 : FVec F S_ .f32) : IVec S_ 1 :=
  let main_v85 : FVec F S2x2 .f32 := broadcastInDim S2x2 ![] bcast_S_S2x2 main_cst_32
  let main_v86 : IVec S2x2 1 := cmpf .olt main_v84 main_v85
  let main_c_33 : IVec S_ 1 := constantI S_ 1 1#1
  let main_v87 : IVec S_ 1 := (fun x v => Host.reduce IntOp.andi x v reducesTo_S2x2_S_d0_1 h_S_) main_v86 main_c_33
  let main_v88 : IVec S_ 1 := andi main_v83 main_v87
  let main_v89 : FVec F S2x128x128 .f32 := Host.absf main_arg21
  let main_cst_34 : FVec F S_ .f32 := constant S_ .f32 0x7F800000#32
  let main_v90 : FVec F S2x128x128 .f32 := broadcastInDim S2x128x128 ![] bcast_S_S2x128x128 main_cst_34
  let main_v91 : IVec S2x128x128 1 := cmpf .olt main_v89 main_v90
  let main_c_35 : IVec S_ 1 := constantI S_ 1 1#1
  let main_v92 : IVec S_ 1 := (fun x v => Host.reduce IntOp.andi x v reducesTo_S2x128x128_S_d0_1_2 h_S_) main_v91 main_c_35
  let main_v93 : IVec S_ 1 := andi main_v88 main_v92
  let main_v94 : FVec F S2x128 .f32 := Host.absf main_arg22
  let main_cst_36 : FVec F S_ .f32 := constant S_ .f32 0x7F800000#32
  let main_v95 : FVec F S2x128 .f32 := broadcastInDim S2x128 ![] bcast_S_S2x128 main_cst_36
  let main_v96 : IVec S2x128 1 := cmpf .olt main_v94 main_v95
  let main_c_37 : IVec S_ 1 := constantI S_ 1 1#1
  let main_v97 : IVec S_ 1 := (fun x v => Host.reduce IntOp.andi x v reducesTo_S2x128_S_d0_1 h_S_) main_v96 main_c_37
  let main_v98 : IVec S_ 1 := andi main_v93 main_v97
  let main_v99 : FVec F S2x128x128 .f32 := Host.absf main_arg23
  let main_cst_38 : FVec F S_ .f32 := constant S_ .f32 0x7F800000#32
  let main_v100 : FVec F S2x128x128 .f32 := broadcastInDim S2x128x128 ![] bcast_S_S2x128x128 main_cst_38
  let main_v101 : IVec S2x128x128 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S2x256x128 .f32) (main_arg18 : FVec F S2x128 .f32) (main_arg19 : FVec F S2x128x2 .f32) (main_arg20 : FVec F S2x2 .f32) (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) (main_v63 : IVec S_ 1) (main_v67 : IVec S_ 1) : IVec S_ 1 :=
  let main_v68 : IVec S_ 1 := andi main_v63 main_v67
  let main_v69 : FVec F S2x256x128 .f32 := Host.absf main_arg17
  let main_cst_26 : FVec F S_ .f32 := constant S_ .f32 0x7F800000#32
  let main_v70 : FVec F S2x256x128 .f32 := broadcastInDim S2x256x128 ![] bcast_S_S2x256x128 main_cst_26
  let main_v71 : IVec S2x256x128 1 := cmpf .olt main_v69 main_v70
  let main_c_27 : IVec S_ 1 := constantI S_ 1 1#1
  let main_v72 : IVec S_ 1 := (fun x v => Host.reduce IntOp.andi x v reducesTo_S2x256x128_S_d0_1_2 h_S_) main_v71 main_c_27
  let main_v73 : IVec S_ 1 := andi main_v68 main_v72
  let main_v74 : FVec F S2x128 .f32 := Host.absf main_arg18
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2x128x2 .f32 := Host.absf main_arg19
  let main_cst_30 : FVec F S_ .f32 := constant S_ .f32 0x7F800000#32
  let main_v80 : FVec F S2x128x2 .f32 := broadcastInDim S2x128x2 ![] bcast_S_S2x128x2 main_cst_30
  let main_v81 : IVec S2x128x2 1 := cmpf .olt main_v79 main_v80
  let main_c_31 : IVec S_ 1 := constantI S_ 1 1#1
  let main_v82 : IVec S_ 1 := (fun x v => Host.reduce IntOp.andi x v reducesTo_S2x128x2_S_d0_1_2 h_S_) main_v81 main_c_31
  let main_v83 : IVec S_ 1 := andi main_v78 main_v82
  let main_v84 : FVec F S2x2 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S2x128 .f32) (main_arg15 : FVec F S2x128x2 .f32) (main_arg16 : FVec F S2x2 .f32) (main_arg17 : FVec F S2x256x128 .f32) (main_arg18 : FVec F S2x128 .f32) (main_arg19 : FVec F S2x128x2 .f32) (main_arg20 : FVec F S2x2 .f32) (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) (main_v48 : IVec S_ 1) (main_v49 : FVec F S2x256x128 .f32) (main_v50 : FVec F S2x256x128 .f32) : IVec S_ 1 :=
  let main_v51 : IVec S2x256x128 1 := cmpf .olt main_v49 main_v50
  let main_c_19 : IVec S_ 1 := constantI S_ 1 1#1
  let main_v52 : IVec S_ 1 := (fun x v => Host.reduce IntOp.andi x v reducesTo_S2x256x128_S_d0_1_2 h_S_) main_v51 main_c_19
  let main_v53 : IVec S_ 1 := andi main_v48 main_v52
  let main_v54 : FVec F S2x128 .f32 := Host.absf main_arg14
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128x2 .f32 := Host.absf main_arg15
  let main_cst_22 : FVec F S_ .f32 := constant S_ .f32 0x7F800000#32
  let main_v60 : FVec F S2x128x2 .f32 := broadcastInDim S2x128x2 ![] bcast_S_S2x128x2 main_cst_22
  let main_v61 : IVec S2x128x2 1 := cmpf .olt main_v59 main_v60
  let main_c_23 : IVec S_ 1 := constantI S_ 1 1#1
  let main_v62 : IVec S_ 1 := (fun x v => Host.reduce IntOp.andi x v reducesTo_S2x128x2_S_d0_1_2 h_S_) main_v61 main_c_23
  let main_v63 : IVec S_ 1 := andi main_v58 main_v62
  let main_v64 : FVec F S2x2 .f32 := Host.absf main_arg16
  let main_cst_24 : FVec F S_ .f32 := constant S_ .f32 0x7F800000#32
  let main_v65 : FVec F S2x2 .f32 := broadcastInDim S2x2 ![] bcast_S_S2x2 main_cst_24
  let main_v66 : IVec S2x2 1 := cmpf .olt main_v64 main_v65
  let main_c_25 : IVec S_ 1 := constantI S_ 1 1#1
  let main_v67 : IVec S_ 1 := (fun x v => Host.reduce IntOp.andi x v reducesTo_S2x2_S_d0_1 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S2 .f32) (main_arg11 : FVec F S128x128 .f32) (main_arg12 : FVec F S128 .f32) (main_arg13 : FVec F S2x256x128 .f32) (main_arg14 : FVec F S2x128 .f32) (main_arg15 : FVec F S2x128x2 .f32) (main_arg16 : FVec F S2x2 .f32) (main_arg17 : FVec F S2x256x128 .f32) (main_arg18 : FVec F S2x128 .f32) (main_arg19 : FVec F S2x128x2 .f32) (main_arg20 : FVec F S2x2 .f32) (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x256x128 .f32 := Host.absf main_arg13
  let main_cst_18 : FVec F S_ .f32 := constant S_ .f32 0x7F800000#32
  let main_v50 : FVec F S2x256x128 .f32 := broadcastInDim S2x256x128 ![] bcast_S_S2x256x128 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S2x128 .f32) (main_arg8 : FVec F S2x128x128 .f32) (main_arg9 : FVec F S2x128 .f32) (main_arg10 : FVec F S2 .f32) (main_arg11 : FVec F S128x128 .f32) (main_arg12 : FVec F S128 .f32) (main_arg13 : FVec F S2x256x128 .f32) (main_arg14 : FVec F S2x128 .f32) (main_arg15 : FVec F S2x128x2 .f32) (main_arg16 : FVec F S2x2 .f32) (main_arg17 : FVec F S2x256x128 .f32) (main_arg18 : FVec F S2x128 .f32) (main_arg19 : FVec F S2x128x2 .f32) (main_arg20 : FVec F S2x2 .f32) (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg7
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x128 .f32) (main_arg1 : IVec S2x320000 32) (main_arg2 : FVec F S320000x128 .f32) (main_arg3 : FVec F S320000 .f32) (main_arg4 : IVec S200000x2 32) (main_arg5 : IVec S20000 32) (main_arg6 : FVec F S2x128x128 .f32) (main_arg7 : FVec F S2x128 .f32) (main_arg8 : FVec F S2x128x128 .f32) (main_arg9 : FVec F S2x128 .f32) (main_arg10 : FVec F S2 .f32) (main_arg11 : FVec F S128x128 .f32) (main_arg12 : FVec F S128 .f32) (main_arg13 : FVec F S2x256x128 .f32) (main_arg14 : FVec F S2x128 .f32) (main_arg15 : FVec F S2x128x2 .f32) (main_arg16 : FVec F S2x2 .f32) (main_arg17 : FVec F S2x256x128 .f32) (main_arg18 : FVec F S2x128 .f32) (main_arg19 : FVec F S2x128x2 .f32) (main_arg20 : FVec F S2x2 .f32) (main_arg21 : FVec F S2x128x128 .f32) (main_arg22 : FVec F S2x128 .f32) (main_arg23 : FVec F S2x128x128 .f32) (main_arg24 : FVec F S2x128 .f32) (main_arg25 : FVec F S2 .f32) (main_arg26 : FVec F S128x10 .f32) (main_arg27 : FVec F S10 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg2
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S320000 .f32 := Host.absf main_arg3
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x128 : Shape := ⟨2, ![20000, 128]⟩
abbrev S2x320000 : Shape := ⟨2, ![2, 320000]⟩
abbrev S320000x128 : Shape := ⟨2, ![320000, 128]⟩
abbrev S320000 : Shape := ⟨1, ![320000]⟩
abbrev S200000x2 : Shape := ⟨2, ![200000, 2]⟩
abbrev S20000 : Shape := ⟨1, ![20000]⟩
abbrev S2x128x128 : Shape := ⟨3, ![2, 128, 128]⟩
abbrev S2x128 : Shape := ⟨2, ![2, 128]⟩
abbrev S2 : Shape := ⟨1, ![2]⟩
abbrev S128x128 : Shape := ⟨2, ![128, 128]⟩
abbrev S128 : Shape := ⟨1, ![128]⟩
abbrev S2x256x128 : Shape := ⟨3, ![2, 256, 128]⟩
abbrev S2x128x2 : Shape := ⟨3, ![2, 128, 2]⟩
abbrev S2x2 : Shape := ⟨2, ![2, 2]⟩
abbrev S128x10 : Shape := ⟨2, ![128, 10]⟩
abbrev S10 : Shape := ⟨1, ![10]⟩
abbrev S1x320000 : Shape := ⟨2, ![1, 320000]⟩
abbrev S200000x1 : Shape := ⟨2, ![200000, 1]⟩
abbrev S200000 : Shape := ⟨1, ![200000]⟩
abbrev S1x128 : Shape := ⟨2, ![1, 128]⟩
abbrev S4000x128 : Shape := ⟨2, ![4000, 128]⟩
abbrev S_ : Shape := ⟨0, ![]⟩
abbrev S320000x1 : Shape := ⟨2, ![320000, 1]⟩
abbrev S1 : Shape := ⟨1, ![1]⟩
abbrev S1x128x128 : Shape := ⟨3, ![1, 128, 128]⟩
abbrev S200000x128 : Shape := ⟨2, ![200000, 128]⟩
abbrev S200000x256 : Shape := ⟨2, ![200000, 256]⟩
abbrev S1x256x128 : Shape := ⟨3, ![1, 256, 128]⟩
abbrev S256x128 : Shape := ⟨2, ![256, 128]⟩
abbrev S1x128x2 : Shape := ⟨3, ![1, 128, 2]⟩
abbrev S128x2 : Shape := ⟨2, ![128, 2]⟩
abbrev S1x2 : Shape := ⟨2, ![1, 2]⟩
abbrev S4000x256 : Shape := ⟨2, ![4000, 256]⟩
abbrev S4000x2 : Shape := ⟨2, ![4000, 2]⟩
abbrev S320000x256 : Shape := ⟨2, ![320000, 256]⟩
abbrev S320000x2 : Shape := ⟨2, ![320000, 2]⟩
abbrev S64 : Shape := ⟨1, ![64]⟩
abbrev S20000x1 : Shape := ⟨2, ![20000, 1]⟩
abbrev S64x128 : Shape := ⟨2, ![64, 128]⟩
abbrev S64x1 : Shape := ⟨2, ![64, 1]⟩
abbrev S1x10 : Shape := ⟨2, ![1, 10]⟩
abbrev S64x10 : Shape := ⟨2, ![64, 10]⟩

abbrev nBuf : Space → Nat
  | .hbm => 400
  | .vmem => 74
  | .smem => 0
  | _ => 0

abbrev hbmTy0_0 (i : Nat) : BufTy := match i % 128 with
  | 0 => ⟨S20000x128, .f32⟩
  | 1 => ⟨S2x320000, .i32⟩
  | 2 => ⟨S320000x128, .f32⟩
  | 3 => ⟨S320000, .f32⟩
  | 4 => ⟨S200000x2, .i32⟩
  | 5 => ⟨S20000, .i32⟩
  | 6 => ⟨S2x128x128, .f32⟩
  | 7 => ⟨S2x128, .f32⟩
  | 8 => ⟨S2x128x128, .f32⟩
  | 9 => ⟨S2x128, .f32⟩
  | 10 => ⟨S2, .f32⟩
  | 11 => ⟨S128x128, .f32⟩
  | 12 => ⟨S128, .f32⟩
  | 13 => ⟨S2x256x128, .f32⟩
  | 14 => ⟨S2x128, .f32⟩
  | 15 => ⟨S2x128x2, .f32⟩
  | 16 => ⟨S2x2, .f32⟩
  | 17 => ⟨S2x256x128, .f32⟩
  | 18 => ⟨S2x128, .f32⟩
  | 19 => ⟨S2x128x2, .f32⟩
  | 20 => ⟨S2x2, .f32⟩
  | 21 => ⟨S2x128x128, .f32⟩
  | 22 => ⟨S2x128, .f32⟩
  | 23 => ⟨S2x128x128, .f32⟩
  | 24 => ⟨S2x128, .f32⟩
  | 25 => ⟨S2, .f32⟩
  | 26 => ⟨S128x10, .f32⟩
  | 27 => ⟨S10, .f32⟩
  | 28 => ⟨S1x320000, .i32⟩
  | 29 => ⟨S320000, .i32⟩
  | 30 => ⟨S1x320000, .i32⟩
  | 31 => ⟨S320000, .i32⟩
  | 32 => ⟨S200000x1, .i32⟩
  | 33 => ⟨S200000, .i32⟩
  | 34 => ⟨S200000x1, .i32⟩
  | 35 => ⟨S200000, .i32⟩
  | 36 => ⟨S1x128, .f32⟩
  | 37 => ⟨S320000x128, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x128, .f32⟩
  | 47 => ⟨S320000x128, .f32⟩
  | 48 => ⟨S_, .f32⟩
  | 49 => ⟨S320000x128, .f32⟩
  | 50 => ⟨S320000x128, .f32⟩
  | 51 => ⟨S320000x1, .f32⟩
  | 52 => ⟨S320000x128, .f32⟩
  | 53 => ⟨S320000x128, .f32⟩
  | 54 => ⟨S_, .f32⟩
  | 55 => ⟨S20000x128, .f32⟩
  | 56 => ⟨S320000x1, .i32⟩
  | 57 => ⟨S20000x128, .f32⟩
  | 58 => ⟨S1, .f32⟩
  | 59 => ⟨S_, .f32⟩
  | 60 => ⟨S_, .f32⟩
  | 61 => ⟨S_, .f32⟩
  | 62 => ⟨S20000x128, .f32⟩
  | 63 => ⟨S20000x128, .f32⟩
  | 64 => ⟨S20000x128, .f32⟩
  | 65 => ⟨S1x128x128, .f32⟩
  | 66 => ⟨S128x128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S1x128, .f32⟩
  | 75 => ⟨S20000x128, .f32⟩
  | 76 => ⟨S_, .f32⟩
  | 77 => ⟨S20000x128, .f32⟩
  | 78 => ⟨S20000x128, .f32⟩
  | 79 => ⟨S20000x128, .f32⟩
  | 80 => ⟨S_, .i32⟩
  | 81 => ⟨S200000, .i32⟩
  | 82 => ⟨S200000, .i1⟩
  | 83 => ⟨S_, .i32⟩
  | 84 => ⟨S200000, .i32⟩
  | 85 => ⟨S200000, .i32⟩
  | 86 => ⟨S200000, .i32⟩
  | 87 => ⟨S200000x1, .i32⟩
  | 88 => ⟨S200000x128, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x128, .f32⟩
  | 98 => ⟨S200000x256, .f32⟩
  | 99 => ⟨S1x256x128, .f32⟩
  | 100 => ⟨S256x128, .f32⟩
  | 101 => ⟨S1x128, .f32⟩
  | 102 => ⟨S128, .f32⟩
  | 103 => ⟨S1x128x2, .f32⟩
  | 104 => ⟨S128x2, .f32⟩
  | 105 => ⟨S1x2, .f32⟩
  | 106 => ⟨S2, .f32⟩
  | 107 => ⟨S1x128, .f32⟩
  | 108 => ⟨S1x2, .f32⟩
  | 109 => ⟨S200000x2, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x128, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x128, .f32⟩
  | _ => ⟨S20000x128, .f32⟩

abbrev hbmTy0_1 (i : Nat) : BufTy := match i % 128 with
  | 0 => ⟨S320000x256, .f32⟩
  | 1 => ⟨S1x256x128, .f32⟩
  | 2 => ⟨S256x128, .f32⟩
  | 3 => ⟨S1x128, .f32⟩
  | 4 => ⟨S128, .f32⟩
  | 5 => ⟨S1x128x2, .f32⟩
  | 6 => ⟨S128x2, .f32⟩
  | 7 => ⟨S1x2, .f32⟩
  | 8 => ⟨S2, .f32⟩
  | 9 => ⟨S1x128, .f32⟩
  | 10 => ⟨S1x2, .f32⟩
  | 11 => ⟨S320000x2, .f32⟩
  | 12 => ⟨S_, .f32⟩
  | 13 => ⟨S320000, .f32⟩
  | 14 => ⟨S_, .f32⟩
  | 15 => ⟨S320000, .f32⟩
  | 16 => ⟨S320000, .f32⟩
  | 17 => ⟨S320000, .f32⟩
  | 18 => ⟨S320000, .f32⟩
  | 19 => ⟨S_, .f32⟩
  | 20 => ⟨S320000, .f32⟩
  | 21 => ⟨S320000, .f32⟩
  | 22 => ⟨S_, .f32⟩
  | 23 => ⟨S320000, .f32⟩
  | 24 => ⟨S320000, .f32⟩
  | 25 => ⟨S_, .f32⟩
  | 26 => ⟨S200000, .f32⟩
  | 27 => ⟨S_, .f32⟩
  | 28 => ⟨S200000, .f32⟩
  | 29 => ⟨S200000, .f32⟩
  | 30 => ⟨S200000, .f32⟩
  | 31 => ⟨S200000, .f32⟩
  | 32 => ⟨S_, .f32⟩
  | 33 => ⟨S200000, .f32⟩
  | 34 => ⟨S200000, .f32⟩
  | 35 => ⟨S_, .f32⟩
  | 36 => ⟨S200000, .f32⟩
  | 37 => ⟨S200000, .f32⟩
  | 38 => ⟨S320000x128, .f32⟩
  | 39 => ⟨S_, .f32⟩
  | 40 => ⟨S320000x128, .f32⟩
  | 41 => ⟨S320000x128, .f32⟩
  | 42 => ⟨S320000, .f32⟩
  | 43 => ⟨S320000x1, .f32⟩
  | 44 => ⟨S320000x128, .f32⟩
  | 45 => ⟨S320000x128, .f32⟩
  | 46 => ⟨S1x128, .f32⟩
  | 47 => ⟨S200000x128, .f32⟩
  | 48 => ⟨S200000x128, .f32⟩
  | 49 => ⟨S_, .f32⟩
  | 50 => ⟨S200000x128, .f32⟩
  | 51 => ⟨S200000x128, .f32⟩
  | 52 => ⟨S200000x1, .f32⟩
  | 53 => ⟨S200000x128, .f32⟩
  | 54 => ⟨S200000x128, .f32⟩
  | 55 => ⟨S_, .f32⟩
  | 56 => ⟨S20000x128, .f32⟩
  | 57 => ⟨S320000x1, .i32⟩
  | 58 => ⟨S20000x128, .f32⟩
  | 59 => ⟨S_, .f32⟩
  | 60 => ⟨S20000x128, .f32⟩
  | 61 => ⟨S200000x1, .i32⟩
  | 62 => ⟨S20000x128, .f32⟩
  | 63 => ⟨S20000x128, .f32⟩
  | 64 => ⟨S1, .f32⟩
  | 65 => ⟨S_, .f32⟩
  | 66 => ⟨S_, .f32⟩
  | 67 => ⟨S_, .f32⟩
  | 68 => ⟨S20000x128, .f32⟩
  | 69 => ⟨S20000x128, .f32⟩
  | 70 => ⟨S20000x128, .f32⟩
  | 71 => ⟨S1x128x128, .f32⟩
  | 72 => ⟨S128x128, .f32⟩
  | 73 => ⟨S1x128, .f32⟩
  | 74 => ⟨S128, .f32⟩
  | 75 => ⟨S1x128x128, .f32⟩
  | 76 => ⟨S128x128, .f32⟩
  | 77 => ⟨S1x128, .f32⟩
  | 78 => ⟨S128, .f32⟩
  | 79 => ⟨S1x128, .f32⟩
  | 80 => ⟨S1x128, .f32⟩
  | 81 => ⟨S20000x128, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x128, .f32⟩
  | 91 => ⟨S320000x128, .f32⟩
  | 92 => ⟨S_, .f32⟩
  | 93 => ⟨S320000x128, .f32⟩
  | 94 => ⟨S320000x128, .f32⟩
  | 95 => ⟨S320000x1, .f32⟩
  | 96 => ⟨S320000x128, .f32⟩
  | 97 => ⟨S320000x128, .f32⟩
  | 98 => ⟨S_, .f32⟩
  | 99 => ⟨S20000x128, .f32⟩
  | 100 => ⟨S320000x1, .i32⟩
  | 101 => ⟨S20000x128, .f32⟩
  | 102 => ⟨S1, .f32⟩
  | 103 => ⟨S_, .f32⟩
  | 104 => ⟨S_, .f32⟩
  | 105 => ⟨S_, .f32⟩
  | 106 => ⟨S20000x128, .f32⟩
  | 107 => ⟨S20000x128, .f32⟩
  | 108 => ⟨S20000x128, .f32⟩
  | 109 => ⟨S1x128x128, .f32⟩
  | 110 => ⟨S128x128, .f32⟩
  | 111 => ⟨S1x128, .f32⟩
  | 112 => ⟨S128, .f32⟩
  | 113 => ⟨S1x128x128, .f32⟩
  | 114 => ⟨S128x128, .f32⟩
  | 115 => ⟨S1x128, .f32⟩
  | 116 => ⟨S128, .f32⟩
  | 117 => ⟨S1x128, .f32⟩
  | 118 => ⟨S1x128, .f32⟩
  | 119 => ⟨S20000x128, .f32⟩
  | 120 => ⟨S_, .f32⟩
  | 121 => ⟨S20000x128, .f32⟩
  | 122 => ⟨S20000x128, .f32⟩
  | 123 => ⟨S20000x128, .f32⟩
  | 124 => ⟨S_, .i32⟩
  | 125 => ⟨S200000, .i32⟩
  | 126 => ⟨S200000, .i1⟩
  | 127 => ⟨S_, .i32⟩
  | _ => ⟨S20000x128, .f32⟩

abbrev hbmTy0_2 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x128, .f32⟩
  | 14 => ⟨S200000x256, .f32⟩
  | 15 => ⟨S1x256x128, .f32⟩
  | 16 => ⟨S256x128, .f32⟩
  | 17 => ⟨S1x128, .f32⟩
  | 18 => ⟨S128, .f32⟩
  | 19 => ⟨S1x128x2, .f32⟩
  | 20 => ⟨S128x2, .f32⟩
  | 21 => ⟨S1x2, .f32⟩
  | 22 => ⟨S2, .f32⟩
  | 23 => ⟨S1x128, .f32⟩
  | 24 => ⟨S1x2, .f32⟩
  | 25 => ⟨S200000x2, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x128, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x128, .f32⟩
  | 44 => ⟨S320000x256, .f32⟩
  | 45 => ⟨S1x256x128, .f32⟩
  | 46 => ⟨S256x128, .f32⟩
  | 47 => ⟨S1x128, .f32⟩
  | 48 => ⟨S128, .f32⟩
  | 49 => ⟨S1x128x2, .f32⟩
  | 50 => ⟨S128x2, .f32⟩
  | 51 => ⟨S1x2, .f32⟩
  | 52 => ⟨S2, .f32⟩
  | 53 => ⟨S1x128, .f32⟩
  | 54 => ⟨S1x2, .f32⟩
  | 55 => ⟨S320000x2, .f32⟩
  | 56 => ⟨S_, .f32⟩
  | 57 => ⟨S320000, .f32⟩
  | 58 => ⟨S_, .f32⟩
  | 59 => ⟨S320000, .f32⟩
  | 60 => ⟨S320000, .f32⟩
  | 61 => ⟨S320000, .f32⟩
  | 62 => ⟨S320000, .f32⟩
  | 63 => ⟨S_, .f32⟩
  | 64 => ⟨S320000, .f32⟩
  | 65 => ⟨S320000, .f32⟩
  | 66 => ⟨S_, .f32⟩
  | 67 => ⟨S320000, .f32⟩
  | 68 => ⟨S320000, .f32⟩
  | 69 => ⟨S_, .f32⟩
  | 70 => ⟨S200000, .f32⟩
  | 71 => ⟨S_, .f32⟩
  | 72 => ⟨S200000, .f32⟩
  | 73 => ⟨S200000, .f32⟩
  | 74 => ⟨S200000, .f32⟩
  | 75 => ⟨S200000, .f32⟩
  | 76 => ⟨S_, .f32⟩
  | 77 => ⟨S200000, .f32⟩
  | 78 => ⟨S200000, .f32⟩
  | 79 => ⟨S_, .f32⟩
  | 80 => ⟨S200000, .f32⟩
  | 81 => ⟨S200000, .f32⟩
  | 82 => ⟨S320000x128, .f32⟩
  | 83 => ⟨S_, .f32⟩
  | 84 => ⟨S320000x128, .f32⟩
  | 85 => ⟨S320000x128, .f32⟩
  | 86 => ⟨S320000, .f32⟩
  | 87 => ⟨S320000x1, .f32⟩
  | 88 => ⟨S320000x128, .f32⟩
  | 89 => ⟨S320000x128, .f32⟩
  | 90 => ⟨S1x128, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S200000x1, .f32⟩
  | 97 => ⟨S200000x128, .f32⟩
  | 98 => ⟨S200000x128, .f32⟩
  | 99 => ⟨S_, .f32⟩
  | 100 => ⟨S20000x128, .f32⟩
  | 101 => ⟨S320000x1, .i32⟩
  | 102 => ⟨S20000x128, .f32⟩
  | 103 => ⟨S_, .f32⟩
  | 104 => ⟨S20000x128, .f32⟩
  | 105 => ⟨S200000x1, .i32⟩
  | 106 => ⟨S20000x128, .f32⟩
  | 107 => ⟨S20000x128, .f32⟩
  | 108 => ⟨S1, .f32⟩
  | 109 => ⟨S_, .f32⟩
  | 110 => ⟨S_, .f32⟩
  | 111 => ⟨S_, .f32⟩
  | 112 => ⟨S20000x128, .f32⟩
  | 113 => ⟨S20000x128, .f32⟩
  | 114 => ⟨S20000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S1x128, .f32⟩
  | 125 => ⟨S20000x128, .f32⟩
  | 126 => ⟨S_, .f32⟩
  | 127 => ⟨S20000, .f32⟩
  | _ => ⟨S20000x128, .f32⟩

abbrev hbmTy0_3 (i : Nat) : BufTy := match i % 128 with
  | 0 => ⟨S_, .f32⟩
  | 1 => ⟨S64, .f32⟩
  | 2 => ⟨S20000x1, .i32⟩
  | 3 => ⟨S64, .f32⟩
  | 4 => ⟨S_, .f32⟩
  | 5 => ⟨S64x128, .f32⟩
  | 6 => ⟨S20000x1, .i32⟩
  | 7 => ⟨S64x128, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | 14 => ⟨S1x10, .f32⟩
  | 15 => ⟨S64x10, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x256, .f32⟩
  | .local _ .vmem, ⟨15, _⟩ => ⟨S4000x256, .f32⟩
  | .local _ .vmem, ⟨16, _⟩ => ⟨S256x128, .f32⟩
  | .local _ .vmem, ⟨17, _⟩ => ⟨S1x128, .f32⟩
  | .local _ .vmem, ⟨18, _⟩ => ⟨S128x2, .f32⟩
  | .local _ .vmem, ⟨19, _⟩ => ⟨S1x2, .f32⟩
  | .local _ .vmem, ⟨20, _⟩ => ⟨S4000x2, .f32⟩
  | .local _ .vmem, ⟨21, _⟩ => ⟨S4000x2, .f32⟩
  | .local _ .vmem, ⟨22, _⟩ => ⟨S4000x256, .f32⟩
  | .local _ .vmem, ⟨23, _⟩ => ⟨S4000x256, .f32⟩
  | .local _ .vmem, ⟨24, _⟩ => ⟨S256x128, .f32⟩
  | .local _ .vmem, ⟨25, _⟩ => ⟨S1x128, .f32⟩
  | .local _ .vmem, ⟨26, _⟩ => ⟨S128x2, .f32⟩
  | .local _ .vmem, ⟨27, _⟩ => ⟨S1x2, .f32⟩
  | .local _ .vmem, ⟨28, _⟩ => ⟨S4000x2, .f32⟩
  | .local _ .vmem, ⟨29, _⟩ => ⟨S4000x2, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S4000x128, .f32⟩
  | .local _ .vmem, ⟨45, _⟩ => ⟨S4000x128, .f32⟩
  | .local _ .vmem, ⟨46, _⟩ => ⟨S4000x256, .f32⟩
  | .local _ .vmem, ⟨47, _⟩ => ⟨S4000x256, .f32⟩
  | .local _ .vmem, ⟨48, _⟩ => ⟨S256x128, .f32⟩
  | .local _ .vmem, ⟨49, _⟩ => ⟨S1x128, .f32⟩
  | .local _ .vmem, ⟨50, _⟩ => ⟨S128x2, .f32⟩
  | .local _ .vmem, ⟨51, _⟩ => ⟨S1x2, .f32⟩
  | .local _ .vmem, ⟨52, _⟩ => ⟨S4000x2, .f32⟩
  | .local _ .vmem, ⟨53, _⟩ => ⟨S4000x2, .f32⟩
  | .local _ .vmem, ⟨54, _⟩ => ⟨S4000x256, .f32⟩
  | .local _ .vmem, ⟨55, _⟩ => ⟨S4000x256, .f32⟩
  | .local _ .vmem, ⟨56, _⟩ => ⟨S256x128, .f32⟩
  | .local _ .vmem, ⟨57, _⟩ => ⟨S1x128, .f32⟩
  | .local _ .vmem, ⟨58, _⟩ => ⟨S128x2, .f32⟩
  | .local _ .vmem, ⟨59, _⟩ => ⟨S1x2, .f32⟩
  | .local _ .vmem, ⟨60, _⟩ => ⟨S4000x2, .f32⟩
  | .local _ .vmem, ⟨61, _⟩ => ⟨S4000x2, .f32⟩
  | .local _ .vmem, ⟨62, _⟩ => ⟨S4000x128, .f32⟩
  | .local _ .vmem, ⟨63, _⟩ => ⟨S4000x128, .f32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S4000x128, .f32⟩
  | .local _ .vmem, ⟨69, _⟩ => ⟨S4000x128, .f32⟩
  | .local _ .vmem, ⟨70, _⟩ => ⟨S64x128, .f32⟩
  | .local _ .vmem, ⟨71, _⟩ => ⟨S128x10, .f32⟩
  | .local _ .vmem, ⟨72, _⟩ => ⟨S1x10, .f32⟩
  | .local _ .vmem, ⟨73, _⟩ => ⟨S64x10, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c : Ref sig .tc := ⟨.hbm, 38, rfl⟩
abbrev main_v10 : Ref sig .tc := ⟨.hbm, 39, rfl⟩
abbrev main_v11 : Ref sig .tc := ⟨.hbm, 40, rfl⟩
abbrev main_c_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call0_cst : Ref sig .tc := ⟨.hbm, 48, rfl⟩
abbrev main_call0_v0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_1 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call1_cst : Ref sig .tc := ⟨.hbm, 76, rfl⟩
abbrev main_call1_v0 : Ref sig .tc := ⟨.hbm, 77, rfl⟩
abbrev main_v42 : Ref sig .tc := ⟨.hbm, 78, rfl⟩
abbrev main_v43 : Ref sig .tc := ⟨.hbm, 79, rfl⟩
abbrev main_c_2 : Ref sig .tc := ⟨.hbm, 80, rfl⟩
abbrev main_v44 : Ref sig .tc := ⟨.hbm, 81, rfl⟩
abbrev main_v45 : Ref sig .tc := ⟨.hbm, 82, rfl⟩
abbrev main_c_3 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_4 : Ref sig .tc := ⟨.hbm, 89, rfl⟩
abbrev main_v51 : Ref sig .tc := ⟨.hbm, 90, rfl⟩
abbrev main_v52 : Ref sig .tc := ⟨.hbm, 91, rfl⟩
abbrev main_c_5 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_6 : Ref sig .tc := ⟨.hbm, 110, rfl⟩
abbrev main_v70 : Ref sig .tc := ⟨.hbm, 111, rfl⟩
abbrev main_v71 : Ref sig .tc := ⟨.hbm, 112, rfl⟩
abbrev main_c_7 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_8 : Ref sig .tc := ⟨.hbm, 119, rfl⟩
abbrev main_v77 : Ref sig .tc := ⟨.hbm, 120, rfl⟩
abbrev main_v78 : Ref sig .tc := ⟨.hbm, 121, rfl⟩
abbrev main_c_9 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_10 : Ref sig .tc := ⟨.hbm, 140, rfl⟩
abbrev main_v96 : Ref sig .tc := ⟨.hbm, 141, rfl⟩
abbrev main_cst_11 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_12 : Ref sig .tc := ⟨.hbm, 147, rfl⟩
abbrev main_v101 : Ref sig .tc := ⟨.hbm, 148, rfl⟩
abbrev main_v102 : Ref sig .tc := ⟨.hbm, 149, rfl⟩
abbrev main_cst_13 : Ref sig .tc := ⟨.hbm, 150, rfl⟩
abbrev main_v103 : Ref sig .tc := ⟨.hbm, 151, rfl⟩
abbrev main_v104 : Ref sig .tc := ⟨.hbm, 152, rfl⟩
abbrev main_cst_14 : Ref sig .tc := ⟨.hbm, 153, rfl⟩
abbrev main_v105 : Ref sig .tc := ⟨.hbm, 154, rfl⟩
abbrev main_cst_15 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_16 : Ref sig .tc := ⟨.hbm, 160, rfl⟩
abbrev main_v110 : Ref sig .tc := ⟨.hbm, 161, rfl⟩
abbrev main_v111 : Ref sig .tc := ⟨.hbm, 162, rfl⟩
abbrev main_cst_17 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_call2_cst : Ref sig .tc := ⟨.hbm, 167, rfl⟩
abbrev main_call2_v0 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_call3_cst : Ref sig .tc := ⟨.hbm, 177, rfl⟩
abbrev main_call3_v0 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_18 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_19 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_20 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_c_21 : Ref sig .tc := ⟨.hbm, 210, rfl⟩
abbrev main_v151 : Ref sig .tc := ⟨.hbm, 211, rfl⟩
abbrev main_v152 : Ref sig .tc := ⟨.hbm, 212, rfl⟩
abbrev main_c_22 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_call4_cst : Ref sig .tc := ⟨.hbm, 220, rfl⟩
abbrev main_call4_v0 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_23 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_24 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_call5_cst : Ref sig .tc := ⟨.hbm, 248, rfl⟩
abbrev main_call5_v0 : Ref sig .tc := ⟨.hbm, 249, rfl⟩
abbrev main_v183 : Ref sig .tc := ⟨.hbm, 250, rfl⟩
abbrev main_v184 : Ref sig .tc := ⟨.hbm, 251, rfl⟩
abbrev main_c_25 : Ref sig .tc := ⟨.hbm, 252, rfl⟩
abbrev main_v185 : Ref sig .tc := ⟨.hbm, 253, rfl⟩
abbrev main_v186 : Ref sig .tc := ⟨.hbm, 254, rfl⟩
abbrev main_c_26 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_c_27 : Ref sig .tc := ⟨.hbm, 261, rfl⟩
abbrev main_v192 : Ref sig .tc := ⟨.hbm, 262, rfl⟩
abbrev main_v193 : Ref sig .tc := ⟨.hbm, 263, rfl⟩
abbrev main_c_28 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_c_29 : Ref sig .tc := ⟨.hbm, 282, rfl⟩
abbrev main_v211 : Ref sig .tc := ⟨.hbm, 283, rfl⟩
abbrev main_v212 : Ref sig .tc := ⟨.hbm, 284, rfl⟩
abbrev main_c_30 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_c_31 : Ref sig .tc := ⟨.hbm, 291, rfl⟩
abbrev main_v218 : Ref sig .tc := ⟨.hbm, 292, rfl⟩
abbrev main_v219 : Ref sig .tc := ⟨.hbm, 293, rfl⟩
abbrev main_c_32 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_cst_33 : Ref sig .tc := ⟨.hbm, 312, rfl⟩
abbrev main_v237 : Ref sig .tc := ⟨.hbm, 313, rfl⟩
abbrev main_cst_34 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_cst_35 : Ref sig .tc := ⟨.hbm, 319, rfl⟩
abbrev main_v242 : Ref sig .tc := ⟨.hbm, 320, rfl⟩
abbrev main_v243 : Ref sig .tc := ⟨.hbm, 321, rfl⟩
abbrev main_cst_36 : Ref sig .tc := ⟨.hbm, 322, rfl⟩
abbrev main_v244 : Ref sig .tc := ⟨.hbm, 323, rfl⟩
abbrev main_v245 : Ref sig .tc := ⟨.hbm, 324, rfl⟩
abbrev main_cst_37 : Ref sig .tc := ⟨.hbm, 325, rfl⟩
abbrev main_v246 : Ref sig .tc := ⟨.hbm, 326, rfl⟩
abbrev main_cst_38 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_cst_39 : Ref sig .tc := ⟨.hbm, 332, rfl⟩
abbrev main_v251 : Ref sig .tc := ⟨.hbm, 333, rfl⟩
abbrev main_v252 : Ref sig .tc := ⟨.hbm, 334, rfl⟩
abbrev main_cst_40 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_call6_cst : Ref sig .tc := ⟨.hbm, 339, rfl⟩
abbrev main_call6_v0 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_call7_cst : Ref sig .tc := ⟨.hbm, 349, rfl⟩
abbrev main_call7_v0 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_cst_41 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_cst_42 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_cst_43 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_cst_44 : Ref sig .tc := ⟨.hbm, 382, rfl⟩
abbrev main_v292 : Ref sig .tc := ⟨.hbm, 383, rfl⟩
abbrev main_cst_45 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_cst_46 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_cst_47 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg5_1 : Ref sig .tc := ⟨.vmem, 69, rfl⟩
abbrev cc9_stg0_0 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem5_1 : DmaSem sig := 69
abbrev cc9_sem0_0 : DmaSem sig := 70
abbrev cc9_sem1_0 : DmaSem sig := 71
abbrev cc9_sem2_0 : DmaSem sig := 72
abbrev cc9_sem3_0 : DmaSem sig := 73

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x2 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S200000x2_S200000x1_0_0 : S200000x2.Slices ![0, 0] S200000x1
  shapeCasts_S200000x1_S200000 : S200000x1.ShapeCasts S200000
  slices_S200000x2_S200000x1_0_1 : S200000x2.Slices ![0, 1] S200000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x128 : S_.BroadcastsInDim S320000x128 (![] : Fin 0 → Fin S320000x128.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  slices_S2_S1_0 : S2.Slices ![0] S1
  shapeCasts_S1_S_ : S1.ShapeCasts S_
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S4000x128_S4000x128 : S4000x128.ShapeCasts S4000x128
  shapeCasts_S128x128_S128x128 : S128x128.ShapeCasts S128x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  slices_S2x256x128_S1x256x128_0_0_0 : S2x256x128.Slices ![0, 0, 0] S1x256x128
  shapeCasts_S1x256x128_S256x128 : S1x256x128.ShapeCasts S256x128
  slices_S2x128x2_S1x128x2_0_0_0 : S2x128x2.Slices ![0, 0, 0] S1x128x2
  shapeCasts_S1x128x2_S128x2 : S1x128x2.ShapeCasts S128x2
  slices_S2x2_S1x2_0_0 : S2x2.Slices ![0, 0] S1x2
  shapeCasts_S1x2_S2 : S1x2.ShapeCasts S2
  shapeCasts_S2_S1x2 : S2.ShapeCasts S1x2
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  concatenates_S320000x128_S320000x128_S320000x256_d1 : Shape.Concatenates [S320000x128, S320000x128] S320000x256 1
  reducesTo_S320000x2_S320000_d1 : S320000x2.ReducesTo [1] S320000
  h_S_ : 0 < S_.numel
  reducesTo_S200000x2_S200000_d1 : S200000x2.ReducesTo [1] S200000
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  slices_S2_S1_1 : S2.Slices ![1] S1
  slices_S2x128x128_S1x128x128_1_0_0 : S2x128x128.Slices ![1, 0, 0] S1x128x128
  slices_S2x128_S1x128_1_0 : S2x128.Slices ![1, 0] S1x128
  slices_S2x256x128_S1x256x128_1_0_0 : S2x256x128.Slices ![1, 0, 0] S1x256x128
  slices_S2x128x2_S1x128x2_1_0_0 : S2x128x2.Slices ![1, 0, 0] S1x128x2
  slices_S2x2_S1x2_1_0 : S2x2.Slices ![1, 0] S1x2
  bcast_S_S20000 : S_.BroadcastsInDim S20000 (![] : Fin 0 → Fin S20000.rank)
  bcast_S_S64 : S_.BroadcastsInDim S64 (![] : Fin 0 → Fin S64.rank)
  bcast_S20000_S20000x1_0 : S20000.BroadcastsInDim S20000x1 (![0] : Fin 1 → Fin S20000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S4000x128_S128x128_S4000x128_1_0_0_1_n_n_wf : DotDims.WF S4000x128 S128x128 S4000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  gather_S20000x128_S200000x1_S200000x128_1_0_n_n_0_1_1128_wf : GatherDims.WF S20000x128 S200000x1 S200000x128 [1] [0] [] [0] [] 1 ![1, 128]
  dot_S4000x256_S256x128_S4000x128_1_0_0_1_n_n_wf : DotDims.WF S4000x256 S256x128 S4000x128 [1] [0] [0] [1] [] []
  dot_S4000x128_S128x2_S4000x2_1_0_0_1_n_n_wf : DotDims.WF S4000x128 S128x2 S4000x2 [1] [0] [0] [1] [] []
  scatter_S20000x128_S200000x1_S200000x128_1_0_0_1_wf : ScatterDims.WF S20000x128 S200000x1 S200000x128 [1] [0] [0] 1
  scatter_S64_S20000x1_S20000_n_0_0_1_wf : ScatterDims.WF S64 S20000x1 S20000 [] [0] [0] 1
  scatter_S64x128_S20000x1_S20000x128_1_0_0_1_wf : ScatterDims.WF S64x128 S20000x1 S20000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S320000x128.size a
  hwx0_3 : ∀ i : grid0.Coords, EltTy.bits .f32 = 32 ∨ (Rect.block (s := S320000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S20000x128.size a
  hwx1_5 : ∀ i : grid1.Coords, EltTy.bits .f32 = 32 ∨ (Rect.block (s := S20000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x2.size a ≤ S200000x2.size a
  hwx2_5 : ∀ i : grid2.Coords, EltTy.bits .f32 = 32 ∨ (Rect.block (s := S200000x2) S4000x2.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S320000x256.size a
  hwx3_0 : ∀ i : grid3.Coords, EltTy.bits .f32 = 32 ∨ (Rect.block (s := S320000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x2.size a ≤ S320000x2.size a
  hwx3_5 : ∀ i : grid3.Coords, EltTy.bits .f32 = 32 ∨ (Rect.block (s := S320000x2) S4000x2.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S20000x128.size a
  hwx4_5 : ∀ i : grid4.Coords, EltTy.bits .f32 = 32 ∨ (Rect.block (s := S20000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S20000x128.size a
  hwx5_5 : ∀ i : grid5.Coords, EltTy.bits .f32 = 32 ∨ (Rect.block (s := S20000x128) S4000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S200000x256.size a
  hwx6_0 : ∀ i : grid6.Coords, EltTy.bits .f32 = 32 ∨ (Rect.block (s := S200000x256) S4000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x2.size a ≤ S128x2.size a
  hwx6_3 : ∀ i : grid6.Coords, EltTy.bits .f32 = 32 ∨ (Rect.block (s := S128x2) S128x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x2.size a ≤ S200000x2.size a
  hwx6_5 : ∀ i : grid6.Coords, EltTy.bits .f32 = 32 ∨ (Rect.block (s := S200000x2) S4000x2.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x256.size a ≤ S320000x256.size a
  hwx7_0 : ∀ i : grid7.Coords, EltTy.bits .f32 = 32 ∨ (Rect.block (s := S320000x256) S4000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x2.size a ≤ S128x2.size a
  hwx7_3 : ∀ i : grid7.Coords, EltTy.bits .f32 = 32 ∨ (Rect.block (s := S128x2) S128x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x2.size a ≤ S1x2.size a
  hwx7_4 : ∀ i : grid7.Coords, EltTy.bits .f32 = 32 ∨ (Rect.block (s := S1x2) S1x2.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x2.size a ≤ S320000x2.size a
  hwx7_5 : ∀ i : grid7.Coords, EltTy.bits .f32 = 32 ∨ (Rect.block (s := S320000x2) S4000x2.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .f32 = 32 ∨ (Rect.block (s := S20000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x128.size a ≤ S20000x128.size a
  hwx8_5 : ∀ i : grid8.Coords, EltTy.bits .f32 = 32 ∨ (Rect.block (s := S20000x128) S4000x128.size (cc8_transform_5 i) (hinb8_5 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x10.size a ≤ S128x10.size a
  hwx9_1 : ∀ i : grid9.Coords, EltTy.bits .f32 = 32 ∨ (Rect.block (s := S128x10) S128x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S64x10.size a ≤ S64x10.size a
  hwx9_3 : ∀ i : grid9.Coords, EltTy.bits .f32 = 32 ∨ (Rect.block (s := S64x10) S64x10.size (cc9_transform_3 i) (hinb9_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S4000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S4000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v139) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v148) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v145) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v149) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v150) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v171) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v173) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v180) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v177) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v181) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v182) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v199) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v201) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v208) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v205) S128x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v209) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v210) S4000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v225) S4000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v227) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v234) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v231) S128x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v235) S1x2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v236) S4000x2.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v280) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v282) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v289) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v286) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v290) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v291) S4000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v303) S64x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg26) S128x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v304) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v305) S64x10.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000x128 : Shape := ⟨2, ![320000, 128]⟩
abbrev S320000 : Shape := ⟨1, ![320000]⟩
abbrev S200000x2 : Shape := ⟨2, ![200000, 2]⟩
abbrev S20000 : Shape := ⟨1, ![20000]⟩
abbrev S2x128x128 : Shape := ⟨3, ![2, 128, 128]⟩
abbrev S2x128 : Shape := ⟨2, ![2, 128]⟩
abbrev S2 : Shape := ⟨1, ![2]⟩
abbrev S128x128 : Shape := ⟨2, ![128, 128]⟩
abbrev S128 : Shape := ⟨1, ![128]⟩
abbrev S2x256x128 : Shape := ⟨3, ![2, 256, 128]⟩
abbrev S2x128x2 : Shape := ⟨3, ![2, 128, 2]⟩
abbrev S2x2 : Shape := ⟨2, ![2, 2]⟩
abbrev S128x10 : Shape := ⟨2, ![128, 10]⟩
abbrev S10 : Shape := ⟨1, ![10]⟩
abbrev S1x320000 : Shape := ⟨2, ![1, 320000]⟩
abbrev S200000x1 : Shape := ⟨2, ![200000, 1]⟩
abbrev S200000 : Shape := ⟨1, ![200000]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S320000x1 : Shape := ⟨2, ![320000, 1]⟩
abbrev S200000x128 : Shape := ⟨2, ![200000, 128]⟩
abbrev S200000x256 : Shape := ⟨2, ![200000, 256]⟩
abbrev S1x256x128 : Shape := ⟨3, ![1, 256, 128]⟩
abbrev S256x128 : Shape := ⟨2, ![256, 128]⟩
abbrev S1x128x2 : Shape := ⟨3, ![1, 128, 2]⟩
abbrev S128x2 : Shape := ⟨2, ![128, 2]⟩
abbrev S1x2 : Shape := ⟨2, ![1, 2]⟩
abbrev S320000x256 : Shape := ⟨2, ![320000, 256]⟩
abbrev S320000x2 : Shape := ⟨2, ![320000, 2]⟩
abbrev S64 : Shape := ⟨1, ![64]⟩
abbrev S20000x1 : Shape := ⟨2, ![20000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 504
  | .vmem => 0
  | .smem => 0
  | _ => 0

abbrev hbmTy0_0 (i : Nat) : BufTy := match i % 128 with
  | 0 => ⟨S20000x128, .f32⟩
  | 1 => ⟨S2x320000, .i32⟩
  | 2 => ⟨S320000x128, .f32⟩
  | 3 => ⟨S320000, .f32⟩
  | 4 => ⟨S200000x2, .i32⟩
  | 5 => ⟨S20000, .i32⟩
  | 6 => ⟨S2x128x128, .f32⟩
  | 7 => ⟨S2x128, .f32⟩
  | 8 => ⟨S2x128x128, .f32⟩
  | 9 => ⟨S2x128, .f32⟩
  | 10 => ⟨S2, .f32⟩
  | 11 => ⟨S128x128, .f32⟩
  | 12 => ⟨S128, .f32⟩
  | 13 => ⟨S2x256x128, .f32⟩
  | 14 => ⟨S2x128, .f32⟩
  | 15 => ⟨S2x128x2, .f32⟩
  | 16 => ⟨S2x2, .f32⟩
  | 17 => ⟨S2x256x128, .f32⟩
  | 18 => ⟨S2x128, .f32⟩
  | 19 => ⟨S2x128x2, .f32⟩
  | 20 => ⟨S2x2, .f32⟩
  | 21 => ⟨S2x128x128, .f32⟩
  | 22 => ⟨S2x128, .f32⟩
  | 23 => ⟨S2x128x128, .f32⟩
  | 24 => ⟨S2x128, .f32⟩
  | 25 => ⟨S2, .f32⟩
  | 26 => ⟨S128x10, .f32⟩
  | 27 => ⟨S10, .f32⟩
  | 28 => ⟨S1x320000, .i32⟩
  | 29 => ⟨S320000, .i32⟩
  | 30 => ⟨S1x320000, .i32⟩
  | 31 => ⟨S320000, .i32⟩
  | 32 => ⟨S200000x1, .i32⟩
  | 33 => ⟨S200000, .i32⟩
  | 34 => ⟨S200000x1, .i32⟩
  | 35 => ⟨S200000, .i32⟩
  | 36 => ⟨S320000x128, .f32⟩
  | 37 => ⟨S1x128, .f32⟩
  | 38 => ⟨S320000x128, .f32⟩
  | 39 => ⟨S320000x128, .f32⟩
  | 40 => ⟨S1, .f32⟩
  | 41 => ⟨S_, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x128, .f32⟩
  | 59 => ⟨S320000x128, .f32⟩
  | 60 => ⟨S_, .f32⟩
  | 61 => ⟨S320000x128, .f32⟩
  | 62 => ⟨S320000x128, .f32⟩
  | 63 => ⟨S320000x1, .f32⟩
  | 64 => ⟨S320000x128, .f32⟩
  | 65 => ⟨S320000x128, .f32⟩
  | 66 => ⟨S_, .f32⟩
  | 67 => ⟨S20000x128, .f32⟩
  | 68 => ⟨S320000x1, .i32⟩
  | 69 => ⟨S20000x128, .f32⟩
  | 70 => ⟨S_, .f32⟩
  | 71 => ⟨S_, .f32⟩
  | 72 => ⟨S20000x128, .f32⟩
  | 73 => ⟨S20000x128, .f32⟩
  | 74 => ⟨S20000x128, .f32⟩
  | 75 => ⟨S20000x128, .f32⟩
  | 76 => ⟨S1x128, .f32⟩
  | 77 => ⟨S20000x128, .f32⟩
  | 78 => ⟨S20000x128, .f32⟩
  | 79 => ⟨S_, .f32⟩
  | 80 => ⟨S20000x128, .f32⟩
  | 81 => ⟨S20000x128, .f32⟩
  | 82 => ⟨S20000x128, .f32⟩
  | 83 => ⟨S1x128, .f32⟩
  | 84 => ⟨S20000x128, .f32⟩
  | 85 => ⟨S20000x128, .f32⟩
  | 86 => ⟨S_, .f32⟩
  | 87 => ⟨S20000x128, .f32⟩
  | 88 => ⟨S20000x128, .f32⟩
  | 89 => ⟨S20000x128, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000x128, .f32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S200000x128, .f32⟩
  | 108 => ⟨S200000x256, .f32⟩
  | 109 => ⟨S1x256x128, .f32⟩
  | 110 => ⟨S256x128, .f32⟩
  | 111 => ⟨S200000x128, .f32⟩
  | 112 => ⟨S1x128, .f32⟩
  | 113 => ⟨S128, .f32⟩
  | 114 => ⟨S1x128, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S1x128x2, .f32⟩
  | 121 => ⟨S128x2, .f32⟩
  | 122 => ⟨S200000x2, .f32⟩
  | 123 => ⟨S1x2, .f32⟩
  | 124 => ⟨S2, .f32⟩
  | 125 => ⟨S1x2, .f32⟩
  | 126 => ⟨S200000x2, .f32⟩
  | 127 => ⟨S200000x2, .f32⟩
  | _ => ⟨S20000x128, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x128, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x128, .f32⟩
  | 18 => ⟨S320000x256, .f32⟩
  | 19 => ⟨S1x256x128, .f32⟩
  | 20 => ⟨S256x128, .f32⟩
  | 21 => ⟨S320000x128, .f32⟩
  | 22 => ⟨S1x128, .f32⟩
  | 23 => ⟨S128, .f32⟩
  | 24 => ⟨S1x128, .f32⟩
  | 25 => ⟨S320000x128, .f32⟩
  | 26 => ⟨S320000x128, .f32⟩
  | 27 => ⟨S_, .f32⟩
  | 28 => ⟨S320000x128, .f32⟩
  | 29 => ⟨S320000x128, .f32⟩
  | 30 => ⟨S1x128x2, .f32⟩
  | 31 => ⟨S128x2, .f32⟩
  | 32 => ⟨S320000x2, .f32⟩
  | 33 => ⟨S1x2, .f32⟩
  | 34 => ⟨S2, .f32⟩
  | 35 => ⟨S1x2, .f32⟩
  | 36 => ⟨S320000x2, .f32⟩
  | 37 => ⟨S320000x2, .f32⟩
  | 38 => ⟨S_, .f32⟩
  | 39 => ⟨S320000, .f32⟩
  | 40 => ⟨S_, .f32⟩
  | 41 => ⟨S320000, .f32⟩
  | 42 => ⟨S320000, .f32⟩
  | 43 => ⟨S320000, .f32⟩
  | 44 => ⟨S320000, .f32⟩
  | 45 => ⟨S_, .f32⟩
  | 46 => ⟨S320000, .f32⟩
  | 47 => ⟨S320000, .f32⟩
  | 48 => ⟨S_, .f32⟩
  | 49 => ⟨S320000, .f32⟩
  | 50 => ⟨S320000, .f32⟩
  | 51 => ⟨S_, .f32⟩
  | 52 => ⟨S200000, .f32⟩
  | 53 => ⟨S_, .f32⟩
  | 54 => ⟨S200000, .f32⟩
  | 55 => ⟨S200000, .f32⟩
  | 56 => ⟨S200000, .f32⟩
  | 57 => ⟨S200000, .f32⟩
  | 58 => ⟨S_, .f32⟩
  | 59 => ⟨S200000, .f32⟩
  | 60 => ⟨S200000, .f32⟩
  | 61 => ⟨S_, .f32⟩
  | 62 => ⟨S200000, .f32⟩
  | 63 => ⟨S200000, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x128, .f32⟩
  | 73 => ⟨S320000x128, .f32⟩
  | 74 => ⟨S_, .f32⟩
  | 75 => ⟨S320000x128, .f32⟩
  | 76 => ⟨S320000x128, .f32⟩
  | 77 => ⟨S320000, .f32⟩
  | 78 => ⟨S320000x1, .f32⟩
  | 79 => ⟨S320000x128, .f32⟩
  | 80 => ⟨S320000x128, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S1x128, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S200000x1, .f32⟩
  | 97 => ⟨S200000x128, .f32⟩
  | 98 => ⟨S200000x128, .f32⟩
  | 99 => ⟨S_, .f32⟩
  | 100 => ⟨S20000x128, .f32⟩
  | 101 => ⟨S320000x1, .i32⟩
  | 102 => ⟨S20000x128, .f32⟩
  | 103 => ⟨S_, .f32⟩
  | 104 => ⟨S20000x128, .f32⟩
  | 105 => ⟨S200000x1, .i32⟩
  | 106 => ⟨S20000x128, .f32⟩
  | 107 => ⟨S20000x128, .f32⟩
  | 108 => ⟨S1, .f32⟩
  | 109 => ⟨S_, .f32⟩
  | 110 => ⟨S_, .f32⟩
  | 111 => ⟨S_, .f32⟩
  | 112 => ⟨S20000x128, .f32⟩
  | 113 => ⟨S20000x128, .f32⟩
  | 114 => ⟨S20000x128, .f32⟩
  | 115 => ⟨S1x128x128, .f32⟩
  | 116 => ⟨S128x128, .f32⟩
  | 117 => ⟨S20000x128, .f32⟩
  | 118 => ⟨S1x128, .f32⟩
  | 119 => ⟨S128, .f32⟩
  | 120 => ⟨S1x128, .f32⟩
  | 121 => ⟨S20000x128, .f32⟩
  | 122 => ⟨S20000x128, .f32⟩
  | 123 => ⟨S_, .f32⟩
  | 124 => ⟨S20000x128, .f32⟩
  | 125 => ⟨S20000x128, .f32⟩
  | 126 => ⟨S1x128x128, .f32⟩
  | 127 => ⟨S128x128, .f32⟩
  | _ => ⟨S20000x128, .f32⟩

abbrev hbmTy0_2 (i : Nat) : BufTy := match i % 128 with
  | 0 => ⟨S20000x128, .f32⟩
  | 1 => ⟨S1x128, .f32⟩
  | 2 => ⟨S128, .f32⟩
  | 3 => ⟨S1x128, .f32⟩
  | 4 => ⟨S20000x128, .f32⟩
  | 5 => ⟨S20000x128, .f32⟩
  | 6 => ⟨S1, .f32⟩
  | 7 => ⟨S_, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x128, .f32⟩
  | 25 => ⟨S320000x128, .f32⟩
  | 26 => ⟨S_, .f32⟩
  | 27 => ⟨S320000x128, .f32⟩
  | 28 => ⟨S320000x128, .f32⟩
  | 29 => ⟨S320000x1, .f32⟩
  | 30 => ⟨S320000x128, .f32⟩
  | 31 => ⟨S320000x128, .f32⟩
  | 32 => ⟨S_, .f32⟩
  | 33 => ⟨S20000x128, .f32⟩
  | 34 => ⟨S320000x1, .i32⟩
  | 35 => ⟨S20000x128, .f32⟩
  | 36 => ⟨S_, .f32⟩
  | 37 => ⟨S_, .f32⟩
  | 38 => ⟨S20000x128, .f32⟩
  | 39 => ⟨S20000x128, .f32⟩
  | 40 => ⟨S20000x128, .f32⟩
  | 41 => ⟨S20000x128, .f32⟩
  | 42 => ⟨S1x128, .f32⟩
  | 43 => ⟨S20000x128, .f32⟩
  | 44 => ⟨S20000x128, .f32⟩
  | 45 => ⟨S_, .f32⟩
  | 46 => ⟨S20000x128, .f32⟩
  | 47 => ⟨S20000x128, .f32⟩
  | 48 => ⟨S20000x128, .f32⟩
  | 49 => ⟨S1x128, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S20000x128, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x128, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x128, .f32⟩
  | 74 => ⟨S200000x256, .f32⟩
  | 75 => ⟨S1x256x128, .f32⟩
  | 76 => ⟨S256x128, .f32⟩
  | 77 => ⟨S200000x128, .f32⟩
  | 78 => ⟨S1x128, .f32⟩
  | 79 => ⟨S128, .f32⟩
  | 80 => ⟨S1x128, .f32⟩
  | 81 => ⟨S200000x128, .f32⟩
  | 82 => ⟨S200000x128, .f32⟩
  | 83 => ⟨S_, .f32⟩
  | 84 => ⟨S200000x128, .f32⟩
  | 85 => ⟨S200000x128, .f32⟩
  | 86 => ⟨S1x128x2, .f32⟩
  | 87 => ⟨S128x2, .f32⟩
  | 88 => ⟨S200000x2, .f32⟩
  | 89 => ⟨S1x2, .f32⟩
  | 90 => ⟨S2, .f32⟩
  | 91 => ⟨S1x2, .f32⟩
  | 92 => ⟨S200000x2, .f32⟩
  | 93 => ⟨S200000x2, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x128, .f32⟩
  | 112 => ⟨S320000x256, .f32⟩
  | 113 => ⟨S1x256x128, .f32⟩
  | 114 => ⟨S256x128, .f32⟩
  | 115 => ⟨S320000x128, .f32⟩
  | 116 => ⟨S1x128, .f32⟩
  | 117 => ⟨S128, .f32⟩
  | 118 => ⟨S1x128, .f32⟩
  | 119 => ⟨S320000x128, .f32⟩
  | 120 => ⟨S320000x128, .f32⟩
  | 121 => ⟨S_, .f32⟩
  | 122 => ⟨S320000x128, .f32⟩
  | 123 => ⟨S320000x128, .f32⟩
  | 124 => ⟨S1x128x2, .f32⟩
  | 125 => ⟨S128x2, .f32⟩
  | 126 => ⟨S320000x2, .f32⟩
  | 127 => ⟨S1x2, .f32⟩
  | _ => ⟨S20000x128, .f32⟩

abbrev hbmTy0_3 (i : Nat) : BufTy := match i % 128 with
  | 0 => ⟨S2, .f32⟩
  | 1 => ⟨S1x2, .f32⟩
  | 2 => ⟨S320000x2, .f32⟩
  | 3 => ⟨S320000x2, .f32⟩
  | 4 => ⟨S_, .f32⟩
  | 5 => ⟨S320000, .f32⟩
  | 6 => ⟨S_, .f32⟩
  | 7 => ⟨S320000, .f32⟩
  | 8 => ⟨S320000, .f32⟩
  | 9 => ⟨S320000, .f32⟩
  | 10 => ⟨S320000, .f32⟩
  | 11 => ⟨S_, .f32⟩
  | 12 => ⟨S320000, .f32⟩
  | 13 => ⟨S320000, .f32⟩
  | 14 => ⟨S_, .f32⟩
  | 15 => ⟨S320000, .f32⟩
  | 16 => ⟨S320000, .f32⟩
  | 17 => ⟨S_, .f32⟩
  | 18 => ⟨S200000, .f32⟩
  | 19 => ⟨S_, .f32⟩
  | 20 => ⟨S200000, .f32⟩
  | 21 => ⟨S200000, .f32⟩
  | 22 => ⟨S200000, .f32⟩
  | 23 => ⟨S200000, .f32⟩
  | 24 => ⟨S_, .f32⟩
  | 25 => ⟨S200000, .f32⟩
  | 26 => ⟨S200000, .f32⟩
  | 27 => ⟨S_, .f32⟩
  | 28 => ⟨S200000, .f32⟩
  | 29 => ⟨S200000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S320000x128, .f32⟩
  | 40 => ⟨S_, .f32⟩
  | 41 => ⟨S320000x128, .f32⟩
  | 42 => ⟨S320000x128, .f32⟩
  | 43 => ⟨S320000, .f32⟩
  | 44 => ⟨S320000x1, .f32⟩
  | 45 => ⟨S320000x128, .f32⟩
  | 46 => ⟨S320000x128, .f32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S200000x1, .i32⟩
  | 55 => ⟨S200000x128, .f32⟩
  | 56 => ⟨S1x128, .f32⟩
  | 57 => ⟨S200000x128, .f32⟩
  | 58 => ⟨S200000x128, .f32⟩
  | 59 => ⟨S_, .f32⟩
  | 60 => ⟨S200000x128, .f32⟩
  | 61 => ⟨S200000x128, .f32⟩
  | 62 => ⟨S200000x1, .f32⟩
  | 63 => ⟨S200000x128, .f32⟩
  | 64 => ⟨S200000x128, .f32⟩
  | 65 => ⟨S_, .f32⟩
  | 66 => ⟨S20000x128, .f32⟩
  | 67 => ⟨S320000x1, .i32⟩
  | 68 => ⟨S20000x128, .f32⟩
  | 69 => ⟨S_, .f32⟩
  | 70 => ⟨S20000x128, .f32⟩
  | 71 => ⟨S200000x1, .i32⟩
  | 72 => ⟨S20000x128, .f32⟩
  | 73 => ⟨S20000x128, .f32⟩
  | 74 => ⟨S1, .f32⟩
  | 75 => ⟨S_, .f32⟩
  | 76 => ⟨S_, .f32⟩
  | 77 => ⟨S_, .f32⟩
  | 78 => ⟨S20000x128, .f32⟩
  | 79 => ⟨S20000x128, .f32⟩
  | 80 => ⟨S20000x128, .f32⟩
  | 81 => ⟨S1x128x128, .f32⟩
  | 82 => ⟨S128x128, .f32⟩
  | 83 => ⟨S20000x128, .f32⟩
  | 84 => ⟨S1x128, .f32⟩
  | 85 => ⟨S128, .f32⟩
  | 86 => ⟨S1x128, .f32⟩
  | 87 => ⟨S20000x128, .f32⟩
  | 88 => ⟨S20000x128, .f32⟩
  | 89 => ⟨S_, .f32⟩
  | 90 => ⟨S20000x128, .f32⟩
  | 91 => ⟨S20000x128, .f32⟩
  | 92 => ⟨S1x128x128, .f32⟩
  | 93 => ⟨S128x128, .f32⟩
  | 94 => ⟨S20000x128, .f32⟩
  | 95 => ⟨S1x128, .f32⟩
  | 96 => ⟨S128, .f32⟩
  | 97 => ⟨S1x128, .f32⟩
  | 98 => ⟨S20000x128, .f32⟩
  | 99 => ⟨S20000x128, .f32⟩
  | 100 => ⟨S_, .f32⟩
  | 101 => ⟨S20000, .f32⟩
  | 102 => ⟨S_, .f32⟩
  | 103 => ⟨S64, .f32⟩
  | 104 => ⟨S20000x1, .i32⟩
  | 105 => ⟨S64, .f32⟩
  | 106 => ⟨S_, .f32⟩
  | 107 => ⟨S64x128, .f32⟩
  | 108 => ⟨S20000x1, .i32⟩
  | 109 => ⟨S64x128, .f32⟩
  | 110 => ⟨S_, .f32⟩
  | 111 => ⟨S64, .f32⟩
  | 112 => ⟨S64, .f32⟩
  | 113 => ⟨S64x1, .f32⟩
  | 114 => ⟨S64x128, .f32⟩
  | 115 => ⟨S64x128, .f32⟩
  | 116 => ⟨S64x10, .f32⟩
  | 117 => ⟨S1x10, .f32⟩
  | 118 => ⟨S64x10, .f32⟩
  | 119 => ⟨S64x10, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_v22 : Ref sig .tc := ⟨.hbm, 51, rfl⟩
abbrev main_v23 : Ref sig .tc := ⟨.hbm, 52, rfl⟩
abbrev main_c_0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call0_cst : Ref sig .tc := ⟨.hbm, 60, rfl⟩
abbrev main_call0_v0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_1 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call1_cst : Ref sig .tc := ⟨.hbm, 79, rfl⟩
abbrev main_call1_v0 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call2_cst : Ref sig .tc := ⟨.hbm, 86, rfl⟩
abbrev main_call2_v0 : Ref sig .tc := ⟨.hbm, 87, rfl⟩
abbrev main_v50 : Ref sig .tc := ⟨.hbm, 88, rfl⟩
abbrev main_v51 : Ref sig .tc := ⟨.hbm, 89, rfl⟩
abbrev main_c_2 : Ref sig .tc := ⟨.hbm, 90, rfl⟩
abbrev main_v52 : Ref sig .tc := ⟨.hbm, 91, rfl⟩
abbrev main_v53 : Ref sig .tc := ⟨.hbm, 92, rfl⟩
abbrev main_c_3 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_4 : Ref sig .tc := ⟨.hbm, 99, rfl⟩
abbrev main_v59 : Ref sig .tc := ⟨.hbm, 100, rfl⟩
abbrev main_v60 : Ref sig .tc := ⟨.hbm, 101, rfl⟩
abbrev main_c_5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call3_cst : Ref sig .tc := ⟨.hbm, 117, rfl⟩
abbrev main_call3_v0 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_6 : Ref sig .tc := ⟨.hbm, 128, rfl⟩
abbrev main_v84 : Ref sig .tc := ⟨.hbm, 129, rfl⟩
abbrev main_v85 : Ref sig .tc := ⟨.hbm, 130, rfl⟩
abbrev main_c_7 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_8 : Ref sig .tc := ⟨.hbm, 137, rfl⟩
abbrev main_v91 : Ref sig .tc := ⟨.hbm, 138, rfl⟩
abbrev main_v92 : Ref sig .tc := ⟨.hbm, 139, rfl⟩
abbrev main_c_9 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call4_cst : Ref sig .tc := ⟨.hbm, 155, rfl⟩
abbrev main_call4_v0 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_10 : Ref sig .tc := ⟨.hbm, 166, rfl⟩
abbrev main_v116 : Ref sig .tc := ⟨.hbm, 167, rfl⟩
abbrev main_cst_11 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_12 : Ref sig .tc := ⟨.hbm, 173, rfl⟩
abbrev main_v121 : Ref sig .tc := ⟨.hbm, 174, rfl⟩
abbrev main_v122 : Ref sig .tc := ⟨.hbm, 175, rfl⟩
abbrev main_cst_13 : Ref sig .tc := ⟨.hbm, 176, rfl⟩
abbrev main_v123 : Ref sig .tc := ⟨.hbm, 177, rfl⟩
abbrev main_v124 : Ref sig .tc := ⟨.hbm, 178, rfl⟩
abbrev main_cst_14 : Ref sig .tc := ⟨.hbm, 179, rfl⟩
abbrev main_v125 : Ref sig .tc := ⟨.hbm, 180, rfl⟩
abbrev main_cst_15 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_16 : Ref sig .tc := ⟨.hbm, 186, rfl⟩
abbrev main_v130 : Ref sig .tc := ⟨.hbm, 187, rfl⟩
abbrev main_v131 : Ref sig .tc := ⟨.hbm, 188, rfl⟩
abbrev main_cst_17 : Ref sig .tc := ⟨.hbm, 189, rfl⟩
abbrev main_v132 : Ref sig .tc := ⟨.hbm, 190, rfl⟩
abbrev main_v133 : Ref sig .tc := ⟨.hbm, 191, rfl⟩
abbrev main_c_18 : Ref sig .tc := ⟨.hbm, 192, rfl⟩
abbrev main_v134 : Ref sig .tc := ⟨.hbm, 193, rfl⟩
abbrev main_v135 : Ref sig .tc := ⟨.hbm, 194, rfl⟩
abbrev main_c_19 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_call5_cst : Ref sig .tc := ⟨.hbm, 202, rfl⟩
abbrev main_call5_v0 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_20 : Ref sig .tc := ⟨.hbm, 209, rfl⟩
abbrev main_v147 : Ref sig .tc := ⟨.hbm, 210, rfl⟩
abbrev main_v148 : Ref sig .tc := ⟨.hbm, 211, rfl⟩
abbrev main_c_21 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_call6_cst : Ref sig .tc := ⟨.hbm, 221, rfl⟩
abbrev main_call6_v0 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_22 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_cst_23 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_cst_24 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_call7_cst : Ref sig .tc := ⟨.hbm, 251, rfl⟩
abbrev main_call7_v0 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_c_25 : Ref sig .tc := ⟨.hbm, 272, rfl⟩
abbrev main_v201 : Ref sig .tc := ⟨.hbm, 273, rfl⟩
abbrev main_v202 : Ref sig .tc := ⟨.hbm, 274, rfl⟩
abbrev main_c_26 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_call8_cst : Ref sig .tc := ⟨.hbm, 282, rfl⟩
abbrev main_call8_v0 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_cst_27 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_cst_28 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_call9_cst : Ref sig .tc := ⟨.hbm, 301, rfl⟩
abbrev main_call9_v0 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_call10_cst : Ref sig .tc := ⟨.hbm, 308, rfl⟩
abbrev main_call10_v0 : Ref sig .tc := ⟨.hbm, 309, rfl⟩
abbrev main_v229 : Ref sig .tc := ⟨.hbm, 310, rfl⟩
abbrev main_v230 : Ref sig .tc := ⟨.hbm, 311, rfl⟩
abbrev main_c_29 : Ref sig .tc := ⟨.hbm, 312, rfl⟩
abbrev main_v231 : Ref sig .tc := ⟨.hbm, 313, rfl⟩
abbrev main_v232 : Ref sig .tc := ⟨.hbm, 314, rfl⟩
abbrev main_c_30 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_c_31 : Ref sig .tc := ⟨.hbm, 321, rfl⟩
abbrev main_v238 : Ref sig .tc := ⟨.hbm, 322, rfl⟩
abbrev main_v239 : Ref sig .tc := ⟨.hbm, 323, rfl⟩
abbrev main_c_32 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_call11_cst : Ref sig .tc := ⟨.hbm, 339, rfl⟩
abbrev main_call11_v0 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_c_33 : Ref sig .tc := ⟨.hbm, 350, rfl⟩
abbrev main_v263 : Ref sig .tc := ⟨.hbm, 351, rfl⟩
abbrev main_v264 : Ref sig .tc := ⟨.hbm, 352, rfl⟩
abbrev main_c_34 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_c_35 : Ref sig .tc := ⟨.hbm, 359, rfl⟩
abbrev main_v270 : Ref sig .tc := ⟨.hbm, 360, rfl⟩
abbrev main_v271 : Ref sig .tc := ⟨.hbm, 361, rfl⟩
abbrev main_c_36 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_call12_cst : Ref sig .tc := ⟨.hbm, 377, rfl⟩
abbrev main_call12_v0 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_cst_37 : Ref sig .tc := ⟨.hbm, 388, rfl⟩
abbrev main_v295 : Ref sig .tc := ⟨.hbm, 389, rfl⟩
abbrev main_cst_38 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_cst_39 : Ref sig .tc := ⟨.hbm, 395, rfl⟩
abbrev main_v300 : Ref sig .tc := ⟨.hbm, 396, rfl⟩
abbrev main_v301 : Ref sig .tc := ⟨.hbm, 397, rfl⟩
abbrev main_cst_40 : Ref sig .tc := ⟨.hbm, 398, rfl⟩
abbrev main_v302 : Ref sig .tc := ⟨.hbm, 399, rfl⟩
abbrev main_v303 : Ref sig .tc := ⟨.hbm, 400, rfl⟩
abbrev main_cst_41 : Ref sig .tc := ⟨.hbm, 401, rfl⟩
abbrev main_v304 : Ref sig .tc := ⟨.hbm, 402, rfl⟩
abbrev main_cst_42 : Ref sig .tc := ⟨.hbm, 403, rfl⟩
abbrev main_v305 : Ref sig .tc := ⟨.hbm, 404, rfl⟩
abbrev main_v306 : Ref sig .tc := ⟨.hbm, 405, rfl⟩
abbrev main_v307 : Ref sig .tc := ⟨.hbm, 406, rfl⟩
abbrev main_v308 : Ref sig .tc := ⟨.hbm, 407, rfl⟩
abbrev main_cst_43 : Ref sig .tc := ⟨.hbm, 408, rfl⟩
abbrev main_v309 : Ref sig .tc := ⟨.hbm, 409, rfl⟩
abbrev main_v310 : Ref sig .tc := ⟨.hbm, 410, rfl⟩
abbrev main_cst_44 : Ref sig .tc := ⟨.hbm, 411, rfl⟩
abbrev main_v311 : Ref sig .tc := ⟨.hbm, 412, rfl⟩
abbrev main_v312 : Ref sig .tc := ⟨.hbm, 413, rfl⟩
abbrev main_c_45 : Ref sig .tc := ⟨.hbm, 414, rfl⟩
abbrev main_v313 : Ref sig .tc := ⟨.hbm, 415, rfl⟩
abbrev main_v314 : Ref sig .tc := ⟨.hbm, 416, rfl⟩
abbrev main_c_46 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_v319 : Ref sig .tc := ⟨.hbm, 422, rfl⟩
abbrev main_v320 : Ref sig .tc := ⟨.hbm, 423, rfl⟩
abbrev main_call13_cst : Ref sig .tc := ⟨.hbm, 424, rfl⟩
abbrev main_call13_v0 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_c_47 : Ref sig .tc := ⟨.hbm, 431, rfl⟩
abbrev main_v326 : Ref sig .tc := ⟨.hbm, 432, rfl⟩
abbrev main_v327 : Ref sig .tc := ⟨.hbm, 433, rfl⟩
abbrev main_c_48 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_call14_cst : Ref sig .tc := ⟨.hbm, 443, rfl⟩
abbrev main_call14_v0 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_v339 : Ref sig .tc := ⟨.hbm, 448, rfl⟩
abbrev main_cst_49 : Ref sig .tc := ⟨.hbm, 449, rfl⟩
abbrev main_v340 : Ref sig .tc := ⟨.hbm, 450, rfl⟩
abbrev main_v341 : Ref sig .tc := ⟨.hbm, 451, rfl⟩
abbrev main_v342 : Ref sig .tc := ⟨.hbm, 452, rfl⟩
abbrev main_cst_50 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩
abbrev main_v347 : Ref sig .tc := ⟨.hbm, 458, rfl⟩
abbrev main_v348 : Ref sig .tc := ⟨.hbm, 459, rfl⟩
abbrev main_cst_51 : Ref sig .tc := ⟨.hbm, 460, rfl⟩
abbrev main_v349 : Ref sig .tc := ⟨.hbm, 461, rfl⟩
abbrev main_v350 : Ref sig .tc := ⟨.hbm, 462, rfl⟩
abbrev main_v351 : Ref sig .tc := ⟨.hbm, 463, rfl⟩
abbrev main_v352 : Ref sig .tc := ⟨.hbm, 464, rfl⟩
abbrev main_v353 : Ref sig .tc := ⟨.hbm, 465, rfl⟩
abbrev main_v354 : Ref sig .tc := ⟨.hbm, 466, rfl⟩
abbrev main_v355 : Ref sig .tc := ⟨.hbm, 467, rfl⟩
abbrev main_v356 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_call15_cst : Ref sig .tc := ⟨.hbm, 473, rfl⟩
abbrev main_call15_v0 : Ref sig .tc := ⟨.hbm, 474, rfl⟩
abbrev main_v361 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_v368 : Ref sig .tc := ⟨.hbm, 482, rfl⟩
abbrev main_v369 : Ref sig .tc := ⟨.hbm, 483, rfl⟩
abbrev main_cst_52 : Ref sig .tc := ⟨.hbm, 484, rfl⟩
abbrev main_v370 : Ref sig .tc := ⟨.hbm, 485, rfl⟩
abbrev main_cst_53 : Ref sig .tc := ⟨.hbm, 486, rfl⟩
abbrev main_v371 : Ref sig .tc := ⟨.hbm, 487, rfl⟩
abbrev main_v372 : Ref sig .tc := ⟨.hbm, 488, rfl⟩
abbrev main_v373 : Ref sig .tc := ⟨.hbm, 489, rfl⟩
abbrev main_cst_54 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_cst_55 : Ref sig .tc := ⟨.hbm, 494, rfl⟩
abbrev main_v377 : Ref sig .tc := ⟨.hbm, 495, rfl⟩
abbrev main_v378 : Ref sig .tc := ⟨.hbm, 496, rfl⟩
abbrev main_v379 : Ref sig .tc := ⟨.hbm, 497, rfl⟩
abbrev main_v380 : Ref sig .tc := ⟨.hbm, 498, rfl⟩
abbrev main_v381 : Ref sig .tc := ⟨.hbm, 499, rfl⟩
abbrev main_v382 : Ref sig .tc := ⟨.hbm, 500, rfl⟩
abbrev main_v383 : Ref sig .tc := ⟨.hbm, 501, rfl⟩
abbrev main_v384 : Ref sig .tc := ⟨.hbm, 502, rfl⟩
abbrev main_v385 : Ref sig .tc := ⟨.hbm, 503, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  slices_S2_S1_0 : S2.Slices ![0] S1
  shapeCasts_S1_S_ : S1.ShapeCasts S_
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x128 : S_.BroadcastsInDim S320000x128 (![] : Fin 0 → Fin S320000x128.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  slices_S2x256x128_S1x256x128_0_0_0 : S2x256x128.Slices ![0, 0, 0] S1x256x128
  shapeCasts_S1x256x128_S256x128 : S1x256x128.ShapeCasts S256x128
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  slices_S2x128x2_S1x128x2_0_0_0 : S2x128x2.Slices ![0, 0, 0] S1x128x2
  shapeCasts_S1x128x2_S128x2 : S1x128x2.ShapeCasts S128x2
  slices_S2x2_S1x2_0_0 : S2x2.Slices ![0, 0] S1x2
  shapeCasts_S1x2_S2 : S1x2.ShapeCasts S2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  concatenates_S320000x128_S320000x128_S320000x256_d1 : Shape.Concatenates [S320000x128, S320000x128] S320000x256 1
  bcast_S1x2_S320000x2_0_1 : S1x2.BroadcastsInDim S320000x2 (![0, 1] : Fin 2 → Fin S320000x2.rank)
  reducesTo_S320000x2_S320000_d1 : S320000x2.ReducesTo [1] S320000
  h_S_ : 0 < S_.numel
  reducesTo_S200000x2_S200000_d1 : S200000x2.ReducesTo [1] S200000
  bcast_S200000x1_S200000x128_0_1 : S200000x1.BroadcastsInDim S200000x128 (![0, 1] : Fin 2 → Fin S200000x128.rank)
  slices_S2_S1_1 : S2.Slices ![1] S1
  slices_S2x128x128_S1x128x128_1_0_0 : S2x128x128.Slices ![1, 0, 0] S1x128x128
  slices_S2x128_S1x128_1_0 : S2x128.Slices ![1, 0] S1x128
  slices_S2x256x128_S1x256x128_1_0_0 : S2x256x128.Slices ![1, 0, 0] S1x256x128
  slices_S2x128x2_S1x128x2_1_0_0 : S2x128x2.Slices ![1, 0, 0] S1x128x2
  slices_S2x2_S1x2_1_0 : S2x2.Slices ![1, 0] S1x2
  bcast_S_S20000 : S_.BroadcastsInDim S20000 (![] : Fin 0 → Fin S20000.rank)
  bcast_S_S64 : S_.BroadcastsInDim S64 (![] : Fin 0 → Fin S64.rank)
  bcast_S20000_S20000x1_0 : S20000.BroadcastsInDim S20000x1 (![0] : Fin 1 → Fin S20000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S320000x128_S128x128_S320000x128_1_0_0_1_n_n_wf : DotDims.WF S320000x128 S128x128 S320000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []
  gather_S20000x128_S200000x1_S200000x128_1_0_n_n_0_1_1128_wf : GatherDims.WF S20000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x2_S200000x2_1_0_0_1_n_n_wf : DotDims.WF S200000x128 S128x2 S200000x2 [1] [0] [0] [1] [] []
  dot_S320000x256_S256x128_S320000x128_1_0_0_1_n_n_wf : DotDims.WF S320000x256 S256x128 S320000x128 [1] [0] [0] [1] [] []
  dot_S320000x128_S128x2_S320000x2_1_0_0_1_n_n_wf : DotDims.WF S320000x128 S128x2 S320000x2 [1] [0] [0] [1] [] []
  scatter_S20000x128_S200000x1_S200000x128_1_0_0_1_wf : ScatterDims.WF S20000x128 S200000x1 S200000x128 [1] [0] [0] 1
  scatter_S64_S20000x1_S20000_n_0_0_1_wf : ScatterDims.WF S64 S20000x1 S20000 [] [0] [0] 1
  scatter_S64x128_S20000x1_S20000x128_1_0_0_1_wf : ScatterDims.WF S64x128 S20000x1 S20000x128 [1] [0] [0] 1
  dot_S64x128_S128x10_S64x10_1_0_0_1_n_n_wf : DotDims.WF S64x128 S128x10 S64x10 [1] [0] [0] [1] [] []

variable [Facts₀]

def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x2_S320000x2_1_0_0_1_n_n : DotDims S320000x128 S128x2 S320000x2 where
  lhsContracting := [1]
  rhsContracting := [0]
  lhsNonContracting := [0]
  rhsNonContracting := [1]
  lhsBatch := []
  rhsBatch := []
  wf := dot_S320000x128_S128x2_S320000x2_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.RStages.lean ====
/- The reference's run cut into stretches: after each stretch every buffer read later holds its stage of the launch arguments, and every argument array (`rargs`) is as launched. -/
import proofs.«165269_j27702539059574_1_alg».proof.Proof.RunOps
import proofs.«165269_j27702539059574_1_alg».proof.Proof.ReadP

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

abbrev RV0 (c : Dev nD) : Valuation τ sig (Elt Ideal) := launchContents m c

abbrev rargs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

def RV1 (c : Dev nD) : Valuation τ sig (Elt Ideal) := after rops0 (RV0 m c)
theorem RV1_eq (c : Dev nD) : RV1 m c = after rops0 (RV0 m c) := rfl
structure RFacts1 (c : Dev nD) : Prop where
  v1 : RV1 m c (Proc.devRef .tc main_v1) = Cert.ReferenceIdeal.Read.val_main_v1 (F := Ideal) (m ((c.tc : Thread nD τ).loc main_arg1))
  v3 : RV1 m c (Proc.devRef .tc main_v3) = Cert.ReferenceIdeal.Read.val_main_v3 (F := Ideal) (m ((c.tc : Thread nD τ).loc main_arg1))
  v5 : RV1 m c (Proc.devRef .tc main_v5) = Cert.ReferenceIdeal.Read.val_main_v5 (F := Ideal) (m ((c.tc : Thread nD τ).loc main_arg4))
  v7 : RV1 m c (Proc.devRef .tc main_v7) = Cert.ReferenceIdeal.Read.val_main_v7 (F := Ideal) (m ((c.tc : Thread nD τ).loc main_arg4))
  v11 : RV1 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v19 : RV1 m c (Proc.devRef .tc main_v19) = Cert.ReferenceIdeal.Read.val_main_v19 (F := Ideal) (m ((c.tc : Thread nD τ).loc main_arg8))
  v21 : RV1 m c (Proc.devRef .tc main_v21) = Cert.ReferenceIdeal.Read.val_main_v21 (F := Ideal) (m ((c.tc : Thread nD τ).loc main_arg9))
  v44 : RV1 m c (Proc.devRef .tc main_v44) = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12))
  args : ∀ r ∈ rargs, RV1 m c (Proc.devRef .tc r) = m ((c.tc : Thread nD τ).loc r)

def RV2 (c : Dev nD) : Valuation τ sig (Elt Ideal) := after rops1 (RV1 m c)
theorem RV2_eq (c : Dev nD) : RV2 m c = after rops1 (RV1 m c) := rfl
structure RFacts2 (c : Dev nD) : Prop where
  v1 : RV2 m c (Proc.devRef .tc main_v1) = Cert.ReferenceIdeal.Read.val_main_v1 (F := Ideal) (m ((c.tc : Thread nD τ).loc main_arg1))
  v3 : RV2 m c (Proc.devRef .tc main_v3) = Cert.ReferenceIdeal.Read.val_main_v3 (F := Ideal) (m ((c.tc : Thread nD τ).loc main_arg1))
  v5 : RV2 m c (Proc.devRef .tc main_v5) = Cert.ReferenceIdeal.Read.val_main_v5 (F := Ideal) (m ((c.tc : Thread nD τ).loc main_arg4))
  v7 : RV2 m c (Proc.devRef .tc main_v7) = Cert.ReferenceIdeal.Read.val_main_v7 (F := Ideal) (m ((c.tc : Thread nD τ).loc main_arg4))
  v11 : RV2 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v51 : RV2 m c (Proc.devRef .tc main_v51) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v74 : RV2 m c (Proc.devRef .tc main_v74) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
  args : ∀ r ∈ rargs, RV2 m c (Proc.devRef .tc r) = m ((c.tc : Thread nD τ).loc r)

def RV3 (c : Dev nD) : Valuation τ sig (Elt Ideal) := after rops2 (RV2 m c)
theorem RV3_eq (c : Dev nD) : RV3 m c = after rops2 (RV2 m c) := rfl
structure RFacts3 (c : Dev nD) : Prop where
  v1 : RV3 m c (Proc.devRef .tc main_v1) = Cert.ReferenceIdeal.Read.val_main_v1 (F := Ideal) (m ((c.tc : Thread nD τ).loc main_arg1))
  v3 : RV3 m c (Proc.devRef .tc main_v3) = Cert.ReferenceIdeal.Read.val_main_v3 (F := Ideal) (m ((c.tc : Thread nD τ).loc main_arg1))
  v5 : RV3 m c (Proc.devRef .tc main_v5) = Cert.ReferenceIdeal.Read.val_main_v5 (F := Ideal) (m ((c.tc : Thread nD τ).loc main_arg4))
  v7 : RV3 m c (Proc.devRef .tc main_v7) = Cert.ReferenceIdeal.Read.val_main_v7 (F := Ideal) (m ((c.tc : Thread nD τ).loc main_arg4))
  v11 : RV3 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v51 : RV3 m c (Proc.devRef .tc main_v51) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v83 : RV3 m c (Proc.devRef .tc main_v83) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  v106 : RV3 m c (Proc.devRef .tc main_v106) = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18))
  args : ∀ r ∈ rargs, RV3 m c (Proc.devRef .tc r) = m ((c.tc : Thread nD τ).loc r)

def RV4 (c : Dev nD) : Valuation τ sig (Elt Ideal) := after rops3 (RV3 m c)
theorem RV4_eq (c : Dev nD) : RV4 m c = after rops3 (RV3 m c) := rfl
structure RFacts4 (c : Dev nD) : Prop where
  v1 : RV4 m c (Proc.devRef .tc main_v1) = Cert.ReferenceIdeal.Read.val_main_v1 (F := Ideal) (m ((c.tc : Thread nD τ).loc main_arg1))
  v3 : RV4 m c (Proc.devRef .tc main_v3) = Cert.ReferenceIdeal.Read.val_main_v3 (F := Ideal) (m ((c.tc : Thread nD τ).loc main_arg1))
  v5 : RV4 m c (Proc.devRef .tc main_v5) = Cert.ReferenceIdeal.Read.val_main_v5 (F := Ideal) (m ((c.tc : Thread nD τ).loc main_arg4))
  v7 : RV4 m c (Proc.devRef .tc main_v7) = Cert.ReferenceIdeal.Read.val_main_v7 (F := Ideal) (m ((c.tc : Thread nD τ).loc main_arg4))
  v11 : RV4 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v51 : RV4 m c (Proc.devRef .tc main_v51) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v124 : RV4 m c (Proc.devRef .tc main_v124) = Cert.ReferenceIdeal.Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20))
  v133 : RV4 m c (Proc.devRef .tc main_v133) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  args : ∀ r ∈ rargs, RV4 m c (Proc.devRef .tc r) = m ((c.tc : Thread nD τ).loc r)

def RV5 (c : Dev nD) : Valuation τ sig (Elt Ideal) := after rops4 (RV4 m c)
theorem RV5_eq (c : Dev nD) : RV5 m c = after rops4 (RV4 m c) := rfl
structure RFacts5 (c : Dev nD) : Prop where
  v1 : RV5 m c (Proc.devRef .tc main_v1) = Cert.ReferenceIdeal.Read.val_main_v1 (F := Ideal) (m ((c.tc : Thread nD τ).loc main_arg1))
  v3 : RV5 m c (Proc.devRef .tc main_v3) = Cert.ReferenceIdeal.Read.val_main_v3 (F := Ideal) (m ((c.tc : Thread nD τ).loc main_arg1))
  v5 : RV5 m c (Proc.devRef .tc main_v5) = Cert.ReferenceIdeal.Read.val_main_v5 (F := Ideal) (m ((c.tc : Thread nD τ).loc main_arg4))
  v7 : RV5 m c (Proc.devRef .tc main_v7) = Cert.ReferenceIdeal.Read.val_main_v7 (F := Ideal) (m ((c.tc : Thread nD τ).loc main_arg4))
  v11 : RV5 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v173 : RV5 m c (Proc.devRef .tc main_v173) = Cert.ReferenceIdeal.Read.val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25))
  args : ∀ r ∈ rargs, RV5 m c (Proc.devRef .tc r) = m ((c.tc : Thread nD τ).loc r)

def RV6 (c : Dev nD) : Valuation τ sig (Elt Ideal) := after rops5 (RV5 m c)
theorem RV6_eq (c : Dev nD) : RV6 m c = after rops5 (RV5 m c) := rfl
structure RFacts6 (c : Dev nD) : Prop where
  v1 : RV6 m c (Proc.devRef .tc main_v1) = Cert.ReferenceIdeal.Read.val_main_v1 (F := Ideal) (m ((c.tc : Thread nD τ).loc main_arg1))
  v3 : RV6 m c (Proc.devRef .tc main_v3) = Cert.ReferenceIdeal.Read.val_main_v3 (F := Ideal) (m ((c.tc : Thread nD τ).loc main_arg1))
  v5 : RV6 m c (Proc.devRef .tc main_v5) = Cert.ReferenceIdeal.Read.val_main_v5 (F := Ideal) (m ((c.tc : Thread nD τ).loc main_arg4))
  v7 : RV6 m c (Proc.devRef .tc main_v7) = Cert.ReferenceIdeal.Read.val_main_v7 (F := Ideal) (m ((c.tc : Thread nD τ).loc main_arg4))
  v11 : RV6 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v190 : RV6 m c (Proc.devRef .tc main_v190) = Cert.ReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v192 : RV6 m c (Proc.devRef .tc main_v192) = Cert.ReferenceIdeal.Read.val_main_v192 (F := Ideal) (m ((c.tc : Thread nD τ).loc main_arg10))
  v194 : RV6 m c (Proc.devRef .tc main_v194) = Cert.ReferenceIdeal.Read.val_main_v194 (F := Ideal) (m ((c.tc : Thread nD τ).loc main_arg6))
  v196 : RV6 m c (Proc.devRef .tc main_v196) = Cert.ReferenceIdeal.Read.val_main_v196 (F := Ideal) (m ((c.tc : Thread nD τ).loc main_arg7))
  v198 : RV6 m c (Proc.devRef .tc main_v198) = Cert.ReferenceIdeal.Read.val_main_v198 (F := Ideal) (m ((c.tc : Thread nD τ).loc main_arg8))
  v200 : RV6 m c (Proc.devRef .tc main_v200) = Cert.ReferenceIdeal.Read.val_main_v200 (F := Ideal) (m ((c.tc : Thread nD τ).loc main_arg9))
  v206 : RV6 m c (Proc.devRef .tc main_v206) = Cert.ReferenceIdeal.Read.val_main_v206 (F := Ideal) (m ((c.tc : Thread nD τ).loc main_arg1))
  args : ∀ r ∈ rargs, RV6 m c (Proc.devRef .tc r) = m ((c.tc : Thread nD τ).loc r)

def RV7 (c : Dev nD) : Valuation τ sig (Elt Ideal) := after rops6 (RV6 m c)
theorem RV7_eq (c : Dev nD) : RV7 m c = after rops6 (RV6 m c) := rfl
structure RFacts7 (c : Dev nD) : Prop where
  v1 : RV7 m c (Proc.devRef .tc main_v1) = Cert.ReferenceIdeal.Read.val_main_v1 (F := Ideal) (m ((c.tc : Thread nD τ).loc main_arg1))
  v3 : RV7 m c (Proc.devRef .tc main_v3) = Cert.ReferenceIdeal.Read.val_main_v3 (F := Ideal) (m ((c.tc : Thread nD τ).loc main_arg1))
  v5 : RV7 m c (Proc.devRef .tc main_v5) = Cert.ReferenceIdeal.Read.val_main_v5 (F := Ideal) (m ((c.tc : Thread nD τ).loc main_arg4))
  v7 : RV7 m c (Proc.devRef .tc main_v7) = Cert.ReferenceIdeal.Read.val_main_v7 (F := Ideal) (m ((c.tc : Thread nD τ).loc main_arg4))
  v11 : RV7 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v230 : RV7 m c (Proc.devRef .tc main_v230) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v235 : RV7 m c (Proc.devRef .tc main_v235) = Cert.ReferenceIdeal.Read.val_main_v235 (F := Ideal) (m ((c.tc : Thread nD τ).loc main_arg4))
  args : ∀ r ∈ rargs, RV7 m c (Proc.devRef .tc r) = m ((c.tc : Thread nD τ).loc r)

def RV8 (c : Dev nD) : Valuation τ sig (Elt Ideal) := after rops7 (RV7 m c)
theorem RV8_eq (c : Dev nD) : RV8 m c = after rops7 (RV7 m c) := rfl
structure RFacts8 (c : Dev nD) : Prop where
  v1 : RV8 m c (Proc.devRef .tc main_v1) = Cert.ReferenceIdeal.Read.val_main_v1 (F := Ideal) (m ((c.tc : Thread nD τ).loc main_arg1))
  v3 : RV8 m c (Proc.devRef .tc main_v3) = Cert.ReferenceIdeal.Read.val_main_v3 (F := Ideal) (m ((c.tc : Thread nD τ).loc main_arg1))
  v5 : RV8 m c (Proc.devRef .tc main_v5) = Cert.ReferenceIdeal.Read.val_main_v5 (F := Ideal) (m ((c.tc : Thread nD τ).loc main_arg4))
  v7 : RV8 m c (Proc.devRef .tc main_v7) = Cert.ReferenceIdeal.Read.val_main_v7 (F := Ideal) (m ((c.tc : Thread nD τ).loc main_arg4))
  v11 : RV8 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v230 : RV8 m c (Proc.devRef .tc main_v230) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v262 : RV8 m c (Proc.devRef .tc main_v262) = Cert.ReferenceIdeal.Read.val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v267 : RV8 m c (Proc.devRef .tc main_v267) = Cert.ReferenceIdeal.Read.val_main_v267 (F := Ideal) (m ((c.tc : Thread nD τ).loc main_arg1))
  args : ∀ r ∈ rargs, RV8 m c (Proc.devRef .tc r) = m ((c.tc : Thread nD τ).loc r)

def RV9 (c : Dev nD) : Valuation τ sig (Elt Ideal) := after rops8 (RV8 m c)
theorem RV9_eq (c : Dev nD) : RV9 m c = after rops8 (RV8 m c) := rfl
structure RFacts9 (c : Dev nD) : Prop where
  v1 : RV9 m c (Proc.devRef .tc main_v1) = Cert.ReferenceIdeal.Read.val_main_v1 (F := Ideal) (m ((c.tc : Thread nD τ).loc main_arg1))
  v3 : RV9 m c (Proc.devRef .tc main_v3) = Cert.ReferenceIdeal.Read.val_main_v3 (F := Ideal) (m ((c.tc : Thread nD τ).loc main_arg1))
  v5 : RV9 m c (Proc.devRef .tc main_v5) = Cert.ReferenceIdeal.Read.val_main_v5 (F := Ideal) (m ((c.tc : Thread nD τ).loc main_arg4))
  v7 : RV9 m c (Proc.devRef .tc main_v7) = Cert.ReferenceIdeal.Read.val_main_v7 (F := Ideal) (m ((c.tc : Thread nD τ).loc main_arg4))
  v11 : RV9 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12))
  v230 : RV9 m c (Proc.devRef .tc main_v230) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v262 : RV9 m c (Proc.devRef .tc main_v262) = Cert.ReferenceIdeal.Read.val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v298 : RV9 m c (Proc.devRef .tc main_v298) = Cert.ReferenceIdeal.Read.val_main_v298 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ rargs, RV9 m c (Proc.devRef .tc r) = m ((c.tc : Thread nD τ).loc r)

def RV10 (c : Dev nD) : Valuation τ sig (Elt Ideal) := after rops9 (RV9 m c)
theorem RV10_eq (c : Dev nD) : RV10 m c = after rops9 (RV9 m c) := rfl
structure RFacts10 (c : Dev nD) : Prop where
  v3 : RV10 m c (Proc.devRef .tc main_v3) = Cert.ReferenceIdeal.Read.val_main_v3 (F := Ideal) (m ((c.tc : Thread nD τ).loc main_arg1))
  v5 : RV10 m c (Proc.devRef .tc main_v5) = Cert.ReferenceIdeal.Read.val_main_v5 (F := Ideal) (m ((c.tc : Thread nD τ).loc main_arg4))
  v7 : RV10 m c (Proc.devRef .tc main_v7) = Cert.ReferenceIdeal.Read.val_main_v7 (F := Ideal) (m ((c.tc : Thread nD τ).loc main_arg4))
  v230 : RV10 m c (Proc.devRef .tc main_v230) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v312 : RV10 m c (Proc.devRef .tc main_v312) = Cert.ReferenceIdeal.Read.val_main_v312 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v325 : RV10 m c (Proc.devRef .tc main_v325) = Cert.ReferenceIdeal.Read.val_main_v325 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ rargs, RV10 m c (Proc.devRef .tc r) = m ((c.tc : Thread nD τ).loc r)

def RV11 (c : Dev nD) : Valuation τ sig (Elt Ideal) := after rops10 (RV10 m c)
theorem RV11_eq (c : Dev nD) : RV11 m c = after rops10 (RV10 m c) := rfl
structure RFacts11 (c : Dev nD) : Prop where
  v355 : RV11 m c (Proc.devRef .tc main_v355) = Cert.ReferenceIdeal.Read.val_main_v355 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ rargs, RV11 m c (Proc.devRef .tc r) = m ((c.tc : Thread nD τ).loc r)

def RV12 (c : Dev nD) : Valuation τ sig (Elt Ideal) := after rops11 (RV11 m c)
theorem RV12_eq (c : Dev nD) : RV12 m c = after rops11 (RV11 m c) := rfl
structure RFacts12 (c : Dev nD) : Prop where
  v385 : RV12 m c (Proc.devRef .tc main_v385) = Cert.ReferenceIdeal.Read.val_main_v385 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
  args : ∀ r ∈ rargs, RV12 m c (Proc.devRef .tc r) = m ((c.tc : Thread nD τ).loc r)

theorem fold_eq (c : Dev nD) : after (ops (F := Ideal)) (launchContents m c) = RV12 m c := by
  simp only [ops, StableHlo.after_append, RV1_eq, RV2_eq, RV3_eq, RV4_eq, RV5_eq, RV6_eq, RV7_eq, RV8_eq, RV9_eq, RV10_eq, RV11_eq, RV12_eq]

end Cert.ReferenceIdeal.RStages

end
-- ==== Proof.RHost0.lean ====
/- Stretch 0 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

private theorem r0_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev r0_wr : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_c, main_v22, main_v23, main_c_0, main_v24, main_v25, main_v26, main_v27, main_v28, main_v29, main_call0_cst, main_call0_v0, main_v30, main_v31, main_v32, main_v33, main_cst, main_v34, main_v35, main_v36, main_cst_1, main_v37, main_v38, main_v39, main_v40, main_v41, main_v42, main_v43, main_v44]

private theorem r0_writes :
    (rops0 : List (HloOp τ sig (Elt Ideal))).Forall fun op => op.writes ⊆ (r0_wr.map (Proc.devRef (τ := τ) .tc)).toFinset := by
  simp only [rops0, List.Forall, nullary_writes, unary_writes, binary_writes, ternary_writes, reshape_writes]
  repeat' apply And.intro
  all_goals exact r0_sub_of_mem (by decide)

private theorem r0_keep (c : Dev nD) (r : Ref sig .tc) (hr : r ∉ r0_wr) :
    RV1 m c (Proc.devRef .tc r) = RV0 m c (Proc.devRef .tc r) := by
  rw [RV1_eq]
  exact after_of_writes_sub rops0 (RV0 m c) r0_writes hr

private theorem r0_v1 (c : Dev nD) : RV1 m c (Proc.devRef .tc main_v1) = Cert.ReferenceIdeal.Read.val_main_v1 (F := Ideal) (m ((c.tc : Thread nD τ).loc main_arg1)) := by
  rw [RV1_eq]
  after_results_simp
  rfl

private theorem r0_v3 (c : Dev nD) : RV1 m c (Proc.devRef .tc main_v3) = Cert.ReferenceIdeal.Read.val_main_v3 (F := Ideal) (m ((c.tc : Thread nD τ).loc main_arg1)) := by
  rw [RV1_eq]
  after_results_simp
  rfl

private theorem r0_v5 (c : Dev nD) : RV1 m c (Proc.devRef .tc main_v5) = Cert.ReferenceIdeal.Read.val_main_v5 (F := Ideal) (m ((c.tc : Thread nD τ).loc main_arg4)) := by
  rw [RV1_eq]
  after_results_simp
  rfl

private theorem r0_v7 (c : Dev nD) : RV1 m c (Proc.devRef .tc main_v7) = Cert.ReferenceIdeal.Read.val_main_v7 (F := Ideal) (m ((c.tc : Thread nD τ).loc main_arg4)) := by
  rw [RV1_eq]
  after_results_simp
  rfl

private theorem r0_v11 (c : Dev nD) : RV1 m c (Proc.devRef .tc main_v11) = Cert.ReferenceIdeal.Read.val_main_v11 (F := Ideal) (m ((c.tc : Thread nD τ).loc main_arg2)) (m ((c.tc : Thread nD τ).loc main_arg11)) (m ((c.tc : Thread nD τ).loc main_arg12)) := by
  rw [RV1_eq]
  after_results_simp
  rfl

private theorem r0_v19 (c : Dev nD) : RV1 m c (Proc.devRef .tc main_v19) = Cert.ReferenceIdeal.Read.val_main_v19 (F := Ideal) (m ((c.tc : Thread nD τ).loc main_arg8)) := by
  rw [RV1_eq]
  after_results_simp
  rfl

private theorem r0_v21 (c : Dev nD) : RV1 m c (Proc.devRef .tc main_v21) = Cert.ReferenceIdeal.Read.val_main_v21 (F := Ideal) (m ((c.tc : Thread nD τ).loc main_arg9)) := by
  rw [RV1_eq]
  after_results_simp
  rfl

set_option maxHeartbeats 4000000 in
private theorem r0_v44 (c : Dev nD) : RV1 m c (Proc.devRef .tc main_v44) = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) := by
  rw [RV1_eq]
  after_results_simp
  rfl

theorem rhost0 (c : Dev nD) : RFacts1 m c where
  v1 := r0_v1 m c
  v3 := r0_v3 m c
  v5 := r0_v5 m c
  v7 := r0_v7 m c
  v11 := r0_v11 m c
  v19 := r0_v19 m c
  v21 := r0_v21 m c
  v44 := r0_v44 m c
  args := fun r hr => (r0_keep m c r (by revert r; decide)).trans rfl

end Cert.ReferenceIdeal.RStages

end
-- ==== Proof.RHost1.lean ====
/- Stretch 1 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

private theorem r1_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev r1_wr : List (Ref sig .tc) :=
  [main_call1_cst, main_call1_v0, main_v45, main_v46, main_v47, main_v48, main_v49, main_call2_cst, main_call2_v0, main_v50,
   main_v51, main_c_2, main_v52, main_v53, main_c_3, main_v54, main_v55, main_v56, main_v57, main_v58, main_c_4, main_v59,
   main_v60, main_c_5, main_v61, main_v62, main_v63, main_v64, main_v65, main_v66, main_v67, main_v68, main_v69, main_v70,
   main_v71, main_v72, main_v73, main_v74]

private theorem r1_writes :
    (rops1 : List (HloOp τ sig (Elt Ideal))).Forall fun op => op.writes ⊆ (r1_wr.map (Proc.devRef (τ := τ) .tc)).toFinset := by
  simp only [rops1, List.Forall, StableHlo.nullary_writes, StableHlo.unary_writes, StableHlo.binary_writes,
    StableHlo.ternary_writes, StableHlo.reshape_writes]
  repeat' apply And.intro
  all_goals exact r1_sub_of_mem (by decide)

private theorem rkeep1 (c : Dev nD) (r : Ref sig .tc) (hr : r ∉ r1_wr) :
    RV2 m c (Proc.devRef .tc r) = RV1 m c (Proc.devRef .tc r) := by
  rw [RV2_eq]
  exact StableHlo.after_of_writes_sub rops1 (RV1 m c) r1_writes hr

private theorem r1_v51 (c : Dev nD) (h : RFacts1 m c) :
    RV2 m c (Proc.devRef .tc main_v51) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have e44 := h.v44
  have e19 := h.v19
  have e21 := h.v21
  have e0 := (h.args main_arg0 (by decide))
  rw [RV2_eq]
  generalize RV1 m c = V at e44 e19 e21 e0 ⊢
  after_results_simp
  rw [e44, e19, e21, e0]
  rfl

private theorem r1_v74 (c : Dev nD) (h : RFacts1 m c) :
    RV2 m c (Proc.devRef .tc main_v74) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have e44 := h.v44
  have e19 := h.v19
  have e21 := h.v21
  have e0 := (h.args main_arg0 (by decide))
  have e5 := h.v5
  have e7 := h.v7
  have e13 := (h.args main_arg13 (by decide))
  have e14 := (h.args main_arg14 (by decide))
  rw [RV2_eq]
  generalize RV1 m c = V at e44 e19 e21 e0 e5 e7 e13 e14 ⊢
  after_results_simp
  unfold Read.val_main_v74 Read.val_main_v69 Read.val_main_v66
  congr 1
  · congr 1
    · congr 3
      · after_results_simp
        rw [e44, e19, e21, e0, e5]
        rfl
      · congr 1
        after_results_simp
        rw [e44, e19, e21, e0, e7]
        rfl
    · rw [e13]; rfl
  · rw [e14]; rfl

theorem rhost1 (c : Dev nD) (h : RFacts1 m c) : RFacts2 m c where
  v1 := (rkeep1 m c main_v1 (by decide)).trans h.v1
  v3 := (rkeep1 m c main_v3 (by decide)).trans h.v3
  v5 := (rkeep1 m c main_v5 (by decide)).trans h.v5
  v7 := (rkeep1 m c main_v7 (by decide)).trans h.v7
  v11 := (rkeep1 m c main_v11 (by decide)).trans h.v11
  v51 := r1_v51 m c h
  v74 := r1_v74 m c h
  args := fun r hr => (rkeep1 m c r (by revert r; decide)).trans (h.args r hr)

end Cert.ReferenceIdeal.RStages

end
-- ==== Proof.RHost2.lean ====
/- Stretch 2 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

private theorem r2_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev r2_wr : List (Ref sig .tc) :=
  [main_call3_cst, main_call3_v0, main_v75, main_v76, main_v77, main_v78, main_v79, main_v80, main_v81, main_v82, main_v83,
   main_c_6, main_v84, main_v85, main_c_7, main_v86, main_v87, main_v88, main_v89, main_v90, main_c_8, main_v91, main_v92,
   main_c_9, main_v93, main_v94, main_v95, main_v96, main_v97, main_v98, main_v99, main_v100, main_v101, main_v102,
   main_v103, main_v104, main_v105, main_v106]

private theorem r2_writes :
    (rops2 : List (HloOp τ sig (Elt Ideal))).Forall fun op => op.writes ⊆ (r2_wr.map (Proc.devRef (τ := τ) .tc)).toFinset := by
  simp only [rops2, List.Forall, StableHlo.nullary_writes, StableHlo.unary_writes, StableHlo.binary_writes,
    StableHlo.ternary_writes, StableHlo.reshape_writes]
  repeat' apply And.intro
  all_goals exact r2_sub_of_mem (by decide)

private theorem rkeep2 (c : Dev nD) (r : Ref sig .tc) (hr : r ∉ r2_wr) :
    RV3 m c (Proc.devRef .tc r) = RV2 m c (Proc.devRef .tc r) := by
  rw [RV3_eq]
  exact StableHlo.after_of_writes_sub rops2 (RV2 m c) r2_writes hr

private theorem r2_v83 (c : Dev nD) (h : RFacts2 m c) :
    RV3 m c (Proc.devRef .tc main_v83) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have e74 := h.v74
  have e15 := (h.args main_arg15 (by decide))
  have e16 := (h.args main_arg16 (by decide))
  rw [RV3_eq]
  generalize RV2 m c = V at e74 e15 e16 ⊢
  after_results_simp
  rw [e74, e15, e16]
  rfl

private theorem r2_v106 (c : Dev nD) (h : RFacts2 m c) :
    RV3 m c (Proc.devRef .tc main_v106) = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) := by
  have e1 := h.v1
  have e3 := h.v3
  have e51 := h.v51
  have e17 := (h.args main_arg17 (by decide))
  have e18 := (h.args main_arg18 (by decide))
  rw [RV3_eq]
  generalize RV2 m c = V at e1 e3 e51 e17 e18 ⊢
  after_results_simp
  unfold Read.val_main_v106 Read.val_main_v101 Read.val_main_v98
  congr 1
  · congr 1
    · congr 3
      · after_results_simp
        rw [e51, e1]
        rfl
      · congr 1
        after_results_simp
        rw [e51, e3]
        rfl
    · rw [e17]; rfl
  · rw [e18]; rfl

theorem rhost2 (c : Dev nD) (h : RFacts2 m c) : RFacts3 m c where
  v1 := (rkeep2 m c main_v1 (by decide)).trans h.v1
  v3 := (rkeep2 m c main_v3 (by decide)).trans h.v3
  v5 := (rkeep2 m c main_v5 (by decide)).trans h.v5
  v7 := (rkeep2 m c main_v7 (by decide)).trans h.v7
  v11 := (rkeep2 m c main_v11 (by decide)).trans h.v11
  v51 := (rkeep2 m c main_v51 (by decide)).trans h.v51
  v83 := r2_v83 m c h
  v106 := r2_v106 m c h
  args := fun r hr => (rkeep2 m c r (by revert r; decide)).trans (h.args r hr)

end Cert.ReferenceIdeal.RStages

end
-- ==== Proof.RHost3.lean ====
/- Stretch 3 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

abbrev r3_W : List (Ref sig .tc) :=
  [main_call4_cst, main_call4_v0, main_v107, main_v108, main_v109, main_v110, main_v111, main_v112, main_v113, main_v114, main_v115, main_cst_10, main_v116, main_cst_11, main_v117, main_v118, main_v119, main_v120, main_cst_12, main_v121, main_v122, main_cst_13, main_v123, main_v124, main_cst_14, main_v125, main_cst_15, main_v126, main_v127, main_v128, main_v129, main_cst_16, main_v130, main_v131, main_cst_17, main_v132, main_v133]

theorem r3_writes : (rops3 (F := Ideal) : List (HloOp τ sig (Elt Ideal))).Forall fun op =>
    op.writes ⊆ (r3_W.map (Proc.devRef (τ := τ) .tc)).toFinset := by
  simp only [rops3, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

theorem rkeep3 (c : Dev nD) (r : Ref sig .tc) (hr : r ∉ r3_W) :
    RV4 m c (Proc.devRef .tc r) = RV3 m c (Proc.devRef .tc r) := by
  rw [RV4_eq]
  exact after_of_writes_sub rops3 _ r3_writes hr

theorem rhost3 (c : Dev nD) (h : RFacts3 m c) : RFacts4 m c where
  v1 := (rkeep3 m c main_v1 (by decide)).trans h.v1
  v3 := (rkeep3 m c main_v3 (by decide)).trans h.v3
  v5 := (rkeep3 m c main_v5 (by decide)).trans h.v5
  v7 := (rkeep3 m c main_v7 (by decide)).trans h.v7
  v11 := (rkeep3 m c main_v11 (by decide)).trans h.v11
  v51 := (rkeep3 m c main_v51 (by decide)).trans h.v51
  v124 := by
    rw [RV4_eq]
    after_results_simp
    try simp only [TRef.ofBuf, TRef.toBuf, cast_eq]
    rw [h.v106, (h.args main_arg19 (by decide)), (h.args main_arg20 (by decide))]
    rfl
  v133 := by
    rw [RV4_eq]
    after_results_simp
    rw [h.v83]
    rfl
  args := fun r hr => (rkeep3 m c r (by revert r; decide)).trans (h.args r hr)

end Cert.ReferenceIdeal.RStages

end
-- ==== Proof.RHost4.lean ====
/- Stretch 4 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

abbrev r4_W : List (Ref sig .tc) :=
  [main_c_18, main_v134, main_v135, main_c_19, main_v136, main_v137, main_v138, main_v139, main_v140, main_v141, main_call5_cst, main_call5_v0, main_v142, main_v143, main_v144, main_v145, main_v146, main_c_20, main_v147, main_v148, main_c_21, main_v149, main_v150, main_v151, main_v152, main_v153, main_v154, main_v155, main_v156, main_call6_cst, main_call6_v0, main_v157, main_v158, main_v159, main_v160, main_cst_22, main_v161, main_v162, main_v163, main_cst_23, main_v164, main_v165, main_v166, main_v167, main_v168, main_v169, main_cst_24, main_v170, main_v171, main_v172, main_v173]

theorem r4_writes : (rops4 (F := Ideal) : List (HloOp τ sig (Elt Ideal))).Forall fun op =>
    op.writes ⊆ (r4_W.map (Proc.devRef (τ := τ) .tc)).toFinset := by
  simp only [rops4, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

theorem rkeep4 (c : Dev nD) (r : Ref sig .tc) (hr : r ∉ r4_W) :
    RV5 m c (Proc.devRef .tc r) = RV4 m c (Proc.devRef .tc r) := by
  rw [RV5_eq]
  exact after_of_writes_sub rops4 _ r4_writes hr

theorem r4_args : ∀ r ∈ rargs, r ∉ r4_W := by decide

theorem rhost4 (c : Dev nD) (h : RFacts4 m c) : RFacts5 m c where
  v1 := (rkeep4 m c main_v1 (by decide)).trans h.v1
  v3 := (rkeep4 m c main_v3 (by decide)).trans h.v3
  v5 := (rkeep4 m c main_v5 (by decide)).trans h.v5
  v7 := (rkeep4 m c main_v7 (by decide)).trans h.v7
  v11 := (rkeep4 m c main_v11 (by decide)).trans h.v11
  v173 := by
    rw [RV5_eq]
    after_results_simp
    try simp only [TRef.ofBuf, TRef.toBuf, cast_eq]
    rw [h.v1, h.v3, h.v5, h.v7, h.v11, h.v51, h.v124, h.v133, (h.args main_arg3 (by decide)), (h.args main_arg12 (by decide)), (h.args main_arg25 (by decide))]
    rfl
  args := fun r hr => (rkeep4 m c r (r4_args r hr)).trans (h.args r hr)

end Cert.ReferenceIdeal.RStages

end
-- ==== Proof.RHost5.lean ====
/- Stretch 5 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

private theorem r5_writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev r5_W : List (Ref sig .tc) :=
  [main_v174, main_v175, main_v176, main_v177, main_v178, main_v179, main_v180, main_v181, main_call7_cst, main_call7_v0, main_v182, main_v183,
   main_v184, main_v185, main_v186, main_v187, main_v188, main_v189, main_v190, main_v191, main_v192, main_v193, main_v194, main_v195, main_v196,
   main_v197, main_v198, main_v199, main_v200, main_c_25, main_v201, main_v202, main_c_26, main_v203, main_v204, main_v205, main_v206]

set_option maxHeartbeats 1000000 in
private theorem r5_writes :
    (rops5 : List (HloOp τ sig (Elt Ideal))).Forall fun op => op.writes ⊆ (r5_W.map (Proc.devRef (τ := τ) .tc)).toFinset := by
  simp only [rops5, List.Forall, StableHlo.nullary_writes, StableHlo.unary_writes, StableHlo.binary_writes,
    StableHlo.ternary_writes, StableHlo.reshape_writes]
  repeat' apply And.intro
  all_goals exact r5_writes_sub_of_mem (by decide)

private theorem r5_keep (c : Dev nD) (r : Ref sig .tc) (hr : r ∉ r5_W) :
    RV6 m c (Proc.devRef .tc r) = RV5 m c (Proc.devRef .tc r) := by
  rw [RV6_eq]
  exact StableHlo.after_of_writes_sub rops5 (RV5 m c) r5_writes hr

set_option maxHeartbeats 1000000 in
private theorem r5_v190 (c : Dev nD) (h : RFacts5 m c) :
    RV6 m c (Proc.devRef .tc main_v190) = Cert.ReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [RV6_eq]
  after_results
  rw [h.v173, (h.args main_arg21 (by decide)), (h.args main_arg22 (by decide)), (h.args main_arg23 (by decide)), (h.args main_arg24 (by decide))]
  unfold Cert.ReferenceIdeal.Read.val_main_v190 Cert.ReferenceIdeal.Read.val_main_v189 Cert.ReferenceIdeal.Read.val_main_v188 Cert.ReferenceIdeal.Read.val_main_v187 Cert.ReferenceIdeal.Read.val_main_v186 Cert.ReferenceIdeal.Read.val_main_v185 Cert.ReferenceIdeal.Read.val_main_v184 Cert.ReferenceIdeal.Read.val_main_v183 Cert.ReferenceIdeal.Read.val_main_v182 Cert.ReferenceIdeal.Read.val_main_call7_v0 Cert.ReferenceIdeal.Read.val_main_call7_cst Cert.ReferenceIdeal.Read.val_main_v181 Cert.ReferenceIdeal.Read.val_main_v180 Cert.ReferenceIdeal.Read.val_main_v179 Cert.ReferenceIdeal.Read.val_main_v178 Cert.ReferenceIdeal.Read.val_main_v177 Cert.ReferenceIdeal.Read.val_main_v176 Cert.ReferenceIdeal.Read.val_main_v175 Cert.ReferenceIdeal.Read.val_main_v174
  rfl

set_option maxHeartbeats 1000000 in
private theorem r5_v192 (c : Dev nD) (h : RFacts5 m c) :
    RV6 m c (Proc.devRef .tc main_v192) = Cert.ReferenceIdeal.Read.val_main_v192 (F := Ideal) (m ((c.tc : Thread nD τ).loc main_arg10)) := by
  rw [RV6_eq]
  after_results
  rw [(h.args main_arg10 (by decide))]
  unfold Cert.ReferenceIdeal.Read.val_main_v192 Cert.ReferenceIdeal.Read.val_main_v191
  rfl

set_option maxHeartbeats 1000000 in
private theorem r5_v194 (c : Dev nD) (h : RFacts5 m c) :
    RV6 m c (Proc.devRef .tc main_v194) = Cert.ReferenceIdeal.Read.val_main_v194 (F := Ideal) (m ((c.tc : Thread nD τ).loc main_arg6)) := by
  rw [RV6_eq]
  after_results
  rw [(h.args main_arg6 (by decide))]
  unfold Cert.ReferenceIdeal.Read.val_main_v194 Cert.ReferenceIdeal.Read.val_main_v193
  rfl

set_option maxHeartbeats 1000000 in
private theorem r5_v196 (c : Dev nD) (h : RFacts5 m c) :
    RV6 m c (Proc.devRef .tc main_v196) = Cert.ReferenceIdeal.Read.val_main_v196 (F := Ideal) (m ((c.tc : Thread nD τ).loc main_arg7)) := by
  rw [RV6_eq]
  after_results
  rw [(h.args main_arg7 (by decide))]
  unfold Cert.ReferenceIdeal.Read.val_main_v196 Cert.ReferenceIdeal.Read.val_main_v195
  rfl

set_option maxHeartbeats 1000000 in
private theorem r5_v198 (c : Dev nD) (h : RFacts5 m c) :
    RV6 m c (Proc.devRef .tc main_v198) = Cert.ReferenceIdeal.Read.val_main_v198 (F := Ideal) (m ((c.tc : Thread nD τ).loc main_arg8)) := by
  rw [RV6_eq]
  after_results
  rw [(h.args main_arg8 (by decide))]
  unfold Cert.ReferenceIdeal.Read.val_main_v198 Cert.ReferenceIdeal.Read.val_main_v197
  rfl

set_option maxHeartbeats 1000000 in
private theorem r5_v200 (c : Dev nD) (h : RFacts5 m c) :
    RV6 m c (Proc.devRef .tc main_v200) = Cert.ReferenceIdeal.Read.val_main_v200 (F := Ideal) (m ((c.tc : Thread nD τ).loc main_arg9)) := by
  rw [RV6_eq]
  after_results
  rw [(h.args main_arg9 (by decide))]
  unfold Cert.ReferenceIdeal.Read.val_main_v200 Cert.ReferenceIdeal.Read.val_main_v199
  rfl

set_option maxHeartbeats 1000000 in
private theorem r5_v206 (c : Dev nD) (h : RFacts5 m c) :
    RV6 m c (Proc.devRef .tc main_v206) = Cert.ReferenceIdeal.Read.val_main_v206 (F := Ideal) (m ((c.tc : Thread nD τ).loc main_arg1)) := by
  rw [RV6_eq]
  after_results
  rw [h.v1]
  unfold Cert.ReferenceIdeal.Read.val_main_v206 Cert.ReferenceIdeal.Read.val_main_v205 Cert.ReferenceIdeal.Read.val_main_v204 Cert.ReferenceIdeal.Read.val_main_v203 Cert.ReferenceIdeal.Read.val_main_c_26 Cert.ReferenceIdeal.Read.val_main_v202 Cert.ReferenceIdeal.Read.val_main_v201 Cert.ReferenceIdeal.Read.val_main_c_25
  rfl

set_option maxHeartbeats 1000000 in
theorem rhost5 (c : Dev nD) (h : RFacts5 m c) : RFacts6 m c where
  v1 := (r5_keep m c main_v1 (by decide)).trans h.v1
  v3 := (r5_keep m c main_v3 (by decide)).trans h.v3
  v5 := (r5_keep m c main_v5 (by decide)).trans h.v5
  v7 := (r5_keep m c main_v7 (by decide)).trans h.v7
  v11 := (r5_keep m c main_v11 (by decide)).trans h.v11
  v190 := r5_v190 m c h
  v192 := r5_v192 m c h
  v194 := r5_v194 m c h
  v196 := r5_v196 m c h
  v198 := r5_v198 m c h
  v200 := r5_v200 m c h
  v206 := r5_v206 m c h
  args := fun r hr => (r5_keep m c r (by revert r; decide)).trans (h.args r hr)

end Cert.ReferenceIdeal.RStages

end
-- ==== Proof.RHost6.lean ====
/- Stretch 6 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

variable {F : FTy → Type} [FloatOps F]

private theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

private abbrev rwr6 : List (Ref sig .tc) :=
  [main_v207, main_v208, main_call8_cst, main_call8_v0, main_v209, main_v210, main_v211, main_v212, main_cst_27, main_v213, main_v214, main_v215, main_cst_28, main_v216, main_v217, main_v218, main_v219, main_v220, main_v221, main_v222, main_v223, main_call9_cst, main_call9_v0, main_v224, main_v225, main_v226, main_v227, main_v228, main_call10_cst, main_call10_v0, main_v229, main_v230, main_c_29, main_v231, main_v232, main_c_30, main_v233, main_v234, main_v235]

private theorem rops6_writes : (rops6 : List (HloOp τ sig (Elt F))).Forall fun op =>
    op.writes ⊆ (rwr6.map (Proc.devRef (τ := τ) .tc)).toFinset :=
  ⟨writes_sub_of_mem main_v207 rfl (by decide),
   writes_sub_of_mem main_v208 rfl (by decide),
   writes_sub_of_mem main_call8_cst rfl (by decide),
   writes_sub_of_mem main_call8_v0 rfl (by decide),
   writes_sub_of_mem main_v209 rfl (by decide),
   writes_sub_of_mem main_v210 rfl (by decide),
   writes_sub_of_mem main_v211 rfl (by decide),
   writes_sub_of_mem main_v212 rfl (by decide),
   writes_sub_of_mem main_cst_27 rfl (by decide),
   writes_sub_of_mem main_v213 rfl (by decide),
   writes_sub_of_mem main_v214 rfl (by decide),
   writes_sub_of_mem main_v215 rfl (by decide),
   writes_sub_of_mem main_cst_28 rfl (by decide),
   writes_sub_of_mem main_v216 rfl (by decide),
   writes_sub_of_mem main_v217 rfl (by decide),
   writes_sub_of_mem main_v218 rfl (by decide),
   writes_sub_of_mem main_v219 rfl (by decide),
   writes_sub_of_mem main_v220 rfl (by decide),
   writes_sub_of_mem main_v221 rfl (by decide),
   writes_sub_of_mem main_v222 rfl (by decide),
   writes_sub_of_mem main_v223 rfl (by decide),
   writes_sub_of_mem main_call9_cst rfl (by decide),
   writes_sub_of_mem main_call9_v0 rfl (by decide),
   writes_sub_of_mem main_v224 rfl (by decide),
   writes_sub_of_mem main_v225 rfl (by decide),
   writes_sub_of_mem main_v226 rfl (by decide),
   writes_sub_of_mem main_v227 rfl (by decide),
   writes_sub_of_mem main_v228 rfl (by decide),
   writes_sub_of_mem main_call10_cst rfl (by decide),
   writes_sub_of_mem main_call10_v0 rfl (by decide),
   writes_sub_of_mem main_v229 rfl (by decide),
   writes_sub_of_mem main_v230 rfl (by decide),
   writes_sub_of_mem main_c_29 rfl (by decide),
   writes_sub_of_mem main_v231 rfl (by decide),
   writes_sub_of_mem main_v232 rfl (by decide),
   writes_sub_of_mem main_c_30 rfl (by decide),
   writes_sub_of_mem main_v233 rfl (by decide),
   writes_sub_of_mem main_v234 rfl (by decide),
   writes_sub_of_mem main_v235 rfl (by decide)⟩

private theorem rops6_keep (V : Valuation τ sig (Elt F)) (r : Ref sig .tc) (hr : r ∉ rwr6) :
    StableHlo.after rops6 V (Proc.devRef .tc r) = V (Proc.devRef .tc r) :=
  StableHlo.after_of_writes_sub rops6 V rops6_writes hr

private theorem rkeep6 (c : Dev nD) (r : Ref sig .tc) (hr : r ∉ rwr6) :
    RV7 m c (Proc.devRef .tc r) = RV6 m c (Proc.devRef .tc r) :=
  (congrFun (RV7_eq m c) _).trans (rops6_keep _ r hr)

set_option maxHeartbeats 400000 in
private theorem rhost6_v230 (c : Dev nD) (h : RFacts6 m c) :
    RV7 m c (Proc.devRef .tc main_v230) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [RV7_eq]
  after_results_simp
  rw [h.v190, h.v206, h.v11, (h.args main_arg3 (by decide)), h.v3, h.v192, h.v194, h.v196, h.v198, h.v200]
  rfl

set_option maxHeartbeats 400000 in
private theorem rhost6_v235 (c : Dev nD) (h : RFacts6 m c) :
    RV7 m c (Proc.devRef .tc main_v235) = Cert.ReferenceIdeal.Read.val_main_v235 (F := Ideal) (m ((c.tc : Thread nD τ).loc main_arg4)) := by
  rw [RV7_eq]
  after_results_simp
  rw [h.v5]
  rfl

theorem rhost6 (c : Dev nD) (h : RFacts6 m c) : RFacts7 m c where
  v1 := (rkeep6 m c main_v1 (by decide)).trans h.v1
  v3 := (rkeep6 m c main_v3 (by decide)).trans h.v3
  v5 := (rkeep6 m c main_v5 (by decide)).trans h.v5
  v7 := (rkeep6 m c main_v7 (by decide)).trans h.v7
  v11 := (rkeep6 m c main_v11 (by decide)).trans h.v11
  v230 := rhost6_v230 m c h
  v235 := rhost6_v235 m c h
  args := fun r hr => (rkeep6 m c r (by revert r; decide)).trans (h.args r hr)

end Cert.ReferenceIdeal.RStages

end
-- ==== Proof.RHost7.lean ====
/- Stretch 7 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

def r7_wr : List (Ref sig .tc) :=
  [main_v236, main_v237, main_c_31, main_v238, main_v239, main_c_32, main_v240, main_v241, main_v242, main_v243, main_v244, main_v245, main_v246, main_v247, main_v248, main_v249, main_v250, main_v251, main_v252, main_v253, main_call11_cst, main_call11_v0, main_v254, main_v255, main_v256, main_v257, main_v258, main_v259, main_v260, main_v261, main_v262, main_c_33, main_v263, main_v264, main_c_34, main_v265, main_v266, main_v267]

theorem r7_hW {F : FTy → Type} [FloatOps F] :
    (rops7 : List (HloOp τ sig (Elt F))).Forall fun op => op.writes ⊆ (r7_wr.map (Proc.devRef (τ := τ) .tc)).toFinset := by
  simp only [rops7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem r7_keepV {F : FTy → Type} [FloatOps F] (V : Valuation τ sig (Elt F)) (r : Ref sig .tc) (hr : r ∉ r7_wr) :
    StableHlo.after rops7 V (Proc.devRef .tc r) = V (Proc.devRef .tc r) :=
  StableHlo.after_of_writes_sub rops7 V r7_hW hr

set_option maxHeartbeats 1000000 in
theorem r7_v262 {F : FTy → Type} [FloatOps F] (V : Valuation τ sig (Elt F)) {x0 x1 x2 x3 x4 x6 x7 x8 x9 x10 x11 x12 x13 x14 x15 x16 x17 x18 x19 x20 x21 x22 x23 x24 x25 : _}
    (h235 : V (Proc.devRef .tc main_v235) = Cert.ReferenceIdeal.Read.val_main_v235 (F := F) x4)
    (h230 : V (Proc.devRef .tc main_v230) = Cert.ReferenceIdeal.Read.val_main_v230 (F := F) x0 x1 x2 x3 x4 x6 x7 x8 x9 x10 x11 x12 x13 x14 x15 x16 x17 x18 x19 x20 x21 x22 x23 x24 x25)
    (h7 : V (Proc.devRef .tc main_v7) = Cert.ReferenceIdeal.Read.val_main_v7 (F := F) x4)
    (harg13 : V (Proc.devRef .tc main_arg13) = x13) (harg14 : V (Proc.devRef .tc main_arg14) = x14)
    (harg15 : V (Proc.devRef .tc main_arg15) = x15) (harg16 : V (Proc.devRef .tc main_arg16) = x16) :
    StableHlo.after rops7 V (Proc.devRef .tc main_v262) = Cert.ReferenceIdeal.Read.val_main_v262 (F := F) x0 x1 x2 x3 x4 x6 x7 x8 x9 x10 x11 x12 x13 x14 x15 x16 x17 x18 x19 x20 x21 x22 x23 x24 x25 := by
  after_results_simp

  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [h235, h230, h7, harg13, harg14, harg15, harg16]
  rfl

theorem r7_v267 {F : FTy → Type} [FloatOps F] (V : Valuation τ sig (Elt F)) {x1 : _}
    (h1 : V (Proc.devRef .tc main_v1) = Cert.ReferenceIdeal.Read.val_main_v1 (F := F) x1) :
    StableHlo.after rops7 V (Proc.devRef .tc main_v267) = Cert.ReferenceIdeal.Read.val_main_v267 (F := F) x1 := by
  after_results_simp
  rw [h1]
  rfl

variable (m : (ℓ : Loc nD τ sig) → Buf (Elt Ideal) ℓ)

theorem r7_keep (c : Dev nD) (r : Ref sig .tc) (hr : r ∉ r7_wr) :
    RV8 m c (Proc.devRef .tc r) = RV7 m c (Proc.devRef .tc r) := by
  rw [RV8_eq]
  exact r7_keepV (RV7 m c) r hr

theorem rhost7 (c : Dev nD) (h : RFacts7 m c) : RFacts8 m c where
  v1 := (r7_keep m c main_v1 (by decide)).trans h.v1
  v3 := (r7_keep m c main_v3 (by decide)).trans h.v3
  v5 := (r7_keep m c main_v5 (by decide)).trans h.v5
  v7 := (r7_keep m c main_v7 (by decide)).trans h.v7
  v11 := (r7_keep m c main_v11 (by decide)).trans h.v11
  v230 := (r7_keep m c main_v230 (by decide)).trans h.v230
  v262 := by
    rw [RV8_eq]
    exact r7_v262 (RV7 m c) h.v235 h.v230 h.v7 (h.args main_arg13 (by decide)) (h.args main_arg14 (by decide)) (h.args main_arg15 (by decide)) (h.args main_arg16 (by decide))
  v267 := by
    rw [RV8_eq]
    exact r7_v267 (RV7 m c) h.v1
  args := fun r hr => (r7_keep m c r (by revert r; decide)).trans (h.args r hr)

end Cert.ReferenceIdeal.RStages

end
-- ==== Proof.RHost8.lean ====
/- Stretch 8 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

variable {F : FTy → Type} [FloatOps F]

abbrev r8_W : List (Ref sig .tc) :=
  [main_v268, main_v269, main_c_35, main_v270, main_v271, main_c_36, main_v272, main_v273, main_v274, main_v275, main_v276, main_v277, main_v278, main_v279, main_v280, main_v281, main_v282, main_v283, main_v284, main_v285, main_call12_cst, main_call12_v0, main_v286, main_v287, main_v288, main_v289, main_v290, main_v291, main_v292, main_v293, main_v294, main_cst_37, main_v295, main_cst_38, main_v296, main_v297, main_v298]

local macro "w1" : term =>
  `(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem r8_writes : (rops8 : List (HloOp τ sig (Elt F))).Forall fun op => op.writes ⊆ (r8_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1⟩

theorem rkeep8 (V : Valuation τ sig (Elt F)) (r : Ref sig .tc) (hr : r ∉ r8_W) :
    after rops8 V (Proc.devRef .tc r) = V (Proc.devRef .tc r) :=
  after_of_writes_sub rops8 _ r8_writes hr

def r8_cat2 {α : Type} (t : Shape) (ax : Fin t.rank) (s : Shape) (a b : s.Idx → α)
    (h : Shape.Concatenates [s, s] t ax) : t.Idx → α :=
  concatenate t ax [⟨s, a⟩, ⟨s, b⟩] h

theorem r8_cat2_intro {α : Type} (t : Shape) (ax : Fin t.rank) (s : Shape) (a b : s.Idx → α)
    (h : Shape.Concatenates [s, s] t ax) : concatenate t ax [⟨s, a⟩, ⟨s, b⟩] h = r8_cat2 t ax s a b h := rfl

theorem r8_v298 (V : Valuation τ sig (Elt F)) {x0 : (⟨S20000x128, .f32⟩ : BufTy).Contents (Elt F)} {x1 : (⟨S2x320000, .i32⟩ : BufTy).Contents (Elt F)} {x2 : (⟨S320000x128, .f32⟩ : BufTy).Contents (Elt F)} {x3 : (⟨S320000, .f32⟩ : BufTy).Contents (Elt F)} {x4 : (⟨S200000x2, .i32⟩ : BufTy).Contents (Elt F)} {x6 : (⟨S2x128x128, .f32⟩ : BufTy).Contents (Elt F)} {x7 : (⟨S2x128, .f32⟩ : BufTy).Contents (Elt F)} {x8 : (⟨S2x128x128, .f32⟩ : BufTy).Contents (Elt F)} {x9 : (⟨S2x128, .f32⟩ : BufTy).Contents (Elt F)} {x10 : (⟨S2, .f32⟩ : BufTy).Contents (Elt F)} {x11 : (⟨S128x128, .f32⟩ : BufTy).Contents (Elt F)} {x12 : (⟨S128, .f32⟩ : BufTy).Contents (Elt F)} {x13 : (⟨S2x256x128, .f32⟩ : BufTy).Contents (Elt F)} {x14 : (⟨S2x128, .f32⟩ : BufTy).Contents (Elt F)} {x15 : (⟨S2x128x2, .f32⟩ : BufTy).Contents (Elt F)} {x16 : (⟨S2x2, .f32⟩ : BufTy).Contents (Elt F)} {x17 : (⟨S2x256x128, .f32⟩ : BufTy).Contents (Elt F)} {x18 : (⟨S2x128, .f32⟩ : BufTy).Contents (Elt F)} {x19 : (⟨S2x128x2, .f32⟩ : BufTy).Contents (Elt F)} {x20 : (⟨S2x2, .f32⟩ : BufTy).Contents (Elt F)} {x21 : (⟨S2x128x128, .f32⟩ : BufTy).Contents (Elt F)} {x22 : (⟨S2x128, .f32⟩ : BufTy).Contents (Elt F)} {x23 : (⟨S2x128x128, .f32⟩ : BufTy).Contents (Elt F)} {x24 : (⟨S2x128, .f32⟩ : BufTy).Contents (Elt F)} {x25 : (⟨S2, .f32⟩ : BufTy).Contents (Elt F)}
    (h3 : V (Proc.devRef .tc main_v3) = Cert.ReferenceIdeal.Read.val_main_v3 (F := F) x1)
    (h230 : V (Proc.devRef .tc main_v230) = Cert.ReferenceIdeal.Read.val_main_v230 (F := F) x0 x1 x2 x3 x4 x6 x7 x8 x9 x10 x11 x12 x13 x14 x15 x16 x17 x18 x19 x20 x21 x22 x23 x24 x25)
    (h267 : V (Proc.devRef .tc main_v267) = Cert.ReferenceIdeal.Read.val_main_v267 (F := F) x1)
    (ha17 : V (Proc.devRef .tc main_arg17) = x17) (ha18 : V (Proc.devRef .tc main_arg18) = x18)
    (ha19 : V (Proc.devRef .tc main_arg19) = x19) (ha20 : V (Proc.devRef .tc main_arg20) = x20) :
    after rops8 V (Proc.devRef .tc main_v298) = Cert.ReferenceIdeal.Read.val_main_v298 (F := F) x0 x1 x2 x3 x4 x6 x7 x8 x9 x10 x11 x12 x13 x14 x15 x16 x17 x18 x19 x20 x21 x22 x23 x24 x25 := by
  simp (disch := decide) only [r8_cat2_intro, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  simp only [TRef.ofBuf, TRef.toBuf, cast_eq]
  rw [h3, h230, h267, ha17, ha18, ha19, ha20]
  rfl

theorem r8_keep (c : Dev nD) (r : Ref sig .tc) (hr : r ∉ r8_W) :
    RV9 m c (Proc.devRef .tc r) = RV8 m c (Proc.devRef .tc r) := by
  rw [RV9_eq]; exact rkeep8 (RV8 m c) r hr

theorem rhost8 (c : Dev nD) (h : RFacts8 m c) : RFacts9 m c where
  v1 := (r8_keep m c main_v1 (by decide)).trans h.v1
  v3 := (r8_keep m c main_v3 (by decide)).trans h.v3
  v5 := (r8_keep m c main_v5 (by decide)).trans h.v5
  v7 := (r8_keep m c main_v7 (by decide)).trans h.v7
  v11 := (r8_keep m c main_v11 (by decide)).trans h.v11
  v230 := (r8_keep m c main_v230 (by decide)).trans h.v230
  v262 := (r8_keep m c main_v262 (by decide)).trans h.v262
  args := fun r hr => (r8_keep m c r (by revert r; decide)).trans (h.args r hr)
  v298 := by rw [RV9_eq]; exact r8_v298 (RV8 m c) h.v3 h.v230 h.v267 (h.args main_arg17 (by decide)) (h.args main_arg18 (by decide)) (h.args main_arg19 (by decide)) (h.args main_arg20 (by decide))

end Cert.ReferenceIdeal.RStages

end
-- ==== Proof.RHost9.lean ====
/- Stretch 9 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

def r9_written : List (Ref sig .tc) :=
  [main_v299, main_cst_39, main_v300, main_v301, main_cst_40, main_v302, main_v303, main_cst_41, main_v304, main_cst_42, main_v305, main_v306, main_v307, main_v308, main_cst_43, main_v309, main_v310, main_cst_44, main_v311, main_v312, main_c_45, main_v313, main_v314, main_c_46, main_v315, main_v316, main_v317, main_v318, main_v319, main_v320, main_call13_cst, main_call13_v0, main_v321, main_v322, main_v323, main_v324, main_v325]

theorem r9_writes : (rops9 : List (HloOp τ sig (Elt Ideal))).Forall fun op =>
    op.writes ⊆ ((r9_written).map (Proc.devRef (τ := τ) .tc)).toFinset := by
  simp only [rops9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem r9_keep (c : Dev nD) (r : Ref sig .tc) (hr : r ∉ r9_written) :
    RV10 m c (Proc.devRef .tc r) = RV9 m c (Proc.devRef .tc r) := by
  rw [RV10_eq]
  exact StableHlo.after_of_writes_sub rops9 (RV9 m c) r9_writes hr

theorem rhost9 (c : Dev nD) (h : RFacts9 m c) : RFacts10 m c where
  v3 := (r9_keep m c main_v3 (by decide)).trans h.v3
  v5 := (r9_keep m c main_v5 (by decide)).trans h.v5
  v7 := (r9_keep m c main_v7 (by decide)).trans h.v7
  v230 := (r9_keep m c main_v230 (by decide)).trans h.v230
  v312 := by
    rw [RV10_eq]
    after_results_simp
    rw [h.v262]
    rfl
  v325 := by
    rw [RV10_eq]
    after_results_simp
    simp only [TRef.ofBuf, TRef.toBuf, cast_eq]
    rw [h.v298, h.v1, h.v230, h.v11, (h.args main_arg3 (by decide))]
    rfl
  args := fun r hr => (r9_keep m c r (by revert r; decide)).trans (h.args r hr)

end Cert.ReferenceIdeal.RStages

end
-- ==== Proof.RHost10.lean ====
/- Stretch 10 of the reference's operations: each buffer it computes that is read later holds its stage of the launch arguments; a buffer it does not write is carried. -/
import proofs.«165269_j27702539059574_1_alg».proof.Proof.RStages

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

private theorem r10_writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev r10_W : List (Ref sig .tc) :=
  [main_c_47, main_v326, main_v327, main_c_48, main_v328, main_v329, main_v330, main_v331, main_v332, main_v333, main_v334, main_v335,
   main_call14_cst, main_call14_v0, main_v336, main_v337, main_v338, main_v339, main_cst_49, main_v340, main_v341, main_v342, main_cst_50, main_v343, main_v344,
   main_v345, main_v346, main_v347, main_v348, main_cst_51, main_v349, main_v350, main_v351, main_v352, main_v353, main_v354, main_v355]

set_option maxHeartbeats 1000000 in
private theorem r10_writes :
    (rops10 : List (HloOp τ sig (Elt Ideal))).Forall fun op => op.writes ⊆ (r10_W.map (Proc.devRef (τ := τ) .tc)).toFinset := by
  simp only [rops10, List.Forall, StableHlo.nullary_writes, StableHlo.unary_writes, StableHlo.binary_writes,
    StableHlo.ternary_writes, StableHlo.reshape_writes]
  repeat' apply And.intro
  all_goals exact r10_writes_sub_of_mem (by decide)

private theorem r10_keep (c : Dev nD) (r : Ref sig .tc) (hr : r ∉ r10_W) :
    RV11 m c (Proc.devRef .tc r) = RV10 m c (Proc.devRef .tc r) := by
  rw [RV11_eq]
  exact StableHlo.after_of_writes_sub rops10 (RV10 m c) r10_writes hr

set_option maxHeartbeats 1000000 in
private theorem r10_v355 (c : Dev nD) (h : RFacts10 m c) :
    RV11 m c (Proc.devRef .tc main_v355) = Cert.ReferenceIdeal.Read.val_main_v355 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [RV11_eq]
  after_results_simp
  rw [h.v5, h.v230, (h.args main_arg12 (by decide)), h.v312, h.v3, h.v325, h.v7, (h.args main_arg25 (by decide)), (h.args main_arg21 (by decide))]
  unfold Cert.ReferenceIdeal.Read.val_main_v355 Cert.ReferenceIdeal.Read.val_main_v354 Cert.ReferenceIdeal.Read.val_main_v353 Cert.ReferenceIdeal.Read.val_main_v352 Cert.ReferenceIdeal.Read.val_main_v351 Cert.ReferenceIdeal.Read.val_main_v350 Cert.ReferenceIdeal.Read.val_main_v349 Cert.ReferenceIdeal.Read.val_main_cst_51 Cert.ReferenceIdeal.Read.val_main_v348 Cert.ReferenceIdeal.Read.val_main_v347 Cert.ReferenceIdeal.Read.val_main_v346 Cert.ReferenceIdeal.Read.val_main_v345 Cert.ReferenceIdeal.Read.val_main_v344 Cert.ReferenceIdeal.Read.val_main_v343 Cert.ReferenceIdeal.Read.val_main_cst_50 Cert.ReferenceIdeal.Read.val_main_v342 Cert.ReferenceIdeal.Read.val_main_v341 Cert.ReferenceIdeal.Read.val_main_v340 Cert.ReferenceIdeal.Read.val_main_cst_49 Cert.ReferenceIdeal.Read.val_main_v339 Cert.ReferenceIdeal.Read.val_main_v338 Cert.ReferenceIdeal.Read.val_main_v337 Cert.ReferenceIdeal.Read.val_main_v336 Cert.ReferenceIdeal.Read.val_main_call14_v0 Cert.ReferenceIdeal.Read.val_main_call14_cst Cert.ReferenceIdeal.Read.val_main_v335 Cert.ReferenceIdeal.Read.val_main_v334 Cert.ReferenceIdeal.Read.val_main_v333 Cert.ReferenceIdeal.Read.val_main_v332 Cert.ReferenceIdeal.Read.val_main_v331 Cert.ReferenceIdeal.Read.val_main_v330 Cert.ReferenceIdeal.Read.val_main_v329 Cert.ReferenceIdeal.Read.val_main_v328 Cert.ReferenceIdeal.Read.val_main_c_48 Cert.ReferenceIdeal.Read.val_main_v327 Cert.ReferenceIdeal.Read.val_main_v326 Cert.ReferenceIdeal.Read.val_main_c_47
  rfl

set_option maxHeartbeats 1000000 in
theorem rhost10 (c : Dev nD) (h : RFacts10 m c) : RFacts11 m c where
  v355 := r10_v355 m c h
  args := fun r hr => (r10_keep m c r (by revert r; decide)).trans (h.args r hr)

end Cert.ReferenceIdeal.RStages

end
-- ==== Proof.RHost11.lean ====
/- Stretch 11 of the reference's operations: each buffer it computes that is read later holds its stage of the launch arguments; a buffer it does not write is carried. -/
import proofs.«165269_j27702539059574_1_alg».proof.Proof.RStages
import Idealize.ShloMosaic.Lib.StableHlo.Run

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

section Stretch

variable {F : FTy → Type} [FloatOps F]

private def r11_wr : List (Ref sig .tc) :=
  [main_v356, main_v357, main_v358, main_v359, main_v360, main_call15_cst, main_call15_v0, main_v361, main_v362, main_v363,
    main_v364, main_v365, main_v366, main_v367, main_v368, main_v369, main_cst_52, main_v370, main_cst_53, main_v371,
    main_v372, main_v373, main_cst_54, main_v374, main_v375, main_v376, main_cst_55, main_v377, main_v378, main_v379,
    main_v380, main_v381, main_v382, main_v383, main_v384, main_v385]

private theorem r11_wr_sub : (rops11 : List (HloOp τ sig (Elt F))).Forall fun op =>
    op.writes ⊆ (r11_wr.map (Proc.devRef (τ := τ) .tc)).toFinset := by
  simp only [rops11, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

private theorem r11_keep (V : Valuation τ sig (Elt F)) (r : Ref sig .tc) (hr : r ∉ r11_wr) :
    after rops11 V (Proc.devRef .tc r) = V (Proc.devRef .tc r) :=
  after_of_writes_sub rops11 V r11_wr_sub hr

variable
  {x0 : (⟨S20000x128, .f32⟩ : BufTy).Contents (Elt F)}
  {x1 : (⟨S2x320000, .i32⟩ : BufTy).Contents (Elt F)}
  {x2 : (⟨S320000x128, .f32⟩ : BufTy).Contents (Elt F)}
  {x3 : (⟨S320000, .f32⟩ : BufTy).Contents (Elt F)}
  {x4 : (⟨S200000x2, .i32⟩ : BufTy).Contents (Elt F)}
  {x5 : (⟨S20000, .i32⟩ : BufTy).Contents (Elt F)}
  {x6 : (⟨S2x128x128, .f32⟩ : BufTy).Contents (Elt F)}
  {x7 : (⟨S2x128, .f32⟩ : BufTy).Contents (Elt F)}
  {x8 : (⟨S2x128x128, .f32⟩ : BufTy).Contents (Elt F)}
  {x9 : (⟨S2x128, .f32⟩ : BufTy).Contents (Elt F)}
  {x10 : (⟨S2, .f32⟩ : BufTy).Contents (Elt F)}
  {x11 : (⟨S128x128, .f32⟩ : BufTy).Contents (Elt F)}
  {x12 : (⟨S128, .f32⟩ : BufTy).Contents (Elt F)}
  {x13 : (⟨S2x256x128, .f32⟩ : BufTy).Contents (Elt F)}
  {x14 : (⟨S2x128, .f32⟩ : BufTy).Contents (Elt F)}
  {x15 : (⟨S2x128x2, .f32⟩ : BufTy).Contents (Elt F)}
  {x16 : (⟨S2x2, .f32⟩ : BufTy).Contents (Elt F)}
  {x17 : (⟨S2x256x128, .f32⟩ : BufTy).Contents (Elt F)}
  {x18 : (⟨S2x128, .f32⟩ : BufTy).Contents (Elt F)}
  {x19 : (⟨S2x128x2, .f32⟩ : BufTy).Contents (Elt F)}
  {x20 : (⟨S2x2, .f32⟩ : BufTy).Contents (Elt F)}
  {x21 : (⟨S2x128x128, .f32⟩ : BufTy).Contents (Elt F)}
  {x22 : (⟨S2x128, .f32⟩ : BufTy).Contents (Elt F)}
  {x23 : (⟨S2x128x128, .f32⟩ : BufTy).Contents (Elt F)}
  {x24 : (⟨S2x128, .f32⟩ : BufTy).Contents (Elt F)}
  {x25 : (⟨S2, .f32⟩ : BufTy).Contents (Elt F)}
  {x26 : (⟨S128x10, .f32⟩ : BufTy).Contents (Elt F)}
  {x27 : (⟨S10, .f32⟩ : BufTy).Contents (Elt F)}

private theorem r11_v385 (V : Valuation τ sig (Elt F))
    (h355 : V (Proc.devRef .tc main_v355) = Read.val_main_v355 (F := F) x0 x1 x2 x3 x4 x6 x7 x8 x9 x10 x11 x12 x13 x14 x15 x16 x17 x18 x19 x20 x21 x22 x23 x24 x25)
    (h22 : V (Proc.devRef .tc main_arg22) = x22) (h23 : V (Proc.devRef .tc main_arg23) = x23)
    (h24 : V (Proc.devRef .tc main_arg24) = x24) (h5 : V (Proc.devRef .tc main_arg5) = x5)
    (h26 : V (Proc.devRef .tc main_arg26) = x26) (h27 : V (Proc.devRef .tc main_arg27) = x27) :
    after rops11 V (Proc.devRef .tc main_v385) = Read.val_main_v385 (F := F) x0 x1 x2 x3 x4 x5 x6 x7 x8 x9 x10 x11 x12 x13 x14 x15 x16 x17 x18 x19 x20 x21 x22 x23 x24 x25 x26 x27 := by
  after_results_simp
  rw [h355, h22, h23, h24, h5, h26, h27]
  rfl

end Stretch

variable (m : (ℓ : Loc nD τ sig) → Buf (Elt Ideal) ℓ)

private theorem r11_carry (c : Dev nD) (r : Ref sig .tc) (hr : r ∉ r11_wr) :
    RV12 m c (Proc.devRef .tc r) = RV11 m c (Proc.devRef .tc r) := by
  rw [RV12_eq]
  exact r11_keep (RV11 m c) r hr

theorem rhost11 (c : Dev nD) (h : RFacts11 m c) : RFacts12 m c where
  v385 := by
    rw [RV12_eq]
    exact r11_v385 (RV11 m c) h.v355 (h.args main_arg22 (by decide)) (h.args main_arg23 (by decide)) (h.args main_arg24 (by decide)) (h.args main_arg5 (by decide)) (h.args main_arg26 (by decide)) (h.args main_arg27 (by decide))
  args := fun r hr => (r11_carry m c r (by revert r; decide)).trans (h.args r hr)

end Cert.ReferenceIdeal.RStages

end
-- ==== Proof.RAssembly.lean ====
/- The reference's run: the result holds the last operation's stage of the launch arguments, and the arguments are unchanged. -/
import proofs.«165269_j27702539059574_1_alg».proof.Proof.RStages
import proofs.«165269_j27702539059574_1_alg».proof.Proof.RunP
import proofs.«165269_j27702539059574_1_alg».proof.Proof.RHost0
import proofs.«165269_j27702539059574_1_alg».proof.Proof.RHost1
import proofs.«165269_j27702539059574_1_alg».proof.Proof.RHost2
import proofs.«165269_j27702539059574_1_alg».proof.Proof.RHost3
import proofs.«165269_j27702539059574_1_alg».proof.Proof.RHost4
import proofs.«165269_j27702539059574_1_alg».proof.Proof.RHost5
import proofs.«165269_j27702539059574_1_alg».proof.Proof.RHost6
import proofs.«165269_j27702539059574_1_alg».proof.Proof.RHost7
import proofs.«165269_j27702539059574_1_alg».proof.Proof.RHost8
import proofs.«165269_j27702539059574_1_alg».proof.Proof.RHost9
import proofs.«165269_j27702539059574_1_alg».proof.Proof.RHost10
import proofs.«165269_j27702539059574_1_alg».proof.Proof.RHost11

set_option maxRecDepth 16384

noncomputable section

namespace Cert.ReferenceIdeal.RStages

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

theorem rfacts_end (c : Dev nD) : RFacts12 m c :=
  rhost11 m c (rhost10 m c (rhost9 m c (rhost8 m c (rhost7 m c (rhost6 m c (rhost5 m c (rhost4 m c (rhost3 m c (rhost2 m c (rhost1 m c (rhost0 m c)))))))))))

theorem run (ρ : Dev nD → PrngReg) :
    θ_run defs (onTc (τ := τ) (main (F := Ideal))) ⟨m, fun _ => 0, ρ⟩ fun r => ∀ c : Dev nD,
      r.2.mem ((c.tc : Thread nD τ).loc main_v385) = Cert.ReferenceIdeal.Read.val_main_v385 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => by
    have e := fold_eq m c
    have f := rfacts_end m c
    exact ⟨(h c main_v385).trans ((congrFun e _).trans f.v385),
      (h c main_arg0).trans ((congrFun e _).trans (f.args main_arg0 (by decide))),
      (h c main_arg1).trans ((congrFun e _).trans (f.args main_arg1 (by decide))),
      (h c main_arg2).trans ((congrFun e _).trans (f.args main_arg2 (by decide))),
      (h c main_arg3).trans ((congrFun e _).trans (f.args main_arg3 (by decide))),
      (h c main_arg4).trans ((congrFun e _).trans (f.args main_arg4 (by decide))),
      (h c main_arg5).trans ((congrFun e _).trans (f.args main_arg5 (by decide))),
      (h c main_arg6).trans ((congrFun e _).trans (f.args main_arg6 (by decide))),
      (h c main_arg7).trans ((congrFun e _).trans (f.args main_arg7 (by decide))),
      (h c main_arg8).trans ((congrFun e _).trans (f.args main_arg8 (by decide))),
      (h c main_arg9).trans ((congrFun e _).trans (f.args main_arg9 (by decide))),
      (h c main_arg10).trans ((congrFun e _).trans (f.args main_arg10 (by decide))),
      (h c main_arg11).trans ((congrFun e _).trans (f.args main_arg11 (by decide))),
      (h c main_arg12).trans ((congrFun e _).trans (f.args main_arg12 (by decide))),
      (h c main_arg13).trans ((congrFun e _).trans (f.args main_arg13 (by decide))),
      (h c main_arg14).trans ((congrFun e _).trans (f.args main_arg14 (by decide))),
      (h c main_arg15).trans ((congrFun e _).trans (f.args main_arg15 (by decide))),
      (h c main_arg16).trans ((congrFun e _).trans (f.args main_arg16 (by decide))),
      (h c main_arg17).trans ((congrFun e _).trans (f.args main_arg17 (by decide))),
      (h c main_arg18).trans ((congrFun e _).trans (f.args main_arg18 (by decide))),
      (h c main_arg19).trans ((congrFun e _).trans (f.args main_arg19 (by decide))),
      (h c main_arg20).trans ((congrFun e _).trans (f.args main_arg20 (by decide))),
      (h c main_arg21).trans ((congrFun e _).trans (f.args main_arg21 (by decide))),
      (h c main_arg22).trans ((congrFun e _).trans (f.args main_arg22 (by decide))),
      (h c main_arg23).trans ((congrFun e _).trans (f.args main_arg23 (by decide))),
      (h c main_arg24).trans ((congrFun e _).trans (f.args main_arg24 (by decide))),
      (h c main_arg25).trans ((congrFun e _).trans (f.args main_arg25 (by decide))),
      (h c main_arg26).trans ((congrFun e _).trans (f.args main_arg26 (by decide))),
      (h c main_arg27).trans ((congrFun e _).trans (f.args main_arg27 (by decide)))⟩)
    (Cert.ReferenceIdeal.Value.run_fold (F := Ideal) m ρ)

end Cert.ReferenceIdeal.RStages

end
-- ==== Proof.Stages.lean ====
/- What the kernel's buffers hold at each boundary of @main: each holds the reference's stage of the launch arguments, and `args` says the listed argument arrays are as launched. -/
import proofs.«165269_j27702539059574_1_alg».proof.Proof.FrameKI
import proofs.«165269_j27702539059574_1_alg».proof.Proof.ReadP

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

structure FactsW1 (c : Dev nD) : Prop where
  v1 : W1 m ρ c (Proc.devRef .tc main_v1) = Cert.ReferenceIdeal.Read.val_main_v1 (F := Ideal) (m ((c.tc : Thread nD τ).loc main_arg1))
  v3 : W1 m ρ c (Proc.devRef .tc main_v3) = Cert.ReferenceIdeal.Read.val_main_v3 (F := Ideal) (m ((c.tc : Thread nD τ).loc main_arg1))
  v5 : W1 m ρ c (Proc.devRef .tc main_v5) = Cert.ReferenceIdeal.Read.val_main_v5 (F := Ideal) (m ((c.tc : Thread nD τ).loc main_arg4))
  v7 : W1 m ρ c (Proc.devRef .tc main_v7) = Cert.ReferenceIdeal.Read.val_main_v7 (F := Ideal) (m ((c.tc : Thread nD τ).loc main_arg4))
  v8 : W1 m ρ c (Proc.devRef .tc main_v8) = Cert.ReferenceIdeal.Read.val_main_v9 (F := Ideal) (m ((c.tc : Thread nD τ).loc main_arg12))
  args : ∀ r ∈ ([main_arg0, main_arg2, main_arg3, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)), W1 m ρ c (Proc.devRef .tc r) = m ((c.tc : Thread nD τ).loc r)

structure FactsW2 (c : Dev nD) : Prop where
  v1 : W2 m ρ c (Proc.devRef .tc main_v1) = Cert.ReferenceIdeal.Read.val_main_v1 (F := Ideal) (m ((c.tc : Thread nD τ).loc main_arg1))
  v3 : W2 m ρ c (Proc.devRef .tc main_v3) = Cert.ReferenceIdeal.Read.val_main_v3 (F := Ideal) (m ((c.tc : Thread nD τ).loc main_arg1))
  v5 : W2 m ρ c (Proc.devRef .tc main_v5) = Cert.ReferenceIdeal.Read.val_main_v5 (F := Ideal) (m ((c.tc : Thread nD τ).loc main_arg4))
  v7 : W2 m ρ c (Proc.devRef .tc main_v7) = Cert.ReferenceIdeal.Read.val_main_v7 (F := Ideal) (m ((c.tc : Thread nD τ).loc main_arg4))
  v9 : W2 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  args : ∀ r ∈ ([main_arg0, main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W2 m ρ c (Proc.devRef .tc r) = m ((c.tc : Thread nD τ).loc r)

structure FactsW5 (c : Dev nD) : Prop where
  v1 : W5 m ρ c (Proc.devRef .tc main_v1) = Cert.ReferenceIdeal.Read.val_main_v1 (F := Ideal) (m ((c.tc : Thread nD τ).loc main_arg1))
  v3 : W5 m ρ c (Proc.devRef .tc main_v3) = Cert.ReferenceIdeal.Read.val_main_v3 (F := Ideal) (m ((c.tc : Thread nD τ).loc main_arg1))
  v5 : W5 m ρ c (Proc.devRef .tc main_v5) = Cert.ReferenceIdeal.Read.val_main_v5 (F := Ideal) (m ((c.tc : Thread nD τ).loc main_arg4))
  v7 : W5 m ρ c (Proc.devRef .tc main_v7) = Cert.ReferenceIdeal.Read.val_main_v7 (F := Ideal) (m ((c.tc : Thread nD τ).loc main_arg4))
  v9 : W5 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v30 : W5 m ρ c (Proc.devRef .tc main_v30) = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12))
  v32 : W5 m ρ c (Proc.devRef .tc main_v32) = Cert.ReferenceIdeal.Read.val_main_v15 (F := Ideal) (m ((c.tc : Thread nD τ).loc main_arg6))
  v36 : W5 m ρ c (Proc.devRef .tc main_v36) = Cert.ReferenceIdeal.Read.val_main_v19 (F := Ideal) (m ((c.tc : Thread nD τ).loc main_arg8))
  v39 : W5 m ρ c (Proc.devRef .tc main_v39) = Cert.ReferenceIdeal.Read.val_main_v42 (F := Ideal) (m ((c.tc : Thread nD τ).loc main_arg7))
  v40 : W5 m ρ c (Proc.devRef .tc main_v40) = Cert.ReferenceIdeal.Read.val_main_v47 (F := Ideal) (m ((c.tc : Thread nD τ).loc main_arg9))
  args : ∀ r ∈ ([main_arg0, main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W5 m ρ c (Proc.devRef .tc r) = m ((c.tc : Thread nD τ).loc r)

structure FactsW6 (c : Dev nD) : Prop where
  v1 : W6 m ρ c (Proc.devRef .tc main_v1) = Cert.ReferenceIdeal.Read.val_main_v1 (F := Ideal) (m ((c.tc : Thread nD τ).loc main_arg1))
  v3 : W6 m ρ c (Proc.devRef .tc main_v3) = Cert.ReferenceIdeal.Read.val_main_v3 (F := Ideal) (m ((c.tc : Thread nD τ).loc main_arg1))
  v5 : W6 m ρ c (Proc.devRef .tc main_v5) = Cert.ReferenceIdeal.Read.val_main_v5 (F := Ideal) (m ((c.tc : Thread nD τ).loc main_arg4))
  v7 : W6 m ρ c (Proc.devRef .tc main_v7) = Cert.ReferenceIdeal.Read.val_main_v7 (F := Ideal) (m ((c.tc : Thread nD τ).loc main_arg4))
  v9 : W6 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v41 : W6 m ρ c (Proc.devRef .tc main_v41) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  args : ∀ r ∈ ([main_arg0, main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W6 m ρ c (Proc.devRef .tc r) = m ((c.tc : Thread nD τ).loc r)

structure FactsW8 (c : Dev nD) : Prop where
  v1 : W8 m ρ c (Proc.devRef .tc main_v1) = Cert.ReferenceIdeal.Read.val_main_v1 (F := Ideal) (m ((c.tc : Thread nD τ).loc main_arg1))
  v3 : W8 m ρ c (Proc.devRef .tc main_v3) = Cert.ReferenceIdeal.Read.val_main_v3 (F := Ideal) (m ((c.tc : Thread nD τ).loc main_arg1))
  v5 : W8 m ρ c (Proc.devRef .tc main_v5) = Cert.ReferenceIdeal.Read.val_main_v5 (F := Ideal) (m ((c.tc : Thread nD τ).loc main_arg4))
  v7 : W8 m ρ c (Proc.devRef .tc main_v7) = Cert.ReferenceIdeal.Read.val_main_v7 (F := Ideal) (m ((c.tc : Thread nD τ).loc main_arg4))
  v9 : W8 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v43 : W8 m ρ c (Proc.devRef .tc main_v43) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v50 : W8 m ρ c (Proc.devRef .tc main_v50) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v58 : W8 m ρ c (Proc.devRef .tc main_v58) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v60 : W8 m ρ c (Proc.devRef .tc main_v60) = Cert.ReferenceIdeal.Read.val_main_v68 (F := Ideal) (m ((c.tc : Thread nD τ).loc main_arg13))
  v64 : W8 m ρ c (Proc.devRef .tc main_v64) = Cert.ReferenceIdeal.Read.val_main_v77 (F := Ideal) (m ((c.tc : Thread nD τ).loc main_arg15))
  v67 : W8 m ρ c (Proc.devRef .tc main_v67) = Cert.ReferenceIdeal.Read.val_main_v72 (F := Ideal) (m ((c.tc : Thread nD τ).loc main_arg14))
  v68 : W8 m ρ c (Proc.devRef .tc main_v68) = Cert.ReferenceIdeal.Read.val_main_v81 (F := Ideal) (m ((c.tc : Thread nD τ).loc main_arg16))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W8 m ρ c (Proc.devRef .tc r) = m ((c.tc : Thread nD τ).loc r)

structure FactsW9 (c : Dev nD) : Prop where
  v1 : W9 m ρ c (Proc.devRef .tc main_v1) = Cert.ReferenceIdeal.Read.val_main_v1 (F := Ideal) (m ((c.tc : Thread nD τ).loc main_arg1))
  v3 : W9 m ρ c (Proc.devRef .tc main_v3) = Cert.ReferenceIdeal.Read.val_main_v3 (F := Ideal) (m ((c.tc : Thread nD τ).loc main_arg1))
  v5 : W9 m ρ c (Proc.devRef .tc main_v5) = Cert.ReferenceIdeal.Read.val_main_v5 (F := Ideal) (m ((c.tc : Thread nD τ).loc main_arg4))
  v7 : W9 m ρ c (Proc.devRef .tc main_v7) = Cert.ReferenceIdeal.Read.val_main_v7 (F := Ideal) (m ((c.tc : Thread nD τ).loc main_arg4))
  v9 : W9 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v43 : W9 m ρ c (Proc.devRef .tc main_v43) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v50 : W9 m ρ c (Proc.devRef .tc main_v50) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v69 : W9 m ρ c (Proc.devRef .tc main_v69) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W9 m ρ c (Proc.devRef .tc r) = m ((c.tc : Thread nD τ).loc r)

structure FactsW10 (c : Dev nD) : Prop where
  v1 : W10 m ρ c (Proc.devRef .tc main_v1) = Cert.ReferenceIdeal.Read.val_main_v1 (F := Ideal) (m ((c.tc : Thread nD τ).loc main_arg1))
  v3 : W10 m ρ c (Proc.devRef .tc main_v3) = Cert.ReferenceIdeal.Read.val_main_v3 (F := Ideal) (m ((c.tc : Thread nD τ).loc main_arg1))
  v5 : W10 m ρ c (Proc.devRef .tc main_v5) = Cert.ReferenceIdeal.Read.val_main_v5 (F := Ideal) (m ((c.tc : Thread nD τ).loc main_arg4))
  v7 : W10 m ρ c (Proc.devRef .tc main_v7) = Cert.ReferenceIdeal.Read.val_main_v7 (F := Ideal) (m ((c.tc : Thread nD τ).loc main_arg4))
  v9 : W10 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v43 : W10 m ρ c (Proc.devRef .tc main_v43) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v50 : W10 m ρ c (Proc.devRef .tc main_v50) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v69 : W10 m ρ c (Proc.devRef .tc main_v69) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  v76 : W10 m ρ c (Proc.devRef .tc main_v76) = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v84 : W10 m ρ c (Proc.devRef .tc main_v84) = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v86 : W10 m ρ c (Proc.devRef .tc main_v86) = Cert.ReferenceIdeal.Read.val_main_v100 (F := Ideal) (m ((c.tc : Thread nD τ).loc main_arg17))
  v90 : W10 m ρ c (Proc.devRef .tc main_v90) = Cert.ReferenceIdeal.Read.val_main_v109 (F := Ideal) (m ((c.tc : Thread nD τ).loc main_arg19))
  v93 : W10 m ρ c (Proc.devRef .tc main_v93) = Cert.ReferenceIdeal.Read.val_main_v104 (F := Ideal) (m ((c.tc : Thread nD τ).loc main_arg18))
  v94 : W10 m ρ c (Proc.devRef .tc main_v94) = Cert.ReferenceIdeal.Read.val_main_v113 (F := Ideal) (m ((c.tc : Thread nD τ).loc main_arg20))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W10 m ρ c (Proc.devRef .tc r) = m ((c.tc : Thread nD τ).loc r)

structure FactsW11 (c : Dev nD) : Prop where
  v1 : W11 m ρ c (Proc.devRef .tc main_v1) = Cert.ReferenceIdeal.Read.val_main_v1 (F := Ideal) (m ((c.tc : Thread nD τ).loc main_arg1))
  v3 : W11 m ρ c (Proc.devRef .tc main_v3) = Cert.ReferenceIdeal.Read.val_main_v3 (F := Ideal) (m ((c.tc : Thread nD τ).loc main_arg1))
  v5 : W11 m ρ c (Proc.devRef .tc main_v5) = Cert.ReferenceIdeal.Read.val_main_v5 (F := Ideal) (m ((c.tc : Thread nD τ).loc main_arg4))
  v7 : W11 m ρ c (Proc.devRef .tc main_v7) = Cert.ReferenceIdeal.Read.val_main_v7 (F := Ideal) (m ((c.tc : Thread nD τ).loc main_arg4))
  v9 : W11 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v43 : W11 m ρ c (Proc.devRef .tc main_v43) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v50 : W11 m ρ c (Proc.devRef .tc main_v50) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v69 : W11 m ρ c (Proc.devRef .tc main_v69) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  v76 : W11 m ρ c (Proc.devRef .tc main_v76) = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v95 : W11 m ρ c (Proc.devRef .tc main_v95) = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W11 m ρ c (Proc.devRef .tc r) = m ((c.tc : Thread nD τ).loc r)

structure FactsW16 (c : Dev nD) : Prop where
  v1 : W16 m ρ c (Proc.devRef .tc main_v1) = Cert.ReferenceIdeal.Read.val_main_v1 (F := Ideal) (m ((c.tc : Thread nD τ).loc main_arg1))
  v3 : W16 m ρ c (Proc.devRef .tc main_v3) = Cert.ReferenceIdeal.Read.val_main_v3 (F := Ideal) (m ((c.tc : Thread nD τ).loc main_arg1))
  v5 : W16 m ρ c (Proc.devRef .tc main_v5) = Cert.ReferenceIdeal.Read.val_main_v5 (F := Ideal) (m ((c.tc : Thread nD τ).loc main_arg4))
  v7 : W16 m ρ c (Proc.devRef .tc main_v7) = Cert.ReferenceIdeal.Read.val_main_v7 (F := Ideal) (m ((c.tc : Thread nD τ).loc main_arg4))
  v9 : W16 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v139 : W16 m ρ c (Proc.devRef .tc main_v139) = Cert.ReferenceIdeal.Read.val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25))
  v141 : W16 m ρ c (Proc.devRef .tc main_v141) = Cert.ReferenceIdeal.Read.val_main_v175 (F := Ideal) (m ((c.tc : Thread nD τ).loc main_arg21))
  v145 : W16 m ρ c (Proc.devRef .tc main_v145) = Cert.ReferenceIdeal.Read.val_main_v184 (F := Ideal) (m ((c.tc : Thread nD τ).loc main_arg23))
  v148 : W16 m ρ c (Proc.devRef .tc main_v148) = Cert.ReferenceIdeal.Read.val_main_v179 (F := Ideal) (m ((c.tc : Thread nD τ).loc main_arg22))
  v149 : W16 m ρ c (Proc.devRef .tc main_v149) = Cert.ReferenceIdeal.Read.val_main_v188 (F := Ideal) (m ((c.tc : Thread nD τ).loc main_arg24))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W16 m ρ c (Proc.devRef .tc r) = m ((c.tc : Thread nD τ).loc r)

structure FactsW17 (c : Dev nD) : Prop where
  v1 : W17 m ρ c (Proc.devRef .tc main_v1) = Cert.ReferenceIdeal.Read.val_main_v1 (F := Ideal) (m ((c.tc : Thread nD τ).loc main_arg1))
  v3 : W17 m ρ c (Proc.devRef .tc main_v3) = Cert.ReferenceIdeal.Read.val_main_v3 (F := Ideal) (m ((c.tc : Thread nD τ).loc main_arg1))
  v5 : W17 m ρ c (Proc.devRef .tc main_v5) = Cert.ReferenceIdeal.Read.val_main_v5 (F := Ideal) (m ((c.tc : Thread nD τ).loc main_arg4))
  v7 : W17 m ρ c (Proc.devRef .tc main_v7) = Cert.ReferenceIdeal.Read.val_main_v7 (F := Ideal) (m ((c.tc : Thread nD τ).loc main_arg4))
  v9 : W17 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v150 : W17 m ρ c (Proc.devRef .tc main_v150) = Cert.ReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ ([main_arg3, main_arg5, main_arg6, main_arg7, main_arg8, main_arg9, main_arg10, main_arg12, main_arg13, main_arg14, main_arg15, main_arg16, main_arg17, main_arg18, main_arg19, main_arg20, main_arg21, main_arg22, main_arg23, main_arg24, main_arg25, main_arg26, main_arg27] : List (Ref sig .tc)), W17 m ρ c (Proc.devRef .tc r) = m ((c.tc : Thread nD τ).loc r)

structure FactsW20 (c : Dev nD) : Prop where
  v1 : W20 m ρ c (Proc.devRef .tc main_v1) = Cert.ReferenceIdeal.Read.val_main_v1 (F := Ideal) (m ((c.tc : Thread nD τ).loc main_arg1))
  v3 : W20 m ρ c (Proc.devRef .tc main_v3) = Cert.ReferenceIdeal.Read.val_main_v3 (F := Ideal) (m ((c.tc : Thread nD τ).loc main_arg1))
  v5 : W20 m ρ c (Proc.devRef .tc main_v5) = Cert.ReferenceIdeal.Read.val_main_v5 (F := Ideal) (m ((c.tc : Thread nD τ).loc main_arg4))
  v7 : W20 m ρ c (Proc.devRef .tc main_v7) = Cert.ReferenceIdeal.Read.val_main_v7 (F := Ideal) (m ((c.tc : Thread nD τ).loc main_arg4))
  v9 : W20 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v150 : W20 m ρ c (Proc.devRef .tc main_v150) = Cert.ReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v171 : W20 m ρ c (Proc.devRef .tc main_v171) = Cert.ReferenceIdeal.Read.val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v173 : W20 m ρ c (Proc.devRef .tc main_v173) = Cert.ReferenceIdeal.Read.val_main_v194 (F := Ideal) (m ((c.tc : Thread nD τ).loc main_arg6))
  v177 : W20 m ρ c (Proc.devRef .tc main_v177) = Cert.ReferenceIdeal.Read.val_main_v198 (F := Ideal) (m ((c.tc : Thread nD τ).loc main_arg8))
  v180 : W20 m ρ c (Proc.devRef .tc main_v180) = Cert.ReferenceIdeal.Read.val_main_v221 (F := Ideal) (m ((c.tc : Thread nD τ).loc main_arg7))
  v181 : W20 m ρ c (Proc.devRef .tc main_v181) = Cert.ReferenceIdeal.Read.val_main_v226 (F := Ideal) (m ((c.tc : Thread nD τ).loc main_arg9))
  args : ∀ r ∈ ([main_arg3, main_arg5, main_arg12, main_arg13, main_arg14, main_arg15, main_arg16, main_arg17, main_arg18, main_arg19, main_arg20, main_arg21, main_arg22, main_arg23, main_arg24, main_arg25, main_arg26, main_arg27] : List (Ref sig .tc)), W20 m ρ c (Proc.devRef .tc r) = m ((c.tc : Thread nD τ).loc r)

structure FactsW21 (c : Dev nD) : Prop where
  v1 : W21 m ρ c (Proc.devRef .tc main_v1) = Cert.ReferenceIdeal.Read.val_main_v1 (F := Ideal) (m ((c.tc : Thread nD τ).loc main_arg1))
  v3 : W21 m ρ c (Proc.devRef .tc main_v3) = Cert.ReferenceIdeal.Read.val_main_v3 (F := Ideal) (m ((c.tc : Thread nD τ).loc main_arg1))
  v5 : W21 m ρ c (Proc.devRef .tc main_v5) = Cert.ReferenceIdeal.Read.val_main_v5 (F := Ideal) (m ((c.tc : Thread nD τ).loc main_arg4))
  v7 : W21 m ρ c (Proc.devRef .tc main_v7) = Cert.ReferenceIdeal.Read.val_main_v7 (F := Ideal) (m ((c.tc : Thread nD τ).loc main_arg4))
  v9 : W21 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v150 : W21 m ρ c (Proc.devRef .tc main_v150) = Cert.ReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v182 : W21 m ρ c (Proc.devRef .tc main_v182) = Cert.ReferenceIdeal.Read.val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ ([main_arg3, main_arg5, main_arg12, main_arg13, main_arg14, main_arg15, main_arg16, main_arg17, main_arg18, main_arg19, main_arg20, main_arg21, main_arg22, main_arg23, main_arg24, main_arg25, main_arg26, main_arg27] : List (Ref sig .tc)), W21 m ρ c (Proc.devRef .tc r) = m ((c.tc : Thread nD τ).loc r)

structure FactsW23 (c : Dev nD) : Prop where
  v1 : W23 m ρ c (Proc.devRef .tc main_v1) = Cert.ReferenceIdeal.Read.val_main_v1 (F := Ideal) (m ((c.tc : Thread nD τ).loc main_arg1))
  v3 : W23 m ρ c (Proc.devRef .tc main_v3) = Cert.ReferenceIdeal.Read.val_main_v3 (F := Ideal) (m ((c.tc : Thread nD τ).loc main_arg1))
  v7 : W23 m ρ c (Proc.devRef .tc main_v7) = Cert.ReferenceIdeal.Read.val_main_v7 (F := Ideal) (m ((c.tc : Thread nD τ).loc main_arg4))
  v9 : W23 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v184 : W23 m ρ c (Proc.devRef .tc main_v184) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v191 : W23 m ρ c (Proc.devRef .tc main_v191) = Cert.ReferenceIdeal.Read.val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v199 : W23 m ρ c (Proc.devRef .tc main_v199) = Cert.ReferenceIdeal.Read.val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v201 : W23 m ρ c (Proc.devRef .tc main_v201) = Cert.ReferenceIdeal.Read.val_main_v247 (F := Ideal) (m ((c.tc : Thread nD τ).loc main_arg13))
  v205 : W23 m ρ c (Proc.devRef .tc main_v205) = Cert.ReferenceIdeal.Read.val_main_v256 (F := Ideal) (m ((c.tc : Thread nD τ).loc main_arg15))
  v208 : W23 m ρ c (Proc.devRef .tc main_v208) = Cert.ReferenceIdeal.Read.val_main_v251 (F := Ideal) (m ((c.tc : Thread nD τ).loc main_arg14))
  v209 : W23 m ρ c (Proc.devRef .tc main_v209) = Cert.ReferenceIdeal.Read.val_main_v260 (F := Ideal) (m ((c.tc : Thread nD τ).loc main_arg16))
  args : ∀ r ∈ ([main_arg3, main_arg5, main_arg12, main_arg17, main_arg18, main_arg19, main_arg20, main_arg21, main_arg22, main_arg23, main_arg24, main_arg25, main_arg26, main_arg27] : List (Ref sig .tc)), W23 m ρ c (Proc.devRef .tc r) = m ((c.tc : Thread nD τ).loc r)

structure FactsW24 (c : Dev nD) : Prop where
  v1 : W24 m ρ c (Proc.devRef .tc main_v1) = Cert.ReferenceIdeal.Read.val_main_v1 (F := Ideal) (m ((c.tc : Thread nD τ).loc main_arg1))
  v3 : W24 m ρ c (Proc.devRef .tc main_v3) = Cert.ReferenceIdeal.Read.val_main_v3 (F := Ideal) (m ((c.tc : Thread nD τ).loc main_arg1))
  v7 : W24 m ρ c (Proc.devRef .tc main_v7) = Cert.ReferenceIdeal.Read.val_main_v7 (F := Ideal) (m ((c.tc : Thread nD τ).loc main_arg4))
  v9 : W24 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v184 : W24 m ρ c (Proc.devRef .tc main_v184) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v191 : W24 m ρ c (Proc.devRef .tc main_v191) = Cert.ReferenceIdeal.Read.val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v210 : W24 m ρ c (Proc.devRef .tc main_v210) = Cert.ReferenceIdeal.Read.val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ ([main_arg3, main_arg5, main_arg12, main_arg17, main_arg18, main_arg19, main_arg20, main_arg21, main_arg22, main_arg23, main_arg24, main_arg25, main_arg26, main_arg27] : List (Ref sig .tc)), W24 m ρ c (Proc.devRef .tc r) = m ((c.tc : Thread nD τ).loc r)

structure FactsW25 (c : Dev nD) : Prop where
  v3 : W25 m ρ c (Proc.devRef .tc main_v3) = Cert.ReferenceIdeal.Read.val_main_v3 (F := Ideal) (m ((c.tc : Thread nD τ).loc main_arg1))
  v7 : W25 m ρ c (Proc.devRef .tc main_v7) = Cert.ReferenceIdeal.Read.val_main_v7 (F := Ideal) (m ((c.tc : Thread nD τ).loc main_arg4))
  v9 : W25 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v184 : W25 m ρ c (Proc.devRef .tc main_v184) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v191 : W25 m ρ c (Proc.devRef .tc main_v191) = Cert.ReferenceIdeal.Read.val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v210 : W25 m ρ c (Proc.devRef .tc main_v210) = Cert.ReferenceIdeal.Read.val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v217 : W25 m ρ c (Proc.devRef .tc main_v217) = Cert.ReferenceIdeal.Read.val_main_v269 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v225 : W25 m ρ c (Proc.devRef .tc main_v225) = Cert.ReferenceIdeal.Read.val_main_v277 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v227 : W25 m ρ c (Proc.devRef .tc main_v227) = Cert.ReferenceIdeal.Read.val_main_v279 (F := Ideal) (m ((c.tc : Thread nD τ).loc main_arg17))
  v231 : W25 m ρ c (Proc.devRef .tc main_v231) = Cert.ReferenceIdeal.Read.val_main_v288 (F := Ideal) (m ((c.tc : Thread nD τ).loc main_arg19))
  v234 : W25 m ρ c (Proc.devRef .tc main_v234) = Cert.ReferenceIdeal.Read.val_main_v283 (F := Ideal) (m ((c.tc : Thread nD τ).loc main_arg18))
  v235 : W25 m ρ c (Proc.devRef .tc main_v235) = Cert.ReferenceIdeal.Read.val_main_v292 (F := Ideal) (m ((c.tc : Thread nD τ).loc main_arg20))
  args : ∀ r ∈ ([main_arg3, main_arg5, main_arg12, main_arg21, main_arg22, main_arg23, main_arg24, main_arg25, main_arg26, main_arg27] : List (Ref sig .tc)), W25 m ρ c (Proc.devRef .tc r) = m ((c.tc : Thread nD τ).loc r)

structure FactsW26 (c : Dev nD) : Prop where
  v3 : W26 m ρ c (Proc.devRef .tc main_v3) = Cert.ReferenceIdeal.Read.val_main_v3 (F := Ideal) (m ((c.tc : Thread nD τ).loc main_arg1))
  v7 : W26 m ρ c (Proc.devRef .tc main_v7) = Cert.ReferenceIdeal.Read.val_main_v7 (F := Ideal) (m ((c.tc : Thread nD τ).loc main_arg4))
  v9 : W26 m ρ c (Proc.devRef .tc main_v9) = Cert.ReferenceIdeal.Read.val_main_v11 (F := Ideal) (m ((c.tc : Thread nD τ).loc main_arg2)) (m ((c.tc : Thread nD τ).loc main_arg11)) (m ((c.tc : Thread nD τ).loc main_arg12))
  v184 : W26 m ρ c (Proc.devRef .tc main_v184) = Cert.ReferenceIdeal.Read.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v191 : W26 m ρ c (Proc.devRef .tc main_v191) = Cert.ReferenceIdeal.Read.val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v210 : W26 m ρ c (Proc.devRef .tc main_v210) = Cert.ReferenceIdeal.Read.val_main_v262 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v217 : W26 m ρ c (Proc.devRef .tc main_v217) = Cert.ReferenceIdeal.Read.val_main_v269 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v236 : W26 m ρ c (Proc.devRef .tc main_v236) = Cert.ReferenceIdeal.Read.val_main_v294 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ ([main_arg3, main_arg5, main_arg12, main_arg21, main_arg22, main_arg23, main_arg24, main_arg25, main_arg26, main_arg27] : List (Ref sig .tc)), W26 m ρ c (Proc.devRef .tc r) = m ((c.tc : Thread nD τ).loc r)

structure FactsW31 (c : Dev nD) : Prop where
  v280 : W31 m ρ c (Proc.devRef .tc main_v280) = Cert.ReferenceIdeal.Read.val_main_v352 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v282 : W31 m ρ c (Proc.devRef .tc main_v282) = Cert.ReferenceIdeal.Read.val_main_v354 (F := Ideal) (m ((c.tc : Thread nD τ).loc main_arg21))
  v286 : W31 m ρ c (Proc.devRef .tc main_v286) = Cert.ReferenceIdeal.Read.val_main_v363 (F := Ideal) (m ((c.tc : Thread nD τ).loc main_arg23))
  v289 : W31 m ρ c (Proc.devRef .tc main_v289) = Cert.ReferenceIdeal.Read.val_main_v358 (F := Ideal) (m ((c.tc : Thread nD τ).loc main_arg22))
  v290 : W31 m ρ c (Proc.devRef .tc main_v290) = Cert.ReferenceIdeal.Read.val_main_v367 (F := Ideal) (m ((c.tc : Thread nD τ).loc main_arg24))
  args : ∀ r ∈ ([main_arg5, main_arg26, main_arg27] : List (Ref sig .tc)), W31 m ρ c (Proc.devRef .tc r) = m ((c.tc : Thread nD τ).loc r)

structure FactsW32 (c : Dev nD) : Prop where
  v291 : W32 m ρ c (Proc.devRef .tc main_v291) = Cert.ReferenceIdeal.Read.val_main_v369 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  args : ∀ r ∈ ([main_arg5, main_arg26, main_arg27] : List (Ref sig .tc)), W32 m ρ c (Proc.devRef .tc r) = m ((c.tc : Thread nD τ).loc r)

structure FactsW33 (c : Dev nD) : Prop where
  v303 : W33 m ρ c (Proc.devRef .tc main_v303) = Cert.ReferenceIdeal.Read.val_main_v381 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
  v304 : W33 m ρ c (Proc.devRef .tc main_v304) = Cert.ReferenceIdeal.Read.val_main_v383 (F := Ideal) (m ((c.tc : Thread nD τ).loc main_arg27))
  args : ∀ r ∈ ([main_arg26] : List (Ref sig .tc)), W33 m ρ c (Proc.devRef .tc r) = m ((c.tc : Thread nD τ).loc r)

structure FactsW34 (c : Dev nD) : Prop where
  v305 : W34 m ρ c (Proc.devRef .tc main_v305) = Cert.ReferenceIdeal.Read.val_main_v385 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

end Cert.KernelIdeal.Stages

end
-- ==== Proof.Host0.lean ====
/- The host operations that run before region 0: given that their operands hold the reference's stages of the launch arguments, so does each buffer they compute that is read later; a buffer they do not write is carried. -/
import proofs.«165269_j27702539059574_1_alg».proof.Proof.Stages
import Idealize.ShloMosaic.Lib.ValueLayout

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

private theorem row_reshape_eq_broadcast {α : Type} {a : ℕ} (x : (⟨1, ![a]⟩ : Shape).Idx → α)
    (hs : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hs = broadcastInDim ⟨2, ![1, a]⟩ ![1] hb x := by
  funext j
  obtain ⟨u, i, rfl⟩ : ∃ (u : Fin 1) (i : Fin a), j = ValueIdx.ix2 u i := ⟨j 0, j 1, ValueIdx.eq_ix2 j⟩
  rw [ValueIdx.shapeCast_a_1a_apply]
  refine (broadcastInDim_apply ![1] hb x _ (ValueIdx.ix1 i) ?_).symm
  intro b
  match b with
  | ⟨0, _⟩ =>
    show i.val = if a = 1 then 0 else i.val
    by_cases h1 : a = 1
    · rw [if_pos h1]; have := i.isLt; omega
    · rw [if_neg h1]

private theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev wr0 : List (Ref sig .tc) :=
  [main_v0, main_v1, main_v2, main_v3, main_v4, main_v5, main_v6, main_v7, main_v8]

private theorem hostOps0_writes :
    (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact writes_sub_of_mem (by decide)

private theorem W1_keep (c : Dev nD) (r : Ref sig .tc) (hr : r ∉ wr0) :
    W1 m ρ c (Proc.devRef .tc r) = m ((c.tc : Thread nD τ).loc r) :=
  (StableHlo.after_of_writes_sub hostOps0 (W0 m ρ c) hostOps0_writes hr).trans rfl

theorem host0 (c : Dev nD) : FactsW1 m ρ c where
  v1 := by
    show StableHlo.after hostOps0 (W0 m ρ c) (Proc.devRef .tc main_v1) = _
    after_results
    rfl
  v3 := by
    show StableHlo.after hostOps0 (W0 m ρ c) (Proc.devRef .tc main_v3) = _
    after_results
    rfl
  v5 := by
    show StableHlo.after hostOps0 (W0 m ρ c) (Proc.devRef .tc main_v5) = _
    after_results
    rfl
  v7 := by
    show StableHlo.after hostOps0 (W0 m ρ c) (Proc.devRef .tc main_v7) = _
    after_results
    rfl
  v8 := by
    show StableHlo.after hostOps0 (W0 m ρ c) (Proc.devRef .tc main_v8) = _
    after_results
    exact row_reshape_eq_broadcast (a := 128) _ _ _
  args := fun r hr => W1_keep m ρ c r (by revert r; decide)

end Cert.KernelIdeal.Stages

end
-- ==== Proof.Host2.lean ====
/- The host operations that run before region 1: given that their operands hold the reference's stages of the launch arguments, so does each buffer they compute that is read later; a buffer they do not write is carried. -/
import proofs.«165269_j27702539059574_1_alg».proof.Proof.Stages
import Idealize.ShloMosaic.Lib.ValueLayout

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

private theorem row_reshape_eq_broadcast {α : Type} {a : ℕ} (x : (⟨1, ![a]⟩ : Shape).Idx → α)
    (hs : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hs = broadcastInDim ⟨2, ![1, a]⟩ ![1] hb x := by
  funext j
  obtain ⟨u, i, rfl⟩ : ∃ (u : Fin 1) (i : Fin a), j = ValueIdx.ix2 u i := ⟨j 0, j 1, ValueIdx.eq_ix2 j⟩
  rw [ValueIdx.shapeCast_a_1a_apply]
  refine (broadcastInDim_apply ![1] hb x _ (ValueIdx.ix1 i) ?_).symm
  intro b
  match b with
  | ⟨0, _⟩ =>
    show i.val = if a = 1 then 0 else i.val
    by_cases h1 : a = 1
    · rw [if_pos h1]; have := i.isLt; omega
    · rw [if_neg h1]

private theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

private abbrev wr2 : List (Ref sig .tc) :=
  [main_c, main_v10, main_v11, main_c_0, main_v12, main_v13, main_v14, main_v15, main_v16, main_v17, main_call0_cst, main_call0_v0, main_v18,
   main_v19, main_v20, main_v21, main_v22, main_v23, main_v24, main_v25, main_v26, main_v27, main_v28, main_v29, main_v30, main_v31,
   main_v32, main_v33, main_v34, main_v35, main_v36, main_v37, main_v38, main_v39, main_v40, main_cst, main_cst_1]

private theorem hostOps1_writes :
    (hostOps1 : List (HloOp τ sig (Elt Ideal))).Forall fun op => op.writes ⊆ (wr2.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact writes_sub_of_mem (by decide)
private theorem hostOps1_1_writes :
    (hostOps1_1 : List (HloOp τ sig (Elt Ideal))).Forall fun op => op.writes ⊆ (wr2.map (Proc.devRef (τ := τ) .tc)).toFinset := by
  simp only [hostOps1_1, List.Forall, StableHlo.nullary_writes, StableHlo.unary_writes, StableHlo.binary_writes,
    StableHlo.ternary_writes, StableHlo.reshape_writes]
  repeat' apply And.intro
  all_goals exact writes_sub_of_mem (by decide)
set_option maxHeartbeats 1000000 in
private theorem hostOps1_2_writes :
    (hostOps1_2 : List (HloOp τ sig (Elt Ideal))).Forall fun op => op.writes ⊆ (wr2.map (Proc.devRef (τ := τ) .tc)).toFinset := by
  simp only [hostOps1_2, List.Forall, StableHlo.nullary_writes, StableHlo.unary_writes, StableHlo.binary_writes,
    StableHlo.ternary_writes, StableHlo.reshape_writes]
  repeat' apply And.intro
  all_goals exact writes_sub_of_mem (by decide)

private theorem W3_keep (c : Dev nD) (r : Ref sig .tc) (hr : r ∉ wr2) :
    W3 m ρ c (Proc.devRef .tc r) = W2 m ρ c (Proc.devRef .tc r) :=
  StableHlo.after_of_writes_sub hostOps1 (W2 m ρ c) hostOps1_writes hr
private theorem W4_keep (c : Dev nD) (r : Ref sig .tc) (hr : r ∉ wr2) :
    W4 m ρ c (Proc.devRef .tc r) = W2 m ρ c (Proc.devRef .tc r) :=
  (StableHlo.after_of_writes_sub hostOps1_1 (W3 m ρ c) hostOps1_1_writes hr).trans (W3_keep m ρ c r hr)
private theorem W5_keep (c : Dev nD) (r : Ref sig .tc) (hr : r ∉ wr2) :
    W5 m ρ c (Proc.devRef .tc r) = W2 m ρ c (Proc.devRef .tc r) :=
  (StableHlo.after_of_writes_sub hostOps1_2 (W4 m ρ c) hostOps1_2_writes hr).trans (W4_keep m ρ c r hr)

set_option maxHeartbeats 1000000 in
private theorem W3_v17 (c : Dev nD) (h : FactsW2 m ρ c) :
    W3 m ρ c (Proc.devRef .tc main_v17) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) := by
  show StableHlo.after hostOps1 (W2 m ρ c) (Proc.devRef .tc main_v17) = _
  generalize hV : W2 m ρ c = V
  after_results
  subst hV
  rw [h.v1, (h.args main_arg0 (by decide)), h.v9]
  unfold Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_c_0 Cert.ReferenceIdeal.Read.val_main_v23 Cert.ReferenceIdeal.Read.val_main_v22 Cert.ReferenceIdeal.Read.val_main_c
  rfl

set_option maxHeartbeats 1000000 in
private theorem W4_v18 (c : Dev nD) (h : FactsW2 m ρ c) :
    W4 m ρ c (Proc.devRef .tc main_v18) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) := by
  show StableHlo.after hostOps1_1 (W3 m ρ c) (Proc.devRef .tc main_v18) = _
  generalize hV : W3 m ρ c = V
  after_results
  subst hV
  rw [W3_v17 m ρ c h]
  unfold Cert.ReferenceIdeal.Read.val_main_v30 Cert.ReferenceIdeal.Read.val_main_call0_v0 Cert.ReferenceIdeal.Read.val_main_call0_cst
  rfl

set_option maxHeartbeats 1000000 in
private theorem W5_v30 (c : Dev nD) (h : FactsW2 m ρ c) :
    W5 m ρ c (Proc.devRef .tc main_v30) = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) := by
  show StableHlo.after hostOps1_2 (W4 m ρ c) (Proc.devRef .tc main_v30) = _
  generalize hV : W4 m ρ c = V
  after_results
  subst hV
  rw [W4_v18 m ρ c h, W4_keep m ρ c main_arg3 (by decide), (h.args main_arg3 (by decide)), W4_keep m ρ c main_v3 (by decide), h.v3,
    W4_keep m ρ c main_arg10 (by decide), (h.args main_arg10 (by decide)), W4_keep m ρ c main_arg0 (by decide), (h.args main_arg0 (by decide))]
  unfold Cert.ReferenceIdeal.Read.val_main_v40 Cert.ReferenceIdeal.Read.val_main_v39 Cert.ReferenceIdeal.Read.val_main_v38 Cert.ReferenceIdeal.Read.val_main_v37 Cert.ReferenceIdeal.Read.val_main_cst_1 Cert.ReferenceIdeal.Read.val_main_v13 Cert.ReferenceIdeal.Read.val_main_v12 Cert.ReferenceIdeal.Read.val_main_v36 Cert.ReferenceIdeal.Read.val_main_v35 Cert.ReferenceIdeal.Read.val_main_v34 Cert.ReferenceIdeal.Read.val_main_cst Cert.ReferenceIdeal.Read.val_main_v33 Cert.ReferenceIdeal.Read.val_main_v32 Cert.ReferenceIdeal.Read.val_main_v31
  rfl

set_option maxHeartbeats 1000000 in
private theorem W5_v32 (c : Dev nD) (h : FactsW2 m ρ c) :
    W5 m ρ c (Proc.devRef .tc main_v32) = Cert.ReferenceIdeal.Read.val_main_v15 (F := Ideal) (m ((c.tc : Thread nD τ).loc main_arg6)) := by
  show StableHlo.after hostOps1_2 (W4 m ρ c) (Proc.devRef .tc main_v32) = _
  generalize hV : W4 m ρ c = V
  after_results
  subst hV
  rw [W4_keep m ρ c main_arg6 (by decide), (h.args main_arg6 (by decide))]
  rfl

set_option maxHeartbeats 1000000 in
private theorem W5_v36 (c : Dev nD) (h : FactsW2 m ρ c) :
    W5 m ρ c (Proc.devRef .tc main_v36) = Cert.ReferenceIdeal.Read.val_main_v19 (F := Ideal) (m ((c.tc : Thread nD τ).loc main_arg8)) := by
  show StableHlo.after hostOps1_2 (W4 m ρ c) (Proc.devRef .tc main_v36) = _
  generalize hV : W4 m ρ c = V
  after_results
  subst hV
  rw [W4_keep m ρ c main_arg8 (by decide), (h.args main_arg8 (by decide))]
  rfl

set_option maxHeartbeats 1000000 in
private theorem W5_v39 (c : Dev nD) (h : FactsW2 m ρ c) :
    W5 m ρ c (Proc.devRef .tc main_v39) = Cert.ReferenceIdeal.Read.val_main_v42 (F := Ideal) (m ((c.tc : Thread nD τ).loc main_arg7)) := by
  show StableHlo.after hostOps1_2 (W4 m ρ c) (Proc.devRef .tc main_v39) = _
  generalize hV : W4 m ρ c = V
  after_results
  subst hV
  rw [W4_keep m ρ c main_arg7 (by decide), (h.args main_arg7 (by decide))]
  unfold Cert.ReferenceIdeal.Read.val_main_v42
  exact row_reshape_eq_broadcast (a := 128) (Cert.ReferenceIdeal.Read.val_main_v17 (F := Ideal) (m ((c.tc : Thread nD τ).loc main_arg7))) shapeCasts_S128_S1x128 _

set_option maxHeartbeats 1000000 in
private theorem W5_v40 (c : Dev nD) (h : FactsW2 m ρ c) :
    W5 m ρ c (Proc.devRef .tc main_v40) = Cert.ReferenceIdeal.Read.val_main_v47 (F := Ideal) (m ((c.tc : Thread nD τ).loc main_arg9)) := by
  show StableHlo.after hostOps1_2 (W4 m ρ c) (Proc.devRef .tc main_v40) = _
  generalize hV : W4 m ρ c = V
  after_results
  subst hV
  rw [W4_keep m ρ c main_arg9 (by decide), (h.args main_arg9 (by decide))]
  unfold Cert.ReferenceIdeal.Read.val_main_v47
  exact row_reshape_eq_broadcast (a := 128) (Cert.ReferenceIdeal.Read.val_main_v21 (F := Ideal) (m ((c.tc : Thread nD τ).loc main_arg9))) shapeCasts_S128_S1x128 _

set_option maxHeartbeats 1000000 in
theorem host2 (c : Dev nD) (h : FactsW2 m ρ c) : FactsW5 m ρ c where
  v1 := (W5_keep m ρ c main_v1 (by decide)).trans h.v1
  v3 := (W5_keep m ρ c main_v3 (by decide)).trans h.v3
  v5 := (W5_keep m ρ c main_v5 (by decide)).trans h.v5
  v7 := (W5_keep m ρ c main_v7 (by decide)).trans h.v7
  v9 := (W5_keep m ρ c main_v9 (by decide)).trans h.v9
  v30 := W5_v30 m ρ c h
  v32 := W5_v32 m ρ c h
  v36 := W5_v36 m ρ c h
  v39 := W5_v39 m ρ c h
  v40 := W5_v40 m ρ c h
  args := fun r hr => (W5_keep m ρ c r (by revert r; decide)).trans (h.args r (by revert r; decide))

end Cert.KernelIdeal.Stages

end
-- ==== Proof.Host4.lean ====
/- The host operations that run before region 2: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.Pipeline.Value

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

variable {F : FTy → Type} [FloatOps F]

private theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

private theorem row128 {α : Type} (y : (⟨1, ![128]⟩ : Shape).Idx → α) (hc : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ y hc = broadcastInDim ⟨2, ![1, 128]⟩ ![1] hb y := by
  funext j
  have hs := shapeCast_apply y hc j (fun a => match a with | ⟨0, _⟩ => ⟨(j 1).val, (j 1).isLt⟩)
    (by rewrite [Shape.rowMajor_val_one, Shape.rowMajor_val_two]; have h0 : (j 0).val < 1 := (j 0).isLt
        show (j 1).val = (j 0).val * 128 + (j 1).val; omega)
  have hb' := broadcastInDim_apply (![1] : Fin 1 → Fin 2) hb y j (fun a => match a with | ⟨0, _⟩ => ⟨(j 1).val, (j 1).isLt⟩)
    (fun a => match a with
      | ⟨0, _⟩ => by show (j 1).val = if (128 : Nat) = 1 then 0 else (j 1).val; rw [if_neg (by decide)])
  rw [hs, hb']

private theorem row2 {α : Type} (y : (⟨1, ![2]⟩ : Shape).Idx → α) (hc : (⟨1, ![2]⟩ : Shape).ShapeCasts ⟨2, ![1, 2]⟩)
    (hb : (⟨1, ![2]⟩ : Shape).BroadcastsInDim ⟨2, ![1, 2]⟩ (![1] : Fin 1 → Fin 2)) :
    shapeCast ⟨2, ![1, 2]⟩ y hc = broadcastInDim ⟨2, ![1, 2]⟩ ![1] hb y := by
  funext j
  have hs := shapeCast_apply y hc j (fun a => match a with | ⟨0, _⟩ => ⟨(j 1).val, (j 1).isLt⟩)
    (by rewrite [Shape.rowMajor_val_one, Shape.rowMajor_val_two]; have h0 : (j 0).val < 1 := (j 0).isLt
        show (j 1).val = (j 0).val * 2 + (j 1).val; omega)
  have hb' := broadcastInDim_apply (![1] : Fin 1 → Fin 2) hb y j (fun a => match a with | ⟨0, _⟩ => ⟨(j 1).val, (j 1).isLt⟩)
    (fun a => match a with
      | ⟨0, _⟩ => by show (j 1).val = if (2 : Nat) = 1 then 0 else (j 1).val; rw [if_neg (by decide)])
  rw [hs, hb']

private abbrev wr2 : List (Ref sig .tc) :=
  [main_call1_cst, main_call1_v0, main_v42]

private theorem hostOps2_writes : (hostOps2 : List (HloOp τ sig (Elt F))).Forall fun op =>
    op.writes ⊆ (wr2.map (Proc.devRef (τ := τ) .tc)).toFinset :=
  ⟨writes_sub_of_mem main_call1_cst rfl (by decide),
   writes_sub_of_mem main_call1_v0 rfl (by decide),
   writes_sub_of_mem main_v42 rfl (by decide)⟩

private theorem hostOps2_keep (V : Valuation τ sig (Elt F)) (r : Ref sig .tc) (hr : r ∉ wr2) :
    StableHlo.after hostOps2 V (Proc.devRef .tc r) = V (Proc.devRef .tc r) :=
  StableHlo.after_of_writes_sub hostOps2 V hostOps2_writes hr

private abbrev wr2_1 : List (Ref sig .tc) :=
  [main_v43, main_c_2, main_v44, main_v45, main_c_3, main_v46, main_v47, main_v48, main_v49, main_v50, main_c_4, main_v51, main_v52, main_c_5, main_v53, main_v54, main_v55, main_v56, main_v57, main_v58, main_v59, main_v60, main_v61, main_v62, main_v63, main_v64, main_v65, main_v66, main_v67, main_v68]

private theorem hostOps2_1_writes : (hostOps2_1 : List (HloOp τ sig (Elt F))).Forall fun op =>
    op.writes ⊆ (wr2_1.map (Proc.devRef (τ := τ) .tc)).toFinset :=
  ⟨writes_sub_of_mem main_v43 rfl (by decide),
   writes_sub_of_mem main_c_2 rfl (by decide),
   writes_sub_of_mem main_v44 rfl (by decide),
   writes_sub_of_mem main_v45 rfl (by decide),
   writes_sub_of_mem main_c_3 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_c_4 rfl (by decide),
   writes_sub_of_mem main_v51 rfl (by decide),
   writes_sub_of_mem main_v52 rfl (by decide),
   writes_sub_of_mem main_c_5 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide)⟩

private theorem hostOps2_1_keep (V : Valuation τ sig (Elt F)) (r : Ref sig .tc) (hr : r ∉ wr2_1) :
    StableHlo.after hostOps2_1 V (Proc.devRef .tc r) = V (Proc.devRef .tc r) :=
  StableHlo.after_of_writes_sub hostOps2_1 V hostOps2_1_writes hr

private theorem W8_keep (c : Dev nD) (r : Ref sig .tc) (h2 : r ∉ wr2) (h21 : r ∉ wr2_1) :
    W8 m ρ c (Proc.devRef .tc r) = W6 m ρ c (Proc.devRef .tc r) :=
  (hostOps2_1_keep _ r h21).trans (hostOps2_keep _ r h2)

private theorem ref_v72 (x14 : (⟨S2x128, .f32⟩ : BufTy).Contents (Elt Ideal)) :
    Cert.ReferenceIdeal.Read.val_main_v72 (F := Ideal) x14
      = shapeCast S1x128 (Cert.ReferenceIdeal.Read.val_main_v71 (F := Ideal) x14) shapeCasts_S128_S1x128 :=
  (row128 _ _ _).symm
private theorem ref_v81 (x16 : (⟨S2x2, .f32⟩ : BufTy).Contents (Elt Ideal)) :
    Cert.ReferenceIdeal.Read.val_main_v81 (F := Ideal) x16
      = shapeCast S1x2 (Cert.ReferenceIdeal.Read.val_main_v80 (F := Ideal) x16) shapeCasts_S2_S1x2 :=
  (row2 _ _ _).symm

set_option maxHeartbeats 400000 in
private theorem host4_v43 (c : Dev nD) (h : FactsW6 m ρ c) :
    W8 m ρ c (Proc.devRef .tc main_v43) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps2_1 (StableHlo.after hostOps2 (W6 m ρ c)) (Proc.devRef .tc main_v43) = _
  after_results_simp
  rw [(h.args main_arg0 (by decide)), h.v41]
  rfl

set_option maxHeartbeats 400000 in
private theorem host4_v50 (c : Dev nD) (h : FactsW6 m ρ c) :
    W8 m ρ c (Proc.devRef .tc main_v50) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps2_1 (StableHlo.after hostOps2 (W6 m ρ c)) (Proc.devRef .tc main_v50) = _
  after_results_simp
  rw [(h.args main_arg0 (by decide)), h.v41, h.v5]
  rfl

set_option maxHeartbeats 400000 in
private theorem host4_v58 (c : Dev nD) (h : FactsW6 m ρ c) :
    W8 m ρ c (Proc.devRef .tc main_v58) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps2_1 (StableHlo.after hostOps2 (W6 m ρ c)) (Proc.devRef .tc main_v58) = _
  after_results_simp
  refine (congrArg₂ (fun (a b : (⟨S200000x128, .f32⟩ : BufTy).Contents (Elt Ideal)) =>
      concatenate S200000x256 1 [⟨S200000x128, a⟩, ⟨S200000x128, b⟩] concatenates_S200000x128_S200000x128_S200000x256_d1)
    (?_ : _ = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    (?_ : _ = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))).trans rfl
  · after_results_simp
    rw [(h.args main_arg0 (by decide)), h.v41, h.v5]
    rfl
  · after_results_simp
    rw [(h.args main_arg0 (by decide)), h.v41, h.v7]
    rfl

set_option maxHeartbeats 400000 in
private theorem host4_v60 (c : Dev nD) (h : FactsW6 m ρ c) :
    W8 m ρ c (Proc.devRef .tc main_v60) = Cert.ReferenceIdeal.Read.val_main_v68 (F := Ideal) (m ((c.tc : Thread nD τ).loc main_arg13)) := by
  show StableHlo.after hostOps2_1 (StableHlo.after hostOps2 (W6 m ρ c)) (Proc.devRef .tc main_v60) = _
  after_results_simp
  rw [(h.args main_arg13 (by decide))]
  rfl

set_option maxHeartbeats 400000 in
private theorem host4_v64 (c : Dev nD) (h : FactsW6 m ρ c) :
    W8 m ρ c (Proc.devRef .tc main_v64) = Cert.ReferenceIdeal.Read.val_main_v77 (F := Ideal) (m ((c.tc : Thread nD τ).loc main_arg15)) := by
  show StableHlo.after hostOps2_1 (StableHlo.after hostOps2 (W6 m ρ c)) (Proc.devRef .tc main_v64) = _
  after_results_simp
  rw [(h.args main_arg15 (by decide))]
  rfl

set_option maxHeartbeats 400000 in
private theorem host4_v67 (c : Dev nD) (h : FactsW6 m ρ c) :
    W8 m ρ c (Proc.devRef .tc main_v67) = Cert.ReferenceIdeal.Read.val_main_v72 (F := Ideal) (m ((c.tc : Thread nD τ).loc main_arg14)) := by
  show StableHlo.after hostOps2_1 (StableHlo.after hostOps2 (W6 m ρ c)) (Proc.devRef .tc main_v67) = _
  after_results_simp
  rw [(h.args main_arg14 (by decide)), ref_v72]
  rfl

set_option maxHeartbeats 400000 in
private theorem host4_v68 (c : Dev nD) (h : FactsW6 m ρ c) :
    W8 m ρ c (Proc.devRef .tc main_v68) = Cert.ReferenceIdeal.Read.val_main_v81 (F := Ideal) (m ((c.tc : Thread nD τ).loc main_arg16)) := by
  show StableHlo.after hostOps2_1 (StableHlo.after hostOps2 (W6 m ρ c)) (Proc.devRef .tc main_v68) = _
  after_results_simp
  rw [(h.args main_arg16 (by decide)), ref_v81]
  rfl

theorem host4 (c : Dev nD) (h : FactsW6 m ρ c) : FactsW8 m ρ c where
  v1 := (W8_keep m ρ c main_v1 (by decide) (by decide)).trans h.v1
  v3 := (W8_keep m ρ c main_v3 (by decide) (by decide)).trans h.v3
  v5 := (W8_keep m ρ c main_v5 (by decide) (by decide)).trans h.v5
  v7 := (W8_keep m ρ c main_v7 (by decide) (by decide)).trans h.v7
  v9 := (W8_keep m ρ c main_v9 (by decide) (by decide)).trans h.v9
  v43 := host4_v43 m ρ c h
  v50 := host4_v50 m ρ c h
  v58 := host4_v58 m ρ c h
  v60 := host4_v60 m ρ c h
  v64 := host4_v64 m ρ c h
  v67 := host4_v67 m ρ c h
  v68 := host4_v68 m ρ c h
  args := fun r hr => (W8_keep m ρ c r (by revert r; decide) (by revert r; decide)).trans (h.args r (by revert r; decide))

end Cert.KernelIdeal.Stages

end
-- ==== Proof.Host6.lean ====
/- The host operations that run before region 3: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.Pipeline.Value

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

variable {F : FTy → Type} [FloatOps F]

private theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

private theorem row128 {α : Type} (y : (⟨1, ![128]⟩ : Shape).Idx → α) (hc : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ y hc = broadcastInDim ⟨2, ![1, 128]⟩ ![1] hb y := by
  funext j
  have hs := shapeCast_apply y hc j (fun a => match a with | ⟨0, _⟩ => ⟨(j 1).val, (j 1).isLt⟩)
    (by rewrite [Shape.rowMajor_val_one, Shape.rowMajor_val_two]; have h0 : (j 0).val < 1 := (j 0).isLt
        show (j 1).val = (j 0).val * 128 + (j 1).val; omega)
  have hb' := broadcastInDim_apply (![1] : Fin 1 → Fin 2) hb y j (fun a => match a with | ⟨0, _⟩ => ⟨(j 1).val, (j 1).isLt⟩)
    (fun a => match a with
      | ⟨0, _⟩ => by show (j 1).val = if (128 : Nat) = 1 then 0 else (j 1).val; rw [if_neg (by decide)])
  rw [hs, hb']

private theorem row2 {α : Type} (y : (⟨1, ![2]⟩ : Shape).Idx → α) (hc : (⟨1, ![2]⟩ : Shape).ShapeCasts ⟨2, ![1, 2]⟩)
    (hb : (⟨1, ![2]⟩ : Shape).BroadcastsInDim ⟨2, ![1, 2]⟩ (![1] : Fin 1 → Fin 2)) :
    shapeCast ⟨2, ![1, 2]⟩ y hc = broadcastInDim ⟨2, ![1, 2]⟩ ![1] hb y := by
  funext j
  have hs := shapeCast_apply y hc j (fun a => match a with | ⟨0, _⟩ => ⟨(j 1).val, (j 1).isLt⟩)
    (by rewrite [Shape.rowMajor_val_one, Shape.rowMajor_val_two]; have h0 : (j 0).val < 1 := (j 0).isLt
        show (j 1).val = (j 0).val * 2 + (j 1).val; omega)
  have hb' := broadcastInDim_apply (![1] : Fin 1 → Fin 2) hb y j (fun a => match a with | ⟨0, _⟩ => ⟨(j 1).val, (j 1).isLt⟩)
    (fun a => match a with
      | ⟨0, _⟩ => by show (j 1).val = if (2 : Nat) = 1 then 0 else (j 1).val; rw [if_neg (by decide)])
  rw [hs, hb']

private abbrev wr3 : List (Ref sig .tc) :=
  [main_c_6, main_v70, main_v71, main_c_7, main_v72, main_v73, main_v74, main_v75, main_v76, main_c_8, main_v77, main_v78, main_c_9, main_v79, main_v80, main_v81, main_v82, main_v83, main_v84, main_v85, main_v86, main_v87, main_v88, main_v89, main_v90, main_v91, main_v92, main_v93, main_v94]

private theorem hostOps3_writes : (hostOps3 : List (HloOp τ sig (Elt F))).Forall fun op =>
    op.writes ⊆ (wr3.map (Proc.devRef (τ := τ) .tc)).toFinset :=
  ⟨writes_sub_of_mem main_c_6 rfl (by decide),
   writes_sub_of_mem main_v70 rfl (by decide),
   writes_sub_of_mem main_v71 rfl (by decide),
   writes_sub_of_mem main_c_7 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_c_8 rfl (by decide),
   writes_sub_of_mem main_v77 rfl (by decide),
   writes_sub_of_mem main_v78 rfl (by decide),
   writes_sub_of_mem main_c_9 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide)⟩

private theorem hostOps3_keep (V : Valuation τ sig (Elt F)) (r : Ref sig .tc) (hr : r ∉ wr3) :
    StableHlo.after hostOps3 V (Proc.devRef .tc r) = V (Proc.devRef .tc r) :=
  StableHlo.after_of_writes_sub hostOps3 V hostOps3_writes hr

private theorem W10_keep (c : Dev nD) (r : Ref sig .tc) (h3 : r ∉ wr3) :
    W10 m ρ c (Proc.devRef .tc r) = W9 m ρ c (Proc.devRef .tc r) :=
  hostOps3_keep _ r h3

private theorem ref_v104 (x18 : (⟨S2x128, .f32⟩ : BufTy).Contents (Elt Ideal)) :
    Cert.ReferenceIdeal.Read.val_main_v104 (F := Ideal) x18
      = shapeCast S1x128 (Cert.ReferenceIdeal.Read.val_main_v103 (F := Ideal) x18) shapeCasts_S128_S1x128 :=
  (row128 _ _ _).symm
private theorem ref_v113 (x20 : (⟨S2x2, .f32⟩ : BufTy).Contents (Elt Ideal)) :
    Cert.ReferenceIdeal.Read.val_main_v113 (F := Ideal) x20
      = shapeCast S1x2 (Cert.ReferenceIdeal.Read.val_main_v112 (F := Ideal) x20) shapeCasts_S2_S1x2 :=
  (row2 _ _ _).symm

set_option maxHeartbeats 400000 in
private theorem host6_v76 (c : Dev nD) (h : FactsW9 m ρ c) :
    W10 m ρ c (Proc.devRef .tc main_v76) = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps3 (W9 m ρ c) (Proc.devRef .tc main_v76) = _
  after_results_simp
  rw [h.v43, h.v1]
  rfl

set_option maxHeartbeats 400000 in
private theorem host6_v84 (c : Dev nD) (h : FactsW9 m ρ c) :
    W10 m ρ c (Proc.devRef .tc main_v84) = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps3 (W9 m ρ c) (Proc.devRef .tc main_v84) = _
  after_results_simp
  refine (congrArg₂ (fun (a b : (⟨S320000x128, .f32⟩ : BufTy).Contents (Elt Ideal)) =>
      concatenate S320000x256 1 [⟨S320000x128, a⟩, ⟨S320000x128, b⟩] concatenates_S320000x128_S320000x128_S320000x256_d1)
    (?_ : _ = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    (?_ : _ = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))).trans rfl
  · after_results_simp
    rw [h.v43, h.v1]
    rfl
  · after_results_simp
    rw [h.v43, h.v3]
    rfl

set_option maxHeartbeats 400000 in
private theorem host6_v86 (c : Dev nD) (h : FactsW9 m ρ c) :
    W10 m ρ c (Proc.devRef .tc main_v86) = Cert.ReferenceIdeal.Read.val_main_v100 (F := Ideal) (m ((c.tc : Thread nD τ).loc main_arg17)) := by
  show StableHlo.after hostOps3 (W9 m ρ c) (Proc.devRef .tc main_v86) = _
  after_results_simp
  rw [(h.args main_arg17 (by decide))]
  rfl

set_option maxHeartbeats 400000 in
private theorem host6_v90 (c : Dev nD) (h : FactsW9 m ρ c) :
    W10 m ρ c (Proc.devRef .tc main_v90) = Cert.ReferenceIdeal.Read.val_main_v109 (F := Ideal) (m ((c.tc : Thread nD τ).loc main_arg19)) := by
  show StableHlo.after hostOps3 (W9 m ρ c) (Proc.devRef .tc main_v90) = _
  after_results_simp
  rw [(h.args main_arg19 (by decide))]
  rfl

set_option maxHeartbeats 400000 in
private theorem host6_v93 (c : Dev nD) (h : FactsW9 m ρ c) :
    W10 m ρ c (Proc.devRef .tc main_v93) = Cert.ReferenceIdeal.Read.val_main_v104 (F := Ideal) (m ((c.tc : Thread nD τ).loc main_arg18)) := by
  show StableHlo.after hostOps3 (W9 m ρ c) (Proc.devRef .tc main_v93) = _
  after_results_simp
  rw [(h.args main_arg18 (by decide)), ref_v104]
  rfl

set_option maxHeartbeats 400000 in
private theorem host6_v94 (c : Dev nD) (h : FactsW9 m ρ c) :
    W10 m ρ c (Proc.devRef .tc main_v94) = Cert.ReferenceIdeal.Read.val_main_v113 (F := Ideal) (m ((c.tc : Thread nD τ).loc main_arg20)) := by
  show StableHlo.after hostOps3 (W9 m ρ c) (Proc.devRef .tc main_v94) = _
  after_results_simp
  rw [(h.args main_arg20 (by decide)), ref_v113]
  rfl

theorem host6 (c : Dev nD) (h : FactsW9 m ρ c) : FactsW10 m ρ c where
  v1 := (W10_keep m ρ c main_v1 (by decide)).trans h.v1
  v3 := (W10_keep m ρ c main_v3 (by decide)).trans h.v3
  v5 := (W10_keep m ρ c main_v5 (by decide)).trans h.v5
  v7 := (W10_keep m ρ c main_v7 (by decide)).trans h.v7
  v9 := (W10_keep m ρ c main_v9 (by decide)).trans h.v9
  v43 := (W10_keep m ρ c main_v43 (by decide)).trans h.v43
  v50 := (W10_keep m ρ c main_v50 (by decide)).trans h.v50
  v69 := (W10_keep m ρ c main_v69 (by decide)).trans h.v69
  v76 := host6_v76 m ρ c h
  v84 := host6_v84 m ρ c h
  v86 := host6_v86 m ρ c h
  v90 := host6_v90 m ρ c h
  v93 := host6_v93 m ρ c h
  v94 := host6_v94 m ρ c h
  args := fun r hr => (W10_keep m ρ c r (by revert r; decide)).trans (h.args r (by revert r; decide))

end Cert.KernelIdeal.Stages

end
-- ==== Proof.Host8.lean ====
/- The host operations that run before region 4: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

namespace Host8

variable {F : FTy → Type} [FloatOps F]

def wr4 : List (Ref sig .tc) :=
  [main_cst_10, main_v96, main_cst_11, main_v97, main_v98, main_v99, main_v100, main_cst_12, main_v101, main_v102, main_cst_13, main_v103, main_v104, main_cst_14, main_v105, main_cst_15, main_v106, main_v107, main_v108, main_v109, main_cst_16, main_v110, main_v111, main_cst_17, main_v112, main_v113, main_v114]

theorem hW4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep4 (V : Valuation τ sig (Elt F)) (r : Ref sig .tc) (hr : r ∉ wr4) :
    StableHlo.after hostOps4 V (Proc.devRef .tc r) = V (Proc.devRef .tc r) :=
  StableHlo.after_of_writes_sub hostOps4 V hW4 hr

def wr4_1 : List (Ref sig .tc) :=
  [main_call2_cst, main_call2_v0, main_v115]

theorem hW4_1 : (hostOps4_1 : List (HloOp τ sig (Elt F))).Forall fun op => op.writes ⊆ (wr4_1.map (Proc.devRef (τ := τ) .tc)).toFinset := by
  simp only [hostOps4_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep4_1 (V : Valuation τ sig (Elt F)) (r : Ref sig .tc) (hr : r ∉ wr4_1) :
    StableHlo.after hostOps4_1 V (Proc.devRef .tc r) = V (Proc.devRef .tc r) :=
  StableHlo.after_of_writes_sub hostOps4_1 V hW4_1 hr

def wr4_2 : List (Ref sig .tc) :=
  [main_v116, main_v117, main_v118, main_v119, main_v120, main_v121, main_v122]

theorem hW4_2 : (hostOps4_2 : List (HloOp τ sig (Elt F))).Forall fun op => op.writes ⊆ (wr4_2.map (Proc.devRef (τ := τ) .tc)).toFinset := by
  simp only [hostOps4_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep4_2 (V : Valuation τ sig (Elt F)) (r : Ref sig .tc) (hr : r ∉ wr4_2) :
    StableHlo.after hostOps4_2 V (Proc.devRef .tc r) = V (Proc.devRef .tc r) :=
  StableHlo.after_of_writes_sub hostOps4_2 V hW4_2 hr

def wr4_3 : List (Ref sig .tc) :=
  [main_call3_cst, main_call3_v0, main_v123]

theorem hW4_3 : (hostOps4_3 : List (HloOp τ sig (Elt F))).Forall fun op => op.writes ⊆ (wr4_3.map (Proc.devRef (τ := τ) .tc)).toFinset := by
  simp only [hostOps4_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep4_3 (V : Valuation τ sig (Elt F)) (r : Ref sig .tc) (hr : r ∉ wr4_3) :
    StableHlo.after hostOps4_3 V (Proc.devRef .tc r) = V (Proc.devRef .tc r) :=
  StableHlo.after_of_writes_sub hostOps4_3 V hW4_3 hr

def wr4_4 : List (Ref sig .tc) :=
  [main_v124, main_v125, main_v126, main_cst_18, main_v127, main_v128, main_v129, main_cst_19, main_v130, main_v131, main_v132, main_v133, main_v134, main_v135, main_cst_20, main_v136, main_v137, main_v138, main_v139, main_v140, main_v141, main_v142, main_v143, main_v144, main_v145, main_v146, main_v147, main_v148, main_v149]

theorem hW4_4 : (hostOps4_4 : List (HloOp τ sig (Elt F))).Forall fun op => op.writes ⊆ (wr4_4.map (Proc.devRef (τ := τ) .tc)).toFinset := by
  simp only [hostOps4_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep4_4 (V : Valuation τ sig (Elt F)) (r : Ref sig .tc) (hr : r ∉ wr4_4) :
    StableHlo.after hostOps4_4 V (Proc.devRef .tc r) = V (Proc.devRef .tc r) :=
  StableHlo.after_of_writes_sub hostOps4_4 V hW4_4 hr

def wrAll : List (Ref sig .tc) := wr4 ++ (wr4_1 ++ (wr4_2 ++ (wr4_3 ++ wr4_4)))

theorem keep_2 (V : Valuation τ sig (Elt F)) (r : Ref sig .tc) (h0 : r ∉ wr4) (h1 : r ∉ wr4_1) :
    StableHlo.after hostOps4_1 (StableHlo.after hostOps4 V) (Proc.devRef .tc r) = V (Proc.devRef .tc r) :=
  (keep4_1 _ r h1).trans (keep4 V r h0)

theorem keep_3 (V : Valuation τ sig (Elt F)) (r : Ref sig .tc) (h1 : r ∉ wr4_1) (h2 : r ∉ wr4_2) (h3 : r ∉ wr4_3) :
    StableHlo.after hostOps4_3 (StableHlo.after hostOps4_2 (StableHlo.after hostOps4_1 V)) (Proc.devRef .tc r) = V (Proc.devRef .tc r) :=
  (keep4_3 _ r h3).trans ((keep4_2 _ r h2).trans (keep4_1 V r h1))

theorem keep_4 (V : Valuation τ sig (Elt F)) (r : Ref sig .tc) (h0 : r ∉ wr4) (h1 : r ∉ wr4_1) (h2 : r ∉ wr4_2) (h3 : r ∉ wr4_3) :
    StableHlo.after hostOps4_3 (StableHlo.after hostOps4_2 (StableHlo.after hostOps4_1 (StableHlo.after hostOps4 V))) (Proc.devRef .tc r)
      = V (Proc.devRef .tc r) :=
  (keep_3 _ r h1 h2 h3).trans (keep4 V r h0)

theorem keep_all (V : Valuation τ sig (Elt F)) (r : Ref sig .tc) (hr : r ∉ wrAll) :
    StableHlo.after hostOps4_4 (StableHlo.after hostOps4_3 (StableHlo.after hostOps4_2 (StableHlo.after hostOps4_1 (StableHlo.after hostOps4 V))))
      (Proc.devRef .tc r) = V (Proc.devRef .tc r) :=
  (keep4_4 _ r fun h => hr (List.mem_append_right _ (List.mem_append_right _ (List.mem_append_right _ (List.mem_append_right _ h))))).trans
    (keep_4 V r (fun h => hr (List.mem_append_left _ h))
      (fun h => hr (List.mem_append_right _ (List.mem_append_left _ h)))
      (fun h => hr (List.mem_append_right _ (List.mem_append_right _ (List.mem_append_left _ h))))
      (fun h => hr (List.mem_append_right _ (List.mem_append_right _ (List.mem_append_right _ (List.mem_append_left _ h))))))

open Idealize.ShloMosaic.ValueIdx in
theorem shapeCast_row_eq_broadcast {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) hb x := by
  funext j
  obtain ⟨u, i, rfl⟩ : ∃ (u : Fin 1) (i : Fin a), j = ix2 u i := ⟨j 0, j 1, eq_ix2 j⟩
  rw [shapeCast_a_1a_apply x h u i]
  symm
  refine broadcastInDim_apply _ hb x _ (ix1 i) fun d => ?_
  match d with
  | ⟨0, _⟩ =>
    show i.val = if a = 1 then 0 else i.val
    split
    · next h1 => have := i.isLt; omega
    · rfl

theorem ref_v140 {x0 x1 x2 x3 x6 x7 x8 x9 x10 x11 x12 : _} :
    Cert.ReferenceIdeal.Read.val_main_v140 (F := F) x0 x1 x2 x3 x6 x7 x8 x9 x10 x11 x12 = Cert.ReferenceIdeal.Read.val_main_v90 (F := F) x0 x1 x2 x3 x6 x7 x8 x9 x10 x11 x12 := rfl

theorem ref_v153 {x0 x1 x2 x3 x4 x6 x7 x8 x9 x10 x11 x12 : _} :
    Cert.ReferenceIdeal.Read.val_main_v153 (F := F) x0 x1 x2 x3 x4 x6 x7 x8 x9 x10 x11 x12 = Cert.ReferenceIdeal.Read.val_main_v58 (F := F) x0 x1 x2 x3 x4 x6 x7 x8 x9 x10 x11 x12 := rfl

theorem s4_v104 (V : Valuation τ sig (Elt F)) {x0 x1 x2 x3 x6 x7 x8 x9 x10 x11 x12 x17 x18 x19 x20 : _}
    (h95 : V (Proc.devRef .tc main_v95) = Cert.ReferenceIdeal.Read.val_main_v115 (F := F) x0 x1 x2 x3 x6 x7 x8 x9 x10 x11 x12 x17 x18 x19 x20) :
    StableHlo.after hostOps4 V (Proc.devRef .tc main_v104) = Cert.ReferenceIdeal.Read.val_main_v124 (F := F) x0 x1 x2 x3 x6 x7 x8 x9 x10 x11 x12 x17 x18 x19 x20 := by
  after_results_simp
  rw [h95]
  rfl

theorem s4_v113 (V : Valuation τ sig (Elt F)) {x0 x1 x2 x3 x4 x6 x7 x8 x9 x10 x11 x12 x13 x14 x15 x16 : _}
    (h69 : V (Proc.devRef .tc main_v69) = Cert.ReferenceIdeal.Read.val_main_v83 (F := F) x0 x1 x2 x3 x4 x6 x7 x8 x9 x10 x11 x12 x13 x14 x15 x16) :
    StableHlo.after hostOps4 V (Proc.devRef .tc main_v113) = Cert.ReferenceIdeal.Read.val_main_v133 (F := F) x0 x1 x2 x3 x4 x6 x7 x8 x9 x10 x11 x12 x13 x14 x15 x16 := by
  after_results_simp
  rw [h69]
  rfl

theorem s4_v114 (V : Valuation τ sig (Elt F)) {x0 x1 x2 x3 x6 x7 x8 x9 x10 x11 x12 : _}
    (h76 : V (Proc.devRef .tc main_v76) = Cert.ReferenceIdeal.Read.val_main_v90 (F := F) x0 x1 x2 x3 x6 x7 x8 x9 x10 x11 x12)
    (h9 : V (Proc.devRef .tc main_v9) = Cert.ReferenceIdeal.Read.val_main_v11 (F := F) x2 x11 x12) :
    StableHlo.after hostOps4 V (Proc.devRef .tc main_v114) = Cert.ReferenceIdeal.Read.val_main_v141 (F := F) x0 x1 x2 x3 x6 x7 x8 x9 x10 x11 x12 := by
  after_results_simp
  rw [h76, h9, ← ref_v140]
  rfl

theorem s41_v115 (V : Valuation τ sig (Elt F)) {x0 x1 x2 x3 x6 x7 x8 x9 x10 x11 x12 : _}
    (h114 : V (Proc.devRef .tc main_v114) = Cert.ReferenceIdeal.Read.val_main_v141 (F := F) x0 x1 x2 x3 x6 x7 x8 x9 x10 x11 x12) :
    StableHlo.after hostOps4_1 V (Proc.devRef .tc main_v115) = Cert.ReferenceIdeal.Read.val_main_v142 (F := F) x0 x1 x2 x3 x6 x7 x8 x9 x10 x11 x12 := by
  after_results_simp
  rw [h114]
  rfl

theorem s42_v119 (V : Valuation τ sig (Elt F)) {x0 x1 x2 x3 x6 x7 x8 x9 x10 x11 x12 x17 x18 x19 x20 : _}
    (harg3 : V (Proc.devRef .tc main_arg3) = x3)
    (h104 : V (Proc.devRef .tc main_v104) = Cert.ReferenceIdeal.Read.val_main_v124 (F := F) x0 x1 x2 x3 x6 x7 x8 x9 x10 x11 x12 x17 x18 x19 x20)
    (h115 : V (Proc.devRef .tc main_v115) = Cert.ReferenceIdeal.Read.val_main_v142 (F := F) x0 x1 x2 x3 x6 x7 x8 x9 x10 x11 x12) :
    StableHlo.after hostOps4_2 V (Proc.devRef .tc main_v119) = Cert.ReferenceIdeal.Read.val_main_v146 (F := F) x0 x1 x2 x3 x6 x7 x8 x9 x10 x11 x12 x17 x18 x19 x20 := by
  after_results_simp
  rw [harg3, h104, h115]
  rfl

theorem s42_v122 (V : Valuation τ sig (Elt F)) {x0 x1 x2 x3 x4 x6 x7 x8 x9 x10 x11 x12 : _}
    (harg12 : V (Proc.devRef .tc main_arg12) = x12)
    (h50 : V (Proc.devRef .tc main_v50) = Cert.ReferenceIdeal.Read.val_main_v58 (F := F) x0 x1 x2 x3 x4 x6 x7 x8 x9 x10 x11 x12) :
    StableHlo.after hostOps4_2 V (Proc.devRef .tc main_v122) = Cert.ReferenceIdeal.Read.val_main_v156 (F := F) x0 x1 x2 x3 x4 x6 x7 x8 x9 x10 x11 x12 := by
  after_results_simp
  rw [harg12, h50, ← ref_v153]
  rfl

theorem s43_v123 (V : Valuation τ sig (Elt F)) {x0 x1 x2 x3 x4 x6 x7 x8 x9 x10 x11 x12 : _}
    (h122 : V (Proc.devRef .tc main_v122) = Cert.ReferenceIdeal.Read.val_main_v156 (F := F) x0 x1 x2 x3 x4 x6 x7 x8 x9 x10 x11 x12) :
    StableHlo.after hostOps4_3 V (Proc.devRef .tc main_v123) = Cert.ReferenceIdeal.Read.val_main_v157 (F := F) x0 x1 x2 x3 x4 x6 x7 x8 x9 x10 x11 x12 := by
  after_results_simp
  rw [h122]
  rfl

theorem s44_v139 (V : Valuation τ sig (Elt F)) {x0 x1 x2 x3 x4 x6 x7 x8 x9 x10 x11 x12 x13 x14 x15 x16 x17 x18 x19 x20 x25 : _}
    (h113 : V (Proc.devRef .tc main_v113) = Cert.ReferenceIdeal.Read.val_main_v133 (F := F) x0 x1 x2 x3 x4 x6 x7 x8 x9 x10 x11 x12 x13 x14 x15 x16)
    (h123 : V (Proc.devRef .tc main_v123) = Cert.ReferenceIdeal.Read.val_main_v157 (F := F) x0 x1 x2 x3 x4 x6 x7 x8 x9 x10 x11 x12)
    (h3 : V (Proc.devRef .tc main_v3) = Cert.ReferenceIdeal.Read.val_main_v3 (F := F) x1)
    (h119 : V (Proc.devRef .tc main_v119) = Cert.ReferenceIdeal.Read.val_main_v146 (F := F) x0 x1 x2 x3 x6 x7 x8 x9 x10 x11 x12 x17 x18 x19 x20)
    (h7 : V (Proc.devRef .tc main_v7) = Cert.ReferenceIdeal.Read.val_main_v7 (F := F) x4)
    (harg25 : V (Proc.devRef .tc main_arg25) = x25)
    (h43 : V (Proc.devRef .tc main_v43) = Cert.ReferenceIdeal.Read.val_main_v51 (F := F) x0 x1 x2 x3 x6 x7 x8 x9 x10 x11 x12) :
    StableHlo.after hostOps4_4 V (Proc.devRef .tc main_v139) = Cert.ReferenceIdeal.Read.val_main_v173 (F := F) x0 x1 x2 x3 x4 x6 x7 x8 x9 x10 x11 x12 x13 x14 x15 x16 x17 x18 x19 x20 x25 := by
  after_results_simp
  rw [h113, h123, h3, h119, h7, harg25, h43]
  rfl

theorem s44_v141 (V : Valuation τ sig (Elt F)) {x21 : _}
    (harg21 : V (Proc.devRef .tc main_arg21) = x21) :
    StableHlo.after hostOps4_4 V (Proc.devRef .tc main_v141) = Cert.ReferenceIdeal.Read.val_main_v175 (F := F) x21 := by
  after_results_simp
  rw [harg21]
  rfl

theorem s44_v145 (V : Valuation τ sig (Elt F)) {x23 : _}
    (harg23 : V (Proc.devRef .tc main_arg23) = x23) :
    StableHlo.after hostOps4_4 V (Proc.devRef .tc main_v145) = Cert.ReferenceIdeal.Read.val_main_v184 (F := F) x23 := by
  after_results_simp
  rw [harg23]
  rfl

theorem s44_v148 (V : Valuation τ sig (Elt F)) {x22 : _}
    (harg22 : V (Proc.devRef .tc main_arg22) = x22) :
    StableHlo.after hostOps4_4 V (Proc.devRef .tc main_v148) = Cert.ReferenceIdeal.Read.val_main_v179 (F := F) x22 := by
  after_results_simp
  rw [harg22]
  exact shapeCast_row_eq_broadcast (Cert.ReferenceIdeal.Read.val_main_v178 (F := F) x22) (by decide) (by decide)

theorem s44_v149 (V : Valuation τ sig (Elt F)) {x24 : _}
    (harg24 : V (Proc.devRef .tc main_arg24) = x24) :
    StableHlo.after hostOps4_4 V (Proc.devRef .tc main_v149) = Cert.ReferenceIdeal.Read.val_main_v188 (F := F) x24 := by
  after_results_simp
  rw [harg24]
  exact shapeCast_row_eq_broadcast (Cert.ReferenceIdeal.Read.val_main_v187 (F := F) x24) (by decide) (by decide)

end Host8

variable (m : (ℓ : Loc nD τ sig) → Buf (Elt Ideal) ℓ) (ρ : Dev nD → PrngReg)

theorem host8 (c : Dev nD) (h : FactsW11 m ρ c) : FactsW16 m ρ c := by

  have e104 := Host8.s4_v104 (W11 m ρ c) h.v95
  have e113 := Host8.s4_v113 (W11 m ρ c) h.v69
  have e114 := Host8.s4_v114 (W11 m ρ c) h.v76 h.v9

  have e115 := Host8.s41_v115 (W12 m ρ c) e114

  have e119 := Host8.s42_v119 (W13 m ρ c) ((Host8.keep_2 (W11 m ρ c) main_arg3 (by decide) (by decide)).trans (h.args main_arg3 (by decide)))
    ((Host8.keep4_1 (W12 m ρ c) main_v104 (by decide)).trans e104) e115
  have e122 := Host8.s42_v122 (W13 m ρ c) ((Host8.keep_2 (W11 m ρ c) main_arg12 (by decide) (by decide)).trans (h.args main_arg12 (by decide)))
    ((Host8.keep_2 (W11 m ρ c) main_v50 (by decide) (by decide)).trans h.v50)

  have e123 := Host8.s43_v123 (W14 m ρ c) e122

  have e139 := Host8.s44_v139 (W15 m ρ c)
    ((Host8.keep_3 (W12 m ρ c) main_v113 (by decide) (by decide) (by decide)).trans e113) e123
    ((Host8.keep_4 (W11 m ρ c) main_v3 (by decide) (by decide) (by decide) (by decide)).trans h.v3)
    ((Host8.keep4_3 (W14 m ρ c) main_v119 (by decide)).trans e119)
    ((Host8.keep_4 (W11 m ρ c) main_v7 (by decide) (by decide) (by decide) (by decide)).trans h.v7)
    ((Host8.keep_4 (W11 m ρ c) main_arg25 (by decide) (by decide) (by decide) (by decide)).trans (h.args main_arg25 (by decide)))
    ((Host8.keep_4 (W11 m ρ c) main_v43 (by decide) (by decide) (by decide) (by decide)).trans h.v43)
  exact {
    v1 := (Host8.keep_all (W11 m ρ c) main_v1 (by decide)).trans h.v1
    v3 := (Host8.keep_all (W11 m ρ c) main_v3 (by decide)).trans h.v3
    v5 := (Host8.keep_all (W11 m ρ c) main_v5 (by decide)).trans h.v5
    v7 := (Host8.keep_all (W11 m ρ c) main_v7 (by decide)).trans h.v7
    v9 := (Host8.keep_all (W11 m ρ c) main_v9 (by decide)).trans h.v9
    v139 := e139
    v141 := Host8.s44_v141 (W15 m ρ c) ((Host8.keep_4 (W11 m ρ c) main_arg21 (by decide) (by decide) (by decide) (by decide)).trans (h.args main_arg21 (by decide)))
    v145 := Host8.s44_v145 (W15 m ρ c) ((Host8.keep_4 (W11 m ρ c) main_arg23 (by decide) (by decide) (by decide) (by decide)).trans (h.args main_arg23 (by decide)))
    v148 := Host8.s44_v148 (W15 m ρ c) ((Host8.keep_4 (W11 m ρ c) main_arg22 (by decide) (by decide) (by decide) (by decide)).trans (h.args main_arg22 (by decide)))
    v149 := Host8.s44_v149 (W15 m ρ c) ((Host8.keep_4 (W11 m ρ c) main_arg24 (by decide) (by decide) (by decide) (by decide)).trans (h.args main_arg24 (by decide)))
    args := fun r hr => (Host8.keep_all (W11 m ρ c) r (by revert r; decide)).trans (h.args r (by revert r; decide))
  }

end Cert.KernelIdeal.Stages

end
-- ==== Proof.Host10.lean ====
/- The host operations that run before region 5: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.ValueLayout

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

variable {F : FTy → Type} [FloatOps F]

private theorem host10_row {α : Type} {n : Nat} (x : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ x h = broadcastInDim ⟨2, ![1, n]⟩ ![1] hb x := by
  have key : ∀ (u : Fin 1) (i : Fin n), shapeCast ⟨2, ![1, n]⟩ x h (ValueIdx.ix2 u i)
      = broadcastInDim ⟨2, ![1, n]⟩ ![1] hb x (ValueIdx.ix2 u i) := fun u i =>
    (ValueIdx.shapeCast_a_1a_apply x h u i).trans
      (broadcastInDim_apply ![1] hb x (ValueIdx.ix2 u i) (ValueIdx.ix1 i) (fun a => match a with
        | ⟨0, _⟩ => by
          show i.val = if n = 1 then 0 else i.val
          split
          · next h1 => have := i.isLt; omega
          · rfl)).symm
  funext j
  have hj : j = ValueIdx.ix2 (n0 := 1) (n1 := n) (j 0) (j 1) := ValueIdx.eq_ix2 j
  rw [hj]
  exact key (j 0) (j 1)

abbrev host10_W : List (Ref sig .tc) :=
  [main_c_21, main_v151, main_v152, main_c_22, main_v153, main_v154, main_v155, main_v156, main_v157, main_v158, main_call4_cst, main_call4_v0, main_v159, main_v160, main_v161, main_v162, main_cst_23, main_v163, main_v164, main_v165, main_v166, main_v167, main_cst_24, main_v168, main_v169, main_v170, main_v171, main_v172, main_v173, main_v174, main_v175, main_v176, main_v177, main_v178, main_v179, main_v180, main_v181]

local macro "w1" : term =>
  `(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_writes_host10 : (hostOps5 : List (HloOp τ sig (Elt F))).Forall fun op => op.writes ⊆ (host10_W.map (Proc.devRef (τ := τ) .tc)).toFinset := by
  simp only [List.Forall]
  exact ⟨w1, w1, w1, w1, w1, w1, w1, w1, w1, w1⟩
theorem hostOps5_1_writes_host10 : (hostOps5_1 : List (HloOp τ sig (Elt F))).Forall fun op => op.writes ⊆ (host10_W.map (Proc.devRef (τ := τ) .tc)).toFinset := by
  simp only [List.Forall]
  exact ⟨w1, w1, w1⟩
theorem hostOps5_2_writes_host10 : (hostOps5_2 : List (HloOp τ sig (Elt F))).Forall fun op => op.writes ⊆ (host10_W.map (Proc.devRef (τ := τ) .tc)).toFinset := by
  simp only [List.Forall]
  exact ⟨w1, w1, w1, w1, w1, w1, w1, w1, w1, w1, w1, w1, w1, w1, w1, w1, w1, w1, w1, w1, w1, w1, w1, w1⟩

theorem host10_keep (V : Valuation τ sig (Elt F)) (r : Ref sig .tc) (hr : r ∉ host10_W) :
    StableHlo.after hostOps5_2 (StableHlo.after hostOps5_1 (StableHlo.after hostOps5 V)) (Proc.devRef .tc r) = V (Proc.devRef .tc r) :=
  (StableHlo.after_of_writes_sub hostOps5_2 _ hostOps5_2_writes_host10 hr).trans
    ((StableHlo.after_of_writes_sub hostOps5_1 _ hostOps5_1_writes_host10 hr).trans
      (StableHlo.after_of_writes_sub hostOps5 _ hostOps5_writes_host10 hr))

theorem host10_v171 (V : Valuation τ sig (Elt F)) {x0 : (⟨Cert.ReferenceIdeal.S20000x128, .f32⟩ : BufTy).Contents (Elt F)} {x1 : (⟨Cert.ReferenceIdeal.S2x320000, .i32⟩ : BufTy).Contents (Elt F)} {x2 : (⟨Cert.ReferenceIdeal.S320000x128, .f32⟩ : BufTy).Contents (Elt F)} {x3 : (⟨Cert.ReferenceIdeal.S320000, .f32⟩ : BufTy).Contents (Elt F)} {x4 : (⟨Cert.ReferenceIdeal.S200000x2, .i32⟩ : BufTy).Contents (Elt F)} {x6 : (⟨Cert.ReferenceIdeal.S2x128x128, .f32⟩ : BufTy).Contents (Elt F)} {x7 : (⟨Cert.ReferenceIdeal.S2x128, .f32⟩ : BufTy).Contents (Elt F)} {x8 : (⟨Cert.ReferenceIdeal.S2x128x128, .f32⟩ : BufTy).Contents (Elt F)} {x9 : (⟨Cert.ReferenceIdeal.S2x128, .f32⟩ : BufTy).Contents (Elt F)} {x10 : (⟨Cert.ReferenceIdeal.S2, .f32⟩ : BufTy).Contents (Elt F)} {x11 : (⟨Cert.ReferenceIdeal.S128x128, .f32⟩ : BufTy).Contents (Elt F)} {x12 : (⟨Cert.ReferenceIdeal.S128, .f32⟩ : BufTy).Contents (Elt F)} {x13 : (⟨Cert.ReferenceIdeal.S2x256x128, .f32⟩ : BufTy).Contents (Elt F)} {x14 : (⟨Cert.ReferenceIdeal.S2x128, .f32⟩ : BufTy).Contents (Elt F)} {x15 : (⟨Cert.ReferenceIdeal.S2x128x2, .f32⟩ : BufTy).Contents (Elt F)} {x16 : (⟨Cert.ReferenceIdeal.S2x2, .f32⟩ : BufTy).Contents (Elt F)} {x17 : (⟨Cert.ReferenceIdeal.S2x256x128, .f32⟩ : BufTy).Contents (Elt F)} {x18 : (⟨Cert.ReferenceIdeal.S2x128, .f32⟩ : BufTy).Contents (Elt F)} {x19 : (⟨Cert.ReferenceIdeal.S2x128x2, .f32⟩ : BufTy).Contents (Elt F)} {x20 : (⟨Cert.ReferenceIdeal.S2x2, .f32⟩ : BufTy).Contents (Elt F)} {x21 : (⟨Cert.ReferenceIdeal.S2x128x128, .f32⟩ : BufTy).Contents (Elt F)} {x22 : (⟨Cert.ReferenceIdeal.S2x128, .f32⟩ : BufTy).Contents (Elt F)} {x23 : (⟨Cert.ReferenceIdeal.S2x128x128, .f32⟩ : BufTy).Contents (Elt F)} {x24 : (⟨Cert.ReferenceIdeal.S2x128, .f32⟩ : BufTy).Contents (Elt F)} {x25 : (⟨Cert.ReferenceIdeal.S2, .f32⟩ : BufTy).Contents (Elt F)}
    (h1 : V (Proc.devRef .tc main_v1) = Cert.ReferenceIdeal.Read.val_main_v1 (F := F) x1)
    (h3 : V (Proc.devRef .tc main_v3) = Cert.ReferenceIdeal.Read.val_main_v3 (F := F) x1)
    (h9 : V (Proc.devRef .tc main_v9) = Cert.ReferenceIdeal.Read.val_main_v11 (F := F) x2 x11 x12)
    (h150 : V (Proc.devRef .tc main_v150) = Cert.ReferenceIdeal.Read.val_main_v190 (F := F) x0 x1 x2 x3 x4 x6 x7 x8 x9 x10 x11 x12 x13 x14 x15 x16 x17 x18 x19 x20 x21 x22 x23 x24 x25)
    (ha3 : V (Proc.devRef .tc main_arg3) = x3)
    (ha10 : V (Proc.devRef .tc main_arg10) = x10) :
    StableHlo.after hostOps5_2 (StableHlo.after hostOps5_1 (StableHlo.after hostOps5 V)) (Proc.devRef .tc main_v171) = Cert.ReferenceIdeal.Read.val_main_v219 (F := F) x0 x1 x2 x3 x4 x6 x7 x8 x9 x10 x11 x12 x13 x14 x15 x16 x17 x18 x19 x20 x21 x22 x23 x24 x25 := by
  after_results_simp
  simp only [StableHlo.TRef.ofBuf, StableHlo.TRef.toBuf, cast_eq]
  rw [h1, h3, h9, h150, ha3, ha10]
  rfl

theorem host10_v173 (V : Valuation τ sig (Elt F)) {x6 : (⟨Cert.ReferenceIdeal.S2x128x128, .f32⟩ : BufTy).Contents (Elt F)}
    (ha6 : V (Proc.devRef .tc main_arg6) = x6) :
    StableHlo.after hostOps5_2 (StableHlo.after hostOps5_1 (StableHlo.after hostOps5 V)) (Proc.devRef .tc main_v173) = Cert.ReferenceIdeal.Read.val_main_v194 (F := F) x6 := by
  after_results_simp
  rw [ha6]
  rfl

theorem host10_v177 (V : Valuation τ sig (Elt F)) {x8 : (⟨Cert.ReferenceIdeal.S2x128x128, .f32⟩ : BufTy).Contents (Elt F)}
    (ha8 : V (Proc.devRef .tc main_arg8) = x8) :
    StableHlo.after hostOps5_2 (StableHlo.after hostOps5_1 (StableHlo.after hostOps5 V)) (Proc.devRef .tc main_v177) = Cert.ReferenceIdeal.Read.val_main_v198 (F := F) x8 := by
  after_results_simp
  rw [ha8]
  rfl

theorem host10_v180 (V : Valuation τ sig (Elt F)) {x7 : (⟨Cert.ReferenceIdeal.S2x128, .f32⟩ : BufTy).Contents (Elt F)}
    (ha7 : V (Proc.devRef .tc main_arg7) = x7) :
    StableHlo.after hostOps5_2 (StableHlo.after hostOps5_1 (StableHlo.after hostOps5 V)) (Proc.devRef .tc main_v180) = Cert.ReferenceIdeal.Read.val_main_v221 (F := F) x7 := by
  after_results_simp
  rw [ha7]
  exact host10_row (Cert.ReferenceIdeal.Read.val_main_v196 (F := F) x7) _ _

theorem host10_v181 (V : Valuation τ sig (Elt F)) {x9 : (⟨Cert.ReferenceIdeal.S2x128, .f32⟩ : BufTy).Contents (Elt F)}
    (ha9 : V (Proc.devRef .tc main_arg9) = x9) :
    StableHlo.after hostOps5_2 (StableHlo.after hostOps5_1 (StableHlo.after hostOps5 V)) (Proc.devRef .tc main_v181) = Cert.ReferenceIdeal.Read.val_main_v226 (F := F) x9 := by
  after_results_simp
  rw [ha9]
  exact host10_row (Cert.ReferenceIdeal.Read.val_main_v200 (F := F) x9) _ _

theorem host10 (c : Dev nD) (h : FactsW17 m ρ c) : FactsW20 m ρ c where
  v1 := (host10_keep (W17 m ρ c) main_v1 (by decide)).trans h.v1
  v3 := (host10_keep (W17 m ρ c) main_v3 (by decide)).trans h.v3
  v5 := (host10_keep (W17 m ρ c) main_v5 (by decide)).trans h.v5
  v7 := (host10_keep (W17 m ρ c) main_v7 (by decide)).trans h.v7
  v9 := (host10_keep (W17 m ρ c) main_v9 (by decide)).trans h.v9
  v150 := (host10_keep (W17 m ρ c) main_v150 (by decide)).trans h.v150
  args := fun r hr => (host10_keep (W17 m ρ c) r (by revert r; decide)).trans (h.args r (by revert r; decide))
  v171 := host10_v171 (W17 m ρ c) h.v1 h.v3 h.v9 h.v150 (h.args main_arg3 (by decide)) (h.args main_arg10 (by decide))
  v173 := host10_v173 (W17 m ρ c) (h.args main_arg6 (by decide))
  v177 := host10_v177 (W17 m ρ c) (h.args main_arg8 (by decide))
  v180 := host10_v180 (W17 m ρ c) (h.args main_arg7 (by decide))
  v181 := host10_v181 (W17 m ρ c) (h.args main_arg9 (by decide))

end Cert.KernelIdeal.Stages

end
-- ==== Proof.Host12.lean ====
/- The host operations that run before region 6: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.ValueLayout

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

variable {F : FTy → Type} [FloatOps F]

private theorem host12_row {α : Type} {n : Nat} (x : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ x h = broadcastInDim ⟨2, ![1, n]⟩ ![1] hb x := by
  have key : ∀ (u : Fin 1) (i : Fin n), shapeCast ⟨2, ![1, n]⟩ x h (ValueIdx.ix2 u i)
      = broadcastInDim ⟨2, ![1, n]⟩ ![1] hb x (ValueIdx.ix2 u i) := fun u i =>
    (ValueIdx.shapeCast_a_1a_apply x h u i).trans
      (broadcastInDim_apply ![1] hb x (ValueIdx.ix2 u i) (ValueIdx.ix1 i) (fun a => match a with
        | ⟨0, _⟩ => by
          show i.val = if n = 1 then 0 else i.val
          split
          · next h1 => have := i.isLt; omega
          · rfl)).symm
  funext j
  have hj : j = ValueIdx.ix2 (n0 := 1) (n1 := n) (j 0) (j 1) := ValueIdx.eq_ix2 j
  rw [hj]
  exact key (j 0) (j 1)

private theorem host12_concat2 {α : Type} {t : Shape} (ax : Fin t.rank) {s : Shape} {a a' b b' : s.Idx → α}
    (h : Shape.Concatenates [s, s] t ax) (ha : a = a') (hb : b = b') :
    concatenate t ax [⟨s, a⟩, ⟨s, b⟩] h = concatenate t ax [⟨s, a'⟩, ⟨s, b'⟩] h := by
  subst ha; subst hb; rfl

abbrev host12_W : List (Ref sig .tc) :=
  [main_call5_cst, main_call5_v0, main_v183, main_v184, main_c_25, main_v185, main_v186, main_c_26, main_v187, main_v188, main_v189, main_v190, main_v191, main_c_27, main_v192, main_v193, main_c_28, main_v194, main_v195, main_v196, main_v197, main_v198, main_v199, main_v200, main_v201, main_v202, main_v203, main_v204, main_v205, main_v206, main_v207, main_v208, main_v209]

local macro "w1" : term =>
  `(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps6_writes_host12 : (hostOps6 : List (HloOp τ sig (Elt F))).Forall fun op => op.writes ⊆ (host12_W.map (Proc.devRef (τ := τ) .tc)).toFinset := by
  simp only [List.Forall]
  exact ⟨w1, w1, w1⟩
theorem hostOps6_1_writes_host12 : (hostOps6_1 : List (HloOp τ sig (Elt F))).Forall fun op => op.writes ⊆ (host12_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1⟩

theorem host12_keep (V : Valuation τ sig (Elt F)) (r : Ref sig .tc) (hr : r ∉ host12_W) :
    StableHlo.after hostOps6_1 (StableHlo.after hostOps6 V) (Proc.devRef .tc r) = V (Proc.devRef .tc r) :=
  (StableHlo.after_of_writes_sub hostOps6_1 _ hostOps6_1_writes_host12 hr).trans
    (StableHlo.after_of_writes_sub hostOps6 _ hostOps6_writes_host12 hr)

theorem host12_v184 (V : Valuation τ sig (Elt F)) {x0 : (⟨Cert.ReferenceIdeal.S20000x128, .f32⟩ : BufTy).Contents (Elt F)} {x1 : (⟨Cert.ReferenceIdeal.S2x320000, .i32⟩ : BufTy).Contents (Elt F)} {x2 : (⟨Cert.ReferenceIdeal.S320000x128, .f32⟩ : BufTy).Contents (Elt F)} {x3 : (⟨Cert.ReferenceIdeal.S320000, .f32⟩ : BufTy).Contents (Elt F)} {x4 : (⟨Cert.ReferenceIdeal.S200000x2, .i32⟩ : BufTy).Contents (Elt F)} {x6 : (⟨Cert.ReferenceIdeal.S2x128x128, .f32⟩ : BufTy).Contents (Elt F)} {x7 : (⟨Cert.ReferenceIdeal.S2x128, .f32⟩ : BufTy).Contents (Elt F)} {x8 : (⟨Cert.ReferenceIdeal.S2x128x128, .f32⟩ : BufTy).Contents (Elt F)} {x9 : (⟨Cert.ReferenceIdeal.S2x128, .f32⟩ : BufTy).Contents (Elt F)} {x10 : (⟨Cert.ReferenceIdeal.S2, .f32⟩ : BufTy).Contents (Elt F)} {x11 : (⟨Cert.ReferenceIdeal.S128x128, .f32⟩ : BufTy).Contents (Elt F)} {x12 : (⟨Cert.ReferenceIdeal.S128, .f32⟩ : BufTy).Contents (Elt F)} {x13 : (⟨Cert.ReferenceIdeal.S2x256x128, .f32⟩ : BufTy).Contents (Elt F)} {x14 : (⟨Cert.ReferenceIdeal.S2x128, .f32⟩ : BufTy).Contents (Elt F)} {x15 : (⟨Cert.ReferenceIdeal.S2x128x2, .f32⟩ : BufTy).Contents (Elt F)} {x16 : (⟨Cert.ReferenceIdeal.S2x2, .f32⟩ : BufTy).Contents (Elt F)} {x17 : (⟨Cert.ReferenceIdeal.S2x256x128, .f32⟩ : BufTy).Contents (Elt F)} {x18 : (⟨Cert.ReferenceIdeal.S2x128, .f32⟩ : BufTy).Contents (Elt F)} {x19 : (⟨Cert.ReferenceIdeal.S2x128x2, .f32⟩ : BufTy).Contents (Elt F)} {x20 : (⟨Cert.ReferenceIdeal.S2x2, .f32⟩ : BufTy).Contents (Elt F)} {x21 : (⟨Cert.ReferenceIdeal.S2x128x128, .f32⟩ : BufTy).Contents (Elt F)} {x22 : (⟨Cert.ReferenceIdeal.S2x128, .f32⟩ : BufTy).Contents (Elt F)} {x23 : (⟨Cert.ReferenceIdeal.S2x128x128, .f32⟩ : BufTy).Contents (Elt F)} {x24 : (⟨Cert.ReferenceIdeal.S2x128, .f32⟩ : BufTy).Contents (Elt F)} {x25 : (⟨Cert.ReferenceIdeal.S2, .f32⟩ : BufTy).Contents (Elt F)}
    (h150 : V (Proc.devRef .tc main_v150) = Cert.ReferenceIdeal.Read.val_main_v190 (F := F) x0 x1 x2 x3 x4 x6 x7 x8 x9 x10 x11 x12 x13 x14 x15 x16 x17 x18 x19 x20 x21 x22 x23 x24 x25)
    (h182 : V (Proc.devRef .tc main_v182) = Cert.ReferenceIdeal.Read.val_main_v228 (F := F) x0 x1 x2 x3 x4 x6 x7 x8 x9 x10 x11 x12 x13 x14 x15 x16 x17 x18 x19 x20 x21 x22 x23 x24 x25) :
    StableHlo.after hostOps6_1 (StableHlo.after hostOps6 V) (Proc.devRef .tc main_v184) = Cert.ReferenceIdeal.Read.val_main_v230 (F := F) x0 x1 x2 x3 x4 x6 x7 x8 x9 x10 x11 x12 x13 x14 x15 x16 x17 x18 x19 x20 x21 x22 x23 x24 x25 := by
  after_results_simp
  simp only [StableHlo.TRef.ofBuf, StableHlo.TRef.toBuf, cast_eq]
  rw [h150, h182]
  rfl

theorem host12_v191 (V : Valuation τ sig (Elt F)) {x0 : (⟨Cert.ReferenceIdeal.S20000x128, .f32⟩ : BufTy).Contents (Elt F)} {x1 : (⟨Cert.ReferenceIdeal.S2x320000, .i32⟩ : BufTy).Contents (Elt F)} {x2 : (⟨Cert.ReferenceIdeal.S320000x128, .f32⟩ : BufTy).Contents (Elt F)} {x3 : (⟨Cert.ReferenceIdeal.S320000, .f32⟩ : BufTy).Contents (Elt F)} {x4 : (⟨Cert.ReferenceIdeal.S200000x2, .i32⟩ : BufTy).Contents (Elt F)} {x6 : (⟨Cert.ReferenceIdeal.S2x128x128, .f32⟩ : BufTy).Contents (Elt F)} {x7 : (⟨Cert.ReferenceIdeal.S2x128, .f32⟩ : BufTy).Contents (Elt F)} {x8 : (⟨Cert.ReferenceIdeal.S2x128x128, .f32⟩ : BufTy).Contents (Elt F)} {x9 : (⟨Cert.ReferenceIdeal.S2x128, .f32⟩ : BufTy).Contents (Elt F)} {x10 : (⟨Cert.ReferenceIdeal.S2, .f32⟩ : BufTy).Contents (Elt F)} {x11 : (⟨Cert.ReferenceIdeal.S128x128, .f32⟩ : BufTy).Contents (Elt F)} {x12 : (⟨Cert.ReferenceIdeal.S128, .f32⟩ : BufTy).Contents (Elt F)} {x13 : (⟨Cert.ReferenceIdeal.S2x256x128, .f32⟩ : BufTy).Contents (Elt F)} {x14 : (⟨Cert.ReferenceIdeal.S2x128, .f32⟩ : BufTy).Contents (Elt F)} {x15 : (⟨Cert.ReferenceIdeal.S2x128x2, .f32⟩ : BufTy).Contents (Elt F)} {x16 : (⟨Cert.ReferenceIdeal.S2x2, .f32⟩ : BufTy).Contents (Elt F)} {x17 : (⟨Cert.ReferenceIdeal.S2x256x128, .f32⟩ : BufTy).Contents (Elt F)} {x18 : (⟨Cert.ReferenceIdeal.S2x128, .f32⟩ : BufTy).Contents (Elt F)} {x19 : (⟨Cert.ReferenceIdeal.S2x128x2, .f32⟩ : BufTy).Contents (Elt F)} {x20 : (⟨Cert.ReferenceIdeal.S2x2, .f32⟩ : BufTy).Contents (Elt F)} {x21 : (⟨Cert.ReferenceIdeal.S2x128x128, .f32⟩ : BufTy).Contents (Elt F)} {x22 : (⟨Cert.ReferenceIdeal.S2x128, .f32⟩ : BufTy).Contents (Elt F)} {x23 : (⟨Cert.ReferenceIdeal.S2x128x128, .f32⟩ : BufTy).Contents (Elt F)} {x24 : (⟨Cert.ReferenceIdeal.S2x128, .f32⟩ : BufTy).Contents (Elt F)} {x25 : (⟨Cert.ReferenceIdeal.S2, .f32⟩ : BufTy).Contents (Elt F)}
    (h150 : V (Proc.devRef .tc main_v150) = Cert.ReferenceIdeal.Read.val_main_v190 (F := F) x0 x1 x2 x3 x4 x6 x7 x8 x9 x10 x11 x12 x13 x14 x15 x16 x17 x18 x19 x20 x21 x22 x23 x24 x25)
    (h182 : V (Proc.devRef .tc main_v182) = Cert.ReferenceIdeal.Read.val_main_v228 (F := F) x0 x1 x2 x3 x4 x6 x7 x8 x9 x10 x11 x12 x13 x14 x15 x16 x17 x18 x19 x20 x21 x22 x23 x24 x25)
    (h5 : V (Proc.devRef .tc main_v5) = Cert.ReferenceIdeal.Read.val_main_v5 (F := F) x4) :
    StableHlo.after hostOps6_1 (StableHlo.after hostOps6 V) (Proc.devRef .tc main_v191) = Cert.ReferenceIdeal.Read.val_main_v237 (F := F) x0 x1 x2 x3 x4 x6 x7 x8 x9 x10 x11 x12 x13 x14 x15 x16 x17 x18 x19 x20 x21 x22 x23 x24 x25 := by
  after_results_simp
  simp only [StableHlo.TRef.ofBuf, StableHlo.TRef.toBuf, cast_eq]
  rw [h150, h182, h5]
  rfl

theorem host12_v199 (V : Valuation τ sig (Elt F)) {x0 : (⟨Cert.ReferenceIdeal.S20000x128, .f32⟩ : BufTy).Contents (Elt F)} {x1 : (⟨Cert.ReferenceIdeal.S2x320000, .i32⟩ : BufTy).Contents (Elt F)} {x2 : (⟨Cert.ReferenceIdeal.S320000x128, .f32⟩ : BufTy).Contents (Elt F)} {x3 : (⟨Cert.ReferenceIdeal.S320000, .f32⟩ : BufTy).Contents (Elt F)} {x4 : (⟨Cert.ReferenceIdeal.S200000x2, .i32⟩ : BufTy).Contents (Elt F)} {x6 : (⟨Cert.ReferenceIdeal.S2x128x128, .f32⟩ : BufTy).Contents (Elt F)} {x7 : (⟨Cert.ReferenceIdeal.S2x128, .f32⟩ : BufTy).Contents (Elt F)} {x8 : (⟨Cert.ReferenceIdeal.S2x128x128, .f32⟩ : BufTy).Contents (Elt F)} {x9 : (⟨Cert.ReferenceIdeal.S2x128, .f32⟩ : BufTy).Contents (Elt F)} {x10 : (⟨Cert.ReferenceIdeal.S2, .f32⟩ : BufTy).Contents (Elt F)} {x11 : (⟨Cert.ReferenceIdeal.S128x128, .f32⟩ : BufTy).Contents (Elt F)} {x12 : (⟨Cert.ReferenceIdeal.S128, .f32⟩ : BufTy).Contents (Elt F)} {x13 : (⟨Cert.ReferenceIdeal.S2x256x128, .f32⟩ : BufTy).Contents (Elt F)} {x14 : (⟨Cert.ReferenceIdeal.S2x128, .f32⟩ : BufTy).Contents (Elt F)} {x15 : (⟨Cert.ReferenceIdeal.S2x128x2, .f32⟩ : BufTy).Contents (Elt F)} {x16 : (⟨Cert.ReferenceIdeal.S2x2, .f32⟩ : BufTy).Contents (Elt F)} {x17 : (⟨Cert.ReferenceIdeal.S2x256x128, .f32⟩ : BufTy).Contents (Elt F)} {x18 : (⟨Cert.ReferenceIdeal.S2x128, .f32⟩ : BufTy).Contents (Elt F)} {x19 : (⟨Cert.ReferenceIdeal.S2x128x2, .f32⟩ : BufTy).Contents (Elt F)} {x20 : (⟨Cert.ReferenceIdeal.S2x2, .f32⟩ : BufTy).Contents (Elt F)} {x21 : (⟨Cert.ReferenceIdeal.S2x128x128, .f32⟩ : BufTy).Contents (Elt F)} {x22 : (⟨Cert.ReferenceIdeal.S2x128, .f32⟩ : BufTy).Contents (Elt F)} {x23 : (⟨Cert.ReferenceIdeal.S2x128x128, .f32⟩ : BufTy).Contents (Elt F)} {x24 : (⟨Cert.ReferenceIdeal.S2x128, .f32⟩ : BufTy).Contents (Elt F)} {x25 : (⟨Cert.ReferenceIdeal.S2, .f32⟩ : BufTy).Contents (Elt F)}
    (h150 : V (Proc.devRef .tc main_v150) = Cert.ReferenceIdeal.Read.val_main_v190 (F := F) x0 x1 x2 x3 x4 x6 x7 x8 x9 x10 x11 x12 x13 x14 x15 x16 x17 x18 x19 x20 x21 x22 x23 x24 x25)
    (h182 : V (Proc.devRef .tc main_v182) = Cert.ReferenceIdeal.Read.val_main_v228 (F := F) x0 x1 x2 x3 x4 x6 x7 x8 x9 x10 x11 x12 x13 x14 x15 x16 x17 x18 x19 x20 x21 x22 x23 x24 x25)
    (h5 : V (Proc.devRef .tc main_v5) = Cert.ReferenceIdeal.Read.val_main_v5 (F := F) x4)
    (h7 : V (Proc.devRef .tc main_v7) = Cert.ReferenceIdeal.Read.val_main_v7 (F := F) x4) :
    StableHlo.after hostOps6_1 (StableHlo.after hostOps6 V) (Proc.devRef .tc main_v199) = Cert.ReferenceIdeal.Read.val_main_v245 (F := F) x0 x1 x2 x3 x4 x6 x7 x8 x9 x10 x11 x12 x13 x14 x15 x16 x17 x18 x19 x20 x21 x22 x23 x24 x25 := by
  after_results_simp
  refine (host12_concat2 _ _ (?_ : _ = Cert.ReferenceIdeal.Read.val_main_v237 (F := F) x0 x1 x2 x3 x4 x6 x7 x8 x9 x10 x11 x12 x13 x14 x15 x16 x17 x18 x19 x20 x21 x22 x23 x24 x25) (?_ : _ = Cert.ReferenceIdeal.Read.val_main_v244 (F := F) x0 x1 x2 x3 x4 x6 x7 x8 x9 x10 x11 x12 x13 x14 x15 x16 x17 x18 x19 x20 x21 x22 x23 x24 x25)).trans rfl
  · after_results_simp
    simp only [StableHlo.TRef.ofBuf, StableHlo.TRef.toBuf, cast_eq]
    rw [h150, h182, h5]
    rfl
  · after_results_simp
    simp only [StableHlo.TRef.ofBuf, StableHlo.TRef.toBuf, cast_eq]
    rw [h150, h182, h7]
    rfl

theorem host12_v201 (V : Valuation τ sig (Elt F)) {x13 : (⟨Cert.ReferenceIdeal.S2x256x128, .f32⟩ : BufTy).Contents (Elt F)}
    (ha13 : V (Proc.devRef .tc main_arg13) = x13) :
    StableHlo.after hostOps6_1 (StableHlo.after hostOps6 V) (Proc.devRef .tc main_v201) = Cert.ReferenceIdeal.Read.val_main_v247 (F := F) x13 := by
  after_results_simp
  rw [ha13]
  rfl

theorem host12_v205 (V : Valuation τ sig (Elt F)) {x15 : (⟨Cert.ReferenceIdeal.S2x128x2, .f32⟩ : BufTy).Contents (Elt F)}
    (ha15 : V (Proc.devRef .tc main_arg15) = x15) :
    StableHlo.after hostOps6_1 (StableHlo.after hostOps6 V) (Proc.devRef .tc main_v205) = Cert.ReferenceIdeal.Read.val_main_v256 (F := F) x15 := by
  after_results_simp
  rw [ha15]
  rfl

theorem host12_v208 (V : Valuation τ sig (Elt F)) {x14 : (⟨Cert.ReferenceIdeal.S2x128, .f32⟩ : BufTy).Contents (Elt F)}
    (ha14 : V (Proc.devRef .tc main_arg14) = x14) :
    StableHlo.after hostOps6_1 (StableHlo.after hostOps6 V) (Proc.devRef .tc main_v208) = Cert.ReferenceIdeal.Read.val_main_v251 (F := F) x14 := by
  after_results_simp
  rw [ha14]
  exact host12_row (Cert.ReferenceIdeal.Read.val_main_v250 (F := F) x14) _ _

theorem host12_v209 (V : Valuation τ sig (Elt F)) {x16 : (⟨Cert.ReferenceIdeal.S2x2, .f32⟩ : BufTy).Contents (Elt F)}
    (ha16 : V (Proc.devRef .tc main_arg16) = x16) :
    StableHlo.after hostOps6_1 (StableHlo.after hostOps6 V) (Proc.devRef .tc main_v209) = Cert.ReferenceIdeal.Read.val_main_v260 (F := F) x16 := by
  after_results_simp
  rw [ha16]
  exact host12_row (Cert.ReferenceIdeal.Read.val_main_v259 (F := F) x16) _ _

theorem host12 (c : Dev nD) (h : FactsW21 m ρ c) : FactsW23 m ρ c where
  v1 := (host12_keep (W21 m ρ c) main_v1 (by decide)).trans h.v1
  v3 := (host12_keep (W21 m ρ c) main_v3 (by decide)).trans h.v3
  v7 := (host12_keep (W21 m ρ c) main_v7 (by decide)).trans h.v7
  v9 := (host12_keep (W21 m ρ c) main_v9 (by decide)).trans h.v9
  args := fun r hr => (host12_keep (W21 m ρ c) r (by revert r; decide)).trans (h.args r (by revert r; decide))
  v184 := host12_v184 (W21 m ρ c) h.v150 h.v182
  v191 := host12_v191 (W21 m ρ c) h.v150 h.v182 h.v5
  v199 := host12_v199 (W21 m ρ c) h.v150 h.v182 h.v5 h.v7
  v201 := host12_v201 (W21 m ρ c) (h.args main_arg13 (by decide))
  v205 := host12_v205 (W21 m ρ c) (h.args main_arg15 (by decide))
  v208 := host12_v208 (W21 m ρ c) (h.args main_arg14 (by decide))
  v209 := host12_v209 (W21 m ρ c) (h.args main_arg16 (by decide))

end Cert.KernelIdeal.Stages

end
-- ==== Proof.Host14.lean ====
/- The host operations that run before region 7: given that their operands hold the reference's stages of the launch arguments, so does each buffer they compute that is read later; a buffer they do not write is carried. -/
import proofs.«165269_j27702539059574_1_alg».proof.Proof.Stages
import Idealize.ShloMosaic.Lib.Pipeline.Value

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem host14_row {α : Type} {n : Nat} (hn : n ≠ 1) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ x h1 = broadcastInDim ⟨2, ![1, n]⟩ ![1] h2 x := by
  funext j
  exact (shapeCast_addUnit_apply ![n] x h1 j).trans
    (broadcastInDim_apply ![1] h2 x j (fun a => j a.succ) (fun a => match a with
      | ⟨0, _⟩ => by show (j 1).val = if n = 1 then 0 else (j 1).val; rw [if_neg hn])).symm

def host14_written : List (Ref sig .tc) :=
  [main_c_29, main_v211, main_v212, main_c_30, main_v213, main_v214, main_v215, main_v216, main_v217, main_c_31, main_v218, main_v219, main_c_32, main_v220, main_v221, main_v222, main_v223, main_v224, main_v225, main_v226, main_v227, main_v228, main_v229, main_v230, main_v231, main_v232, main_v233, main_v234, main_v235]

theorem host14_writes : (hostOps7 : List (HloOp τ sig (Elt Ideal))).Forall fun op =>
    op.writes ⊆ ((host14_written).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

set_option maxHeartbeats 1000000 in
theorem host14_v217 (c : Dev nD) (h : FactsW24 m ρ c) :
    W25 m ρ c (Proc.devRef .tc main_v217) = Cert.ReferenceIdeal.Read.val_main_v269 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show StableHlo.after hostOps7 (W24 m ρ c) (Proc.devRef .tc main_v217) = _
  after_results_simp
  rw [h.v184, h.v1]
  rfl

set_option maxHeartbeats 1000000 in
theorem host14_v225 (c : Dev nD) (h : FactsW24 m ρ c) :
    W25 m ρ c (Proc.devRef .tc main_v225) = Cert.ReferenceIdeal.Read.val_main_v277 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show StableHlo.after hostOps7 (W24 m ρ c) (Proc.devRef .tc main_v225) = _
  after_results_simp
  refine (congrArg₂ (fun (a b : (⟨S320000x128, .f32⟩ : BufTy).Contents (Elt Ideal)) => concatenate S320000x256 1 [⟨S320000x128, a⟩, ⟨S320000x128, b⟩] concatenates_S320000x128_S320000x128_S320000x256_d1)
    (?_ : _ = Cert.ReferenceIdeal.Read.val_main_v269 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)))
    (?_ : _ = Cert.ReferenceIdeal.Read.val_main_v276 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)))).trans rfl
  · after_results_simp
    rw [h.v184, h.v1]
    rfl
  · after_results_simp
    rw [h.v184, h.v3]
    rfl

set_option maxHeartbeats 1000000 in
theorem host14_v227 (c : Dev nD) (h : FactsW24 m ρ c) :
    W25 m ρ c (Proc.devRef .tc main_v227) = Cert.ReferenceIdeal.Read.val_main_v279 (F := Ideal) (m ((c.tc : Thread nD τ).loc main_arg17)) := by
  show StableHlo.after hostOps7 (W24 m ρ c) (Proc.devRef .tc main_v227) = _
  after_results_simp
  rw [(h.args main_arg17 (by decide))]
  rfl

set_option maxHeartbeats 1000000 in
theorem host14_v231 (c : Dev nD) (h : FactsW24 m ρ c) :
    W25 m ρ c (Proc.devRef .tc main_v231) = Cert.ReferenceIdeal.Read.val_main_v288 (F := Ideal) (m ((c.tc : Thread nD τ).loc main_arg19)) := by
  show StableHlo.after hostOps7 (W24 m ρ c) (Proc.devRef .tc main_v231) = _
  after_results_simp
  rw [(h.args main_arg19 (by decide))]
  rfl

set_option maxHeartbeats 1000000 in
theorem host14_v234 (c : Dev nD) (h : FactsW24 m ρ c) :
    W25 m ρ c (Proc.devRef .tc main_v234) = Cert.ReferenceIdeal.Read.val_main_v283 (F := Ideal) (m ((c.tc : Thread nD τ).loc main_arg18)) := by
  show StableHlo.after hostOps7 (W24 m ρ c) (Proc.devRef .tc main_v234) = _
  after_results_simp
  rw [(h.args main_arg18 (by decide))]
  exact host14_row (n := 128) (by decide) _ _ _

set_option maxHeartbeats 1000000 in
theorem host14_v235 (c : Dev nD) (h : FactsW24 m ρ c) :
    W25 m ρ c (Proc.devRef .tc main_v235) = Cert.ReferenceIdeal.Read.val_main_v292 (F := Ideal) (m ((c.tc : Thread nD τ).loc main_arg20)) := by
  show StableHlo.after hostOps7 (W24 m ρ c) (Proc.devRef .tc main_v235) = _
  after_results_simp
  rw [(h.args main_arg20 (by decide))]
  exact host14_row (n := 2) (by decide) _ _ _

theorem host14 (c : Dev nD) (h : FactsW24 m ρ c) : FactsW25 m ρ c where
  v3 := (StableHlo.after_of_writes_sub hostOps7 (W24 m ρ c) host14_writes (r := main_v3) (by decide)).trans h.v3
  v7 := (StableHlo.after_of_writes_sub hostOps7 (W24 m ρ c) host14_writes (r := main_v7) (by decide)).trans h.v7
  v9 := (StableHlo.after_of_writes_sub hostOps7 (W24 m ρ c) host14_writes (r := main_v9) (by decide)).trans h.v9
  v184 := (StableHlo.after_of_writes_sub hostOps7 (W24 m ρ c) host14_writes (r := main_v184) (by decide)).trans h.v184
  v191 := (StableHlo.after_of_writes_sub hostOps7 (W24 m ρ c) host14_writes (r := main_v191) (by decide)).trans h.v191
  v210 := (StableHlo.after_of_writes_sub hostOps7 (W24 m ρ c) host14_writes (r := main_v210) (by decide)).trans h.v210
  v217 := host14_v217 m ρ c h
  v225 := host14_v225 m ρ c h
  v227 := host14_v227 m ρ c h
  v231 := host14_v231 m ρ c h
  v234 := host14_v234 m ρ c h
  v235 := host14_v235 m ρ c h
  args := fun r hr => (StableHlo.after_of_writes_sub hostOps7 (W24 m ρ c) host14_writes (r := r) (by revert r; decide)).trans (h.args r (by revert r; decide))

end Cert.KernelIdeal.Stages

end
-- ==== Proof.Host16.lean ====
/- The host operations that run before region 8: given that their operands hold the reference's stages of the launch arguments, so does each buffer they compute that is read later; a buffer they do not write is carried. -/
import proofs.«165269_j27702539059574_1_alg».proof.Proof.Stages
import Idealize.ShloMosaic.Lib.StableHlo.Run
import Idealize.ShloMosaic.Lib.Pipeline.Value

set_option maxRecDepth 16384

noncomputable section

namespace Cert.KernelIdeal.Stages

open Idealize.ShloMosaic Idealize.ShloMosaic.TcCoe Idealize.SL.Sem Cert.KernelIdeal Cert.KernelIdeal.Gen Cert.KernelIdeal.GenP
open Cert.ReferenceIdeal.Read

section Frames

variable {F : FTy → Type} [FloatOps F]

private def h16_wr8 : List (Ref sig .tc) :=
  [main_cst_33, main_v237, main_cst_34, main_v238, main_v239, main_v240, main_v241, main_cst_35, main_v242, main_v243,
    main_cst_36, main_v244, main_v245, main_cst_37, main_v246, main_cst_38, main_v247, main_v248, main_v249, main_v250,
    main_cst_39, main_v251, main_v252, main_cst_40, main_v253, main_v254, main_v255]
private def h16_wr8_1 : List (Ref sig .tc) := [main_call6_cst, main_call6_v0, main_v256]
private def h16_wr8_2 : List (Ref sig .tc) := [main_v257, main_v258, main_v259, main_v260, main_v261, main_v262, main_v263]
private def h16_wr8_3 : List (Ref sig .tc) := [main_call7_cst, main_call7_v0, main_v264]
private def h16_wr8_4 : List (Ref sig .tc) :=
  [main_v265, main_v266, main_v267, main_cst_41, main_v268, main_v269, main_v270, main_cst_42, main_v271, main_v272,
    main_v273, main_v274, main_v275, main_v276, main_cst_43, main_v277, main_v278, main_v279, main_v280, main_v281,
    main_v282, main_v283, main_v284, main_v285, main_v286, main_v287, main_v288, main_v289, main_v290]

private theorem h16_wr8_sub : (hostOps8 : List (HloOp τ sig (Elt F))).Forall fun op =>
    op.writes ⊆ (h16_wr8.map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
private theorem h16_wr8_1_sub : (hostOps8_1 : List (HloOp τ sig (Elt F))).Forall fun op =>
    op.writes ⊆ (h16_wr8_1.map (Proc.devRef (τ := τ) .tc)).toFinset := by
  simp only [hostOps8_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
private theorem h16_wr8_2_sub : (hostOps8_2 : List (HloOp τ sig (Elt F))).Forall fun op =>
    op.writes ⊆ (h16_wr8_2.map (Proc.devRef (τ := τ) .tc)).toFinset := by
  simp only [hostOps8_2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
private theorem h16_wr8_3_sub : (hostOps8_3 : List (HloOp τ sig (Elt F))).Forall fun op =>
    op.writes ⊆ (h16_wr8_3.map (Proc.devRef (τ := τ) .tc)).toFinset := by
  simp only [hostOps8_3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
private theorem h16_wr8_4_sub : (hostOps8_4 : List (HloOp τ sig (Elt F))).Forall fun op =>
    op.writes ⊆ (h16_wr8_4.map (Proc.devRef (τ := τ) .tc)).toFinset := by
  simp only [hostOps8_4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

private theorem h16_keep8 (V : Valuation τ sig (Elt F)) (r : Ref sig .tc) (hr : r ∉ h16_wr8) :
    StableHlo.after hostOps8 V (Proc.devRef .tc r) = V (Proc.devRef .tc r) :=
  StableHlo.after_of_writes_sub hostOps8 V h16_wr8_sub hr
private theorem h16_keep8_1 (V : Valuation τ sig (Elt F)) (r : Ref sig .tc) (hr : r ∉ h16_wr8_1) :
    StableHlo.after hostOps8_1 V (Proc.devRef .tc r) = V (Proc.devRef .tc r) :=
  StableHlo.after_of_writes_sub hostOps8_1 V h16_wr8_1_sub hr
private theorem h16_keep8_2 (V : Valuation τ sig (Elt F)) (r : Ref sig .tc) (hr : r ∉ h16_wr8_2) :
    StableHlo.after hostOps8_2 V (Proc.devRef .tc r) = V (Proc.devRef .tc r) :=
  StableHlo.after_of_writes_sub hostOps8_2 V h16_wr8_2_sub hr
private theorem h16_keep8_3 (V : Valuation τ sig (Elt F)) (r : Ref sig .tc) (hr : r ∉ h16_wr8_3) :
    StableHlo.after hostOps8_3 V (Proc.devRef .tc r) = V (Proc.devRef .tc r) :=
  StableHlo.after_of_writes_sub hostOps8_3 V h16_wr8_3_sub hr
private theorem h16_keep8_4 (V : Valuation τ sig (Elt F)) (r : Ref sig .tc) (hr : r ∉ h16_wr8_4) :
    StableHlo.after hostOps8_4 V (Proc.devRef .tc r) = V (Proc.devRef .tc r) :=
  StableHlo.after_of_writes_sub hostOps8_4 V h16_wr8_4_sub hr

private theorem h16_keep4 (V : Valuation τ sig (Elt F)) (r : Ref sig .tc)
    (hr : (r ∉ h16_wr8 ∧ r ∉ h16_wr8_1) ∧ (r ∉ h16_wr8_2 ∧ r ∉ h16_wr8_3)) :
    StableHlo.after hostOps8_3 (StableHlo.after hostOps8_2 (StableHlo.after hostOps8_1 (StableHlo.after hostOps8 V)))
      (Proc.devRef .tc r) = V (Proc.devRef .tc r) :=
  (h16_keep8_3 _ r hr.2.2).trans ((h16_keep8_2 _ r hr.2.1).trans ((h16_keep8_1 _ r hr.1.2).trans (h16_keep8 V r hr.1.1)))

end Frames

private theorem h16_row128 {α : Type} (x : S128.Idx → α) (hc : S128.ShapeCasts S1x128) (hb : S128.BroadcastsInDim S1x128 ![1]) :
    shapeCast S1x128 x hc = broadcastInDim S1x128 ![1] hb x := by
  funext j
  rw [shapeCast_apply x hc j (fun a => match a with | ⟨0, _⟩ => ⟨(j 1).val, (j 1).isLt⟩)
      (by rewrite [Shape.rowMajor_val_one, Shape.rowMajor_val_two]
          have h0 : (j 0).val < 1 := (j 0).isLt
          show (j 1).val = (j 0).val * 128 + (j 1).val
          omega),
    broadcastInDim_apply ![1] hb x j (fun a => match a with | ⟨0, _⟩ => ⟨(j 1).val, (j 1).isLt⟩)
      (fun a => match a with
        | ⟨0, _⟩ => by show (j 1).val = if (128 : Nat) = 1 then 0 else (j 1).val; rw [if_neg (by decide)])]

section Values

variable {F : FTy → Type} [FloatOps F]
  {x0 : (⟨Cert.ReferenceIdeal.S20000x128, .f32⟩ : BufTy).Contents (Elt F)}
  {x1 : (⟨Cert.ReferenceIdeal.S2x320000, .i32⟩ : BufTy).Contents (Elt F)}
  {x2 : (⟨Cert.ReferenceIdeal.S320000x128, .f32⟩ : BufTy).Contents (Elt F)}
  {x3 : (⟨Cert.ReferenceIdeal.S320000, .f32⟩ : BufTy).Contents (Elt F)}
  {x4 : (⟨Cert.ReferenceIdeal.S200000x2, .i32⟩ : BufTy).Contents (Elt F)}
  {x6 : (⟨Cert.ReferenceIdeal.S2x128x128, .f32⟩ : BufTy).Contents (Elt F)}
  {x7 : (⟨Cert.ReferenceIdeal.S2x128, .f32⟩ : BufTy).Contents (Elt F)}
  {x8 : (⟨Cert.ReferenceIdeal.S2x128x128, .f32⟩ : BufTy).Contents (Elt F)}
  {x9 : (⟨Cert.ReferenceIdeal.S2x128, .f32⟩ : BufTy).Contents (Elt F)}
  {x10 : (⟨Cert.ReferenceIdeal.S2, .f32⟩ : BufTy).Contents (Elt F)}
  {x11 : (⟨Cert.ReferenceIdeal.S128x128, .f32⟩ : BufTy).Contents (Elt F)}
  {x12 : (⟨Cert.ReferenceIdeal.S128, .f32⟩ : BufTy).Contents (Elt F)}
  {x13 : (⟨Cert.ReferenceIdeal.S2x256x128, .f32⟩ : BufTy).Contents (Elt F)}
  {x14 : (⟨Cert.ReferenceIdeal.S2x128, .f32⟩ : BufTy).Contents (Elt F)}
  {x15 : (⟨Cert.ReferenceIdeal.S2x128x2, .f32⟩ : BufTy).Contents (Elt F)}
  {x16 : (⟨Cert.ReferenceIdeal.S2x2, .f32⟩ : BufTy).Contents (Elt F)}
  {x17 : (⟨Cert.ReferenceIdeal.S2x256x128, .f32⟩ : BufTy).Contents (Elt F)}
  {x18 : (⟨Cert.ReferenceIdeal.S2x128, .f32⟩ : BufTy).Contents (Elt F)}
  {x19 : (⟨Cert.ReferenceIdeal.S2x128x2, .f32⟩ : BufTy).Contents (Elt F)}
  {x20 : (⟨Cert.ReferenceIdeal.S2x2, .f32⟩ : BufTy).Contents (Elt F)}
  {x21 : (⟨Cert.ReferenceIdeal.S2x128x128, .f32⟩ : BufTy).Contents (Elt F)}
  {x22 : (⟨Cert.ReferenceIdeal.S2x128, .f32⟩ : BufTy).Contents (Elt F)}
  {x23 : (⟨Cert.ReferenceIdeal.S2x128x128, .f32⟩ : BufTy).Contents (Elt F)}
  {x24 : (⟨Cert.ReferenceIdeal.S2x128, .f32⟩ : BufTy).Contents (Elt F)}
  {x25 : (⟨Cert.ReferenceIdeal.S2, .f32⟩ : BufTy).Contents (Elt F)}

set_option hygiene false in
local macro "at25% " f:ident : term => `($f (F := F) x0 x1 x2 x3 x4 x6 x7 x8 x9 x10 x11 x12 x13 x14 x15 x16 x17 x18 x19 x20 x21 x22 x23 x24 x25)

private theorem h16_v245 (V : Valuation τ sig (Elt F)) (h236 : V (Proc.devRef .tc main_v236) = at25% val_main_v294) :
    StableHlo.after hostOps8 V (Proc.devRef .tc main_v245) = at25% val_main_v303 := by
  after_results_simp
  rw [h236]
  rfl

private theorem h16_v254 (V : Valuation τ sig (Elt F)) (h210 : V (Proc.devRef .tc main_v210) = at25% val_main_v262) :
    StableHlo.after hostOps8 V (Proc.devRef .tc main_v254) = at25% val_main_v312 := by
  after_results_simp
  rw [h210]
  rfl

private theorem h16_v255 (V : Valuation τ sig (Elt F)) (h217 : V (Proc.devRef .tc main_v217) = at25% val_main_v269)
    (h9 : V (Proc.devRef .tc main_v9) = val_main_v11 (F := F) x2 x11 x12) :
    StableHlo.after hostOps8 V (Proc.devRef .tc main_v255) = at25% val_main_v320 := by
  after_results_simp
  rw [h217, h9]
  rfl

private theorem h16_1_v256 (V : Valuation τ sig (Elt F)) (h255 : V (Proc.devRef .tc main_v255) = at25% val_main_v320) :
    StableHlo.after hostOps8_1 V (Proc.devRef .tc main_v256) = at25% val_main_v321 := by
  after_results_simp
  rw [h255]
  rfl

private theorem h16_2_v260 (V : Valuation τ sig (Elt F)) (h3 : V (Proc.devRef .tc main_arg3) = x3)
    (h245 : V (Proc.devRef .tc main_v245) = at25% val_main_v303) (h256 : V (Proc.devRef .tc main_v256) = at25% val_main_v321) :
    StableHlo.after hostOps8_2 V (Proc.devRef .tc main_v260) = at25% val_main_v325 := by
  after_results_simp
  rw [h3, h245, h256]
  rfl

private theorem h16_2_v263 (V : Valuation τ sig (Elt F)) (h12 : V (Proc.devRef .tc main_arg12) = x12)
    (h191 : V (Proc.devRef .tc main_v191) = at25% val_main_v237) :
    StableHlo.after hostOps8_2 V (Proc.devRef .tc main_v263) = at25% val_main_v335 := by
  after_results_simp
  rw [h12, h191]
  rfl

private theorem h16_3_v264 (V : Valuation τ sig (Elt F)) (h263 : V (Proc.devRef .tc main_v263) = at25% val_main_v335) :
    StableHlo.after hostOps8_3 V (Proc.devRef .tc main_v264) = at25% val_main_v336 := by
  after_results_simp
  rw [h263]
  rfl

private theorem h16_4_v280 (V : Valuation τ sig (Elt F))
    (h254 : V (Proc.devRef .tc main_v254) = at25% val_main_v312) (h264 : V (Proc.devRef .tc main_v264) = at25% val_main_v336)
    (h260 : V (Proc.devRef .tc main_v260) = at25% val_main_v325)
    (h3 : V (Proc.devRef .tc main_v3) = val_main_v3 (F := F) x1) (h7 : V (Proc.devRef .tc main_v7) = val_main_v7 (F := F) x4)
    (h184 : V (Proc.devRef .tc main_v184) = at25% val_main_v230) (h25 : V (Proc.devRef .tc main_arg25) = x25) :
    StableHlo.after hostOps8_4 V (Proc.devRef .tc main_v280) = at25% val_main_v352 := by
  after_results_simp
  rw [h254, h264, h260, h3, h7, h184, h25]
  rfl

private theorem h16_4_v282 (V : Valuation τ sig (Elt F)) (h21 : V (Proc.devRef .tc main_arg21) = x21) :
    StableHlo.after hostOps8_4 V (Proc.devRef .tc main_v282) = val_main_v354 (F := F) x21 := by
  after_results_simp
  rw [h21]
  rfl

private theorem h16_4_v286 (V : Valuation τ sig (Elt F)) (h23 : V (Proc.devRef .tc main_arg23) = x23) :
    StableHlo.after hostOps8_4 V (Proc.devRef .tc main_v286) = val_main_v363 (F := F) x23 := by
  after_results_simp
  rw [h23]
  rfl

private theorem h16_4_v289 (V : Valuation τ sig (Elt F)) (h22 : V (Proc.devRef .tc main_arg22) = x22) :
    StableHlo.after hostOps8_4 V (Proc.devRef .tc main_v289) = val_main_v358 (F := F) x22 := by
  have e : StableHlo.after hostOps8_4 V (Proc.devRef .tc main_v289)
      = shapeCast S1x128 (val_main_v357 (F := F) x22) shapeCasts_S128_S1x128 := by
    after_results_simp
    rw [h22]
    rfl
  exact e.trans (h16_row128 _ _ _)

private theorem h16_4_v290 (V : Valuation τ sig (Elt F)) (h24 : V (Proc.devRef .tc main_arg24) = x24) :
    StableHlo.after hostOps8_4 V (Proc.devRef .tc main_v290) = val_main_v367 (F := F) x24 := by
  have e : StableHlo.after hostOps8_4 V (Proc.devRef .tc main_v290)
      = shapeCast S1x128 (val_main_v366 (F := F) x24) shapeCasts_S128_S1x128 := by
    after_results_simp
    rw [h24]
    rfl
  exact e.trans (h16_row128 _ _ _)

end Values

variable (m : (ℓ : Loc nD τ sig) → Buf (Elt Ideal) ℓ) (ρ : Dev nD → PrngReg)

theorem host16 (c : Dev nD) (h : FactsW26 m ρ c) : FactsW31 m ρ c where
  v280 := by
    have e245 := h16_v245 (W26 m ρ c) h.v236
    have e254 := h16_v254 (W26 m ρ c) h.v210
    have e255 := h16_v255 (W26 m ρ c) h.v217 h.v9
    have e256 := h16_1_v256 (W27 m ρ c) e255
    have e260 := h16_2_v260 (W28 m ρ c)
      ((h16_keep8_1 (W27 m ρ c) main_arg3 (by decide)).trans ((h16_keep8 (W26 m ρ c) main_arg3 (by decide)).trans (h.args main_arg3 (by decide))))
      ((h16_keep8_1 (W27 m ρ c) main_v245 (by decide)).trans e245) e256
    have e263 := h16_2_v263 (W28 m ρ c)
      ((h16_keep8_1 (W27 m ρ c) main_arg12 (by decide)).trans ((h16_keep8 (W26 m ρ c) main_arg12 (by decide)).trans (h.args main_arg12 (by decide))))
      ((h16_keep8_1 (W27 m ρ c) main_v191 (by decide)).trans ((h16_keep8 (W26 m ρ c) main_v191 (by decide)).trans h.v191))
    have e264 := h16_3_v264 (W29 m ρ c) e263
    exact h16_4_v280 (W30 m ρ c)
      ((h16_keep8_3 (W29 m ρ c) main_v254 (by decide)).trans
        ((h16_keep8_2 (W28 m ρ c) main_v254 (by decide)).trans ((h16_keep8_1 (W27 m ρ c) main_v254 (by decide)).trans e254)))
      e264 ((h16_keep8_3 (W29 m ρ c) main_v260 (by decide)).trans e260)
      ((h16_keep4 (W26 m ρ c) main_v3 (by decide)).trans h.v3) ((h16_keep4 (W26 m ρ c) main_v7 (by decide)).trans h.v7)
      ((h16_keep4 (W26 m ρ c) main_v184 (by decide)).trans h.v184) ((h16_keep4 (W26 m ρ c) main_arg25 (by decide)).trans (h.args main_arg25 (by decide)))
  v282 := h16_4_v282 (W30 m ρ c) ((h16_keep4 (W26 m ρ c) main_arg21 (by decide)).trans (h.args main_arg21 (by decide)))
  v286 := h16_4_v286 (W30 m ρ c) ((h16_keep4 (W26 m ρ c) main_arg23 (by decide)).trans (h.args main_arg23 (by decide)))
  v289 := h16_4_v289 (W30 m ρ c) ((h16_keep4 (W26 m ρ c) main_arg22 (by decide)).trans (h.args main_arg22 (by decide)))
  v290 := h16_4_v290 (W30 m ρ c) ((h16_keep4 (W26 m ρ c) main_arg24 (by decide)).trans (h.args main_arg24 (by decide)))
  args := fun r hr => (h16_keep8_4 (W30 m ρ c) r (by revert r; decide)).trans ((h16_keep4 (W26 m ρ c) r (by revert r; decide)).trans (h.args r (by revert r; decide)))

end Cert.KernelIdeal.Stages

end
-- ==== Proof.Host18.lean ====
/- The host operations that run before region 9: given that their operands hold the reference's stages of the launch arguments, so does each buffer they compute that is read later; a buffer they do not write is carried. -/
import proofs.«165269_j27702539059574_1_alg».proof.Proof.Stages
import Idealize.ShloMosaic.Lib.Pipeline.Value

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem host18_row {α : Type} {n : Nat} (hn : n ≠ 1) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ x h1 = broadcastInDim ⟨2, ![1, n]⟩ ![1] h2 x := by
  funext j
  exact (shapeCast_addUnit_apply ![n] x h1 j).trans
    (broadcastInDim_apply ![1] h2 x j (fun a => j a.succ) (fun a => match a with
      | ⟨0, _⟩ => by show (j 1).val = if n = 1 then 0 else (j 1).val; rw [if_neg hn])).symm

def host18_written : List (Ref sig .tc) :=
  [main_cst_44, main_v292, main_cst_45, main_v293, main_v294, main_v295, main_cst_46, main_v296, main_v297, main_v298, main_cst_47, main_v299, main_v300, main_v301, main_v302, main_v303, main_v304]

theorem host18_writes : (hostOps9 : List (HloOp τ sig (Elt Ideal))).Forall fun op =>
    op.writes ⊆ ((host18_written).map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

theorem host18 (c : Dev nD) (h : FactsW32 m ρ c) : FactsW33 m ρ c where
  v303 := by
    show StableHlo.after hostOps9 (W32 m ρ c) (Proc.devRef .tc main_v303) = _
    after_results_simp
    rw [h.v291, (h.args main_arg5 (by decide))]
    rfl
  v304 := by
    show StableHlo.after hostOps9 (W32 m ρ c) (Proc.devRef .tc main_v304) = _
    after_results_simp
    rw [(h.args main_arg27 (by decide))]
    exact host18_row (n := 10) (by decide) _ _ _
  args := fun r hr => (StableHlo.after_of_writes_sub hostOps9 (W32 m ρ c) host18_writes (r := r) (by revert r; decide)).trans (h.args r (by revert r; decide))

end Cert.KernelIdeal.Stages

end
-- ==== Proof.Chains.lean ====
/- The dense layers of the network, each as one whole-array function of its operands. -/
import proofs.«165269_j27702539059574_1_alg».proof.ReferenceIdeal
import proofs.«165269_j27702539059574_1_alg».proof.Proof.Gen.ReferenceIdeal

noncomputable section

namespace Cert.Bridge

open Idealize.ShloMosaic Cert.ReferenceIdeal Cert.ReferenceIdeal.Facts₀

variable {F : FTy → Type} [FloatOps F]

def linA (x : FVec F S320000x128 .f32) (w : FVec F S128x128 .f32) (b : FVec F S1x128 .f32) : FVec F S320000x128 .f32 :=
  addf (Host.dotGeneral dot_S320000x128_S128x128_S320000x128_1_0_0_1_n_n none x w)
    (broadcastInDim S320000x128 ![0, 1] bcast_S1x128_S320000x128_0_1 b)

def mlpB (x : FVec F S20000x128 .f32) (w1 : FVec F S128x128 .f32) (b1 : FVec F S1x128 .f32)
    (w2 : FVec F S128x128 .f32) (b2 : FVec F S1x128 .f32) : FVec F S20000x128 .f32 :=
  addf (Host.dotGeneral dot_S20000x128_S128x128_S20000x128_1_0_0_1_n_n none
      (maximumf (addf (Host.dotGeneral dot_S20000x128_S128x128_S20000x128_1_0_0_1_n_n none x w1)
          (broadcastInDim S20000x128 ![0, 1] bcast_S1x128_S20000x128_0_1 b1))
        (broadcastInDim S20000x128 ![] bcast_S_S20000x128 (constant S_ .f32 0x00000000#32))) w2)
    (broadcastInDim S20000x128 ![0, 1] bcast_S1x128_S20000x128_0_1 b2)

def mlpC (x : FVec F S200000x256 .f32) (w1 : FVec F S256x128 .f32) (b1 : FVec F S1x128 .f32)
    (w2 : FVec F S128x2 .f32) (b2 : FVec F S1x2 .f32) : FVec F S200000x2 .f32 :=
  addf (Host.dotGeneral dot_S200000x128_S128x2_S200000x2_1_0_0_1_n_n none
      (maximumf (addf (Host.dotGeneral dot_S200000x256_S256x128_S200000x128_1_0_0_1_n_n none x w1)
          (broadcastInDim S200000x128 ![0, 1] bcast_S1x128_S200000x128_0_1 b1))
        (broadcastInDim S200000x128 ![] bcast_S_S200000x128 (constant S_ .f32 0x00000000#32))) w2)
    (broadcastInDim S200000x2 ![0, 1] bcast_S1x2_S200000x2_0_1 b2)

def mlpD (x : FVec F S320000x256 .f32) (w1 : FVec F S256x128 .f32) (b1 : FVec F S1x128 .f32)
    (w2 : FVec F S128x2 .f32) (b2 : FVec F S1x2 .f32) : FVec F S320000x2 .f32 :=
  addf (Host.dotGeneral dot_S320000x128_S128x2_S320000x2_1_0_0_1_n_n none
      (maximumf (addf (Host.dotGeneral dot_S320000x256_S256x128_S320000x128_1_0_0_1_n_n none x w1)
          (broadcastInDim S320000x128 ![0, 1] bcast_S1x128_S320000x128_0_1 b1))
        (broadcastInDim S320000x128 ![] bcast_S_S320000x128 (constant S_ .f32 0x00000000#32))) w2)
    (broadcastInDim S320000x2 ![0, 1] bcast_S1x2_S320000x2_0_1 b2)

def linE (x : FVec F S64x128 .f32) (w : FVec F S128x10 .f32) (b : FVec F S1x10 .f32) : FVec F S64x10 .f32 :=
  addf (Host.dotGeneral dot_S64x128_S128x10_S64x10_1_0_0_1_n_n none x w)
    (broadcastInDim S64x10 ![0, 1] bcast_S1x10_S64x10_0_1 b)

end Cert.Bridge

end
-- ==== Proof.RegionLin.lean ====
/- A dense layer x · w + b computed in row blocks: row i of the result depends on row i of x only, so the blocks are the restrictions of the whole-array layer. -/
import proofs.«165269_j27702539059574_1_alg».proof.Proof.FrameKI
import proofs.«165269_j27702539059574_1_alg».proof.Proof.Chains
import Idealize.ShloMosaic.Lib.StackMember
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx Idealize.ShloMosaic.StackMember

namespace Lin

def linRow {K N : Nat} (xr : Fin K → Ideal .f32) (w : (⟨2, ![K, N]⟩ : Shape).Idx → Ideal .f32)
    (b : (⟨2, ![1, N]⟩ : Shape).Idx → Ideal .f32) (q : Fin N) : Ideal .f32 :=
  (∑ k : Fin K, xr k * w (ix2 k q)) + b (ix2 (0 : Fin 1) q)

theorem matmul_plain_zero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  subst hD
  rw [matmul_zero_eq_dotGeneral]
  exact dotGeneral_plain_apply prec A B a b

theorem dotGeneral_plain_apply_of_eq {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact dotGeneral_plain_apply prec A B a b

theorem broadcastTo_oneRow_apply {α : Type} {M N : Nat} (h : (⟨2, ![1, N]⟩ : Shape).Broadcasts ⟨2, ![M, N]⟩)
    (y : (⟨2, ![1, N]⟩ : Shape).Idx → α) (r : Fin M) (q : Fin N) :
    broadcastTo ⟨2, ![M, N]⟩ y h (ix2 r q) = y (ix2 (0 : Fin 1) q) := by
  refine broadcastTo_apply y h (ix2 r q) (ix2 (0 : Fin 1) q) ?_
  intro a
  match a with
  | ⟨0, _⟩ => show (0 : ℕ) = if (1 : ℕ) = 1 then 0 else _; simp
  | ⟨1, _⟩ =>
    show q.val = if N = 1 then 0 else q.val
    split_ifs with hn
    · have := q.isLt; omega
    · rfl

theorem k0_pay1_apply (X : Vec Ideal S4000x128 .f32) (W : Vec Ideal S128x128 .f32) (b : Vec Ideal S1x128 .f32)
    (r : Fin 4000) (q : Fin 128) :
    k0_pay1 (F := Ideal) X W b (ix2 r q) = linRow (fun k => X (ix2 r k)) W b q := by
  unfold k0_pay1 linRow
  dsimp only
  rw [addf_apply, shapeCast_self, broadcastTo_oneRow_apply,
    matmul_plain_zero_apply (M := 4000) (K := 128) (N := 128) dot_S4000x128_S128x128_S4000x128_1_0_0_1_n_n rfl]
  rfl

theorem linA_apply (x : FVec Ideal S320000x128 .f32) (w : FVec Ideal S128x128 .f32) (b : FVec Ideal S1x128 .f32)
    (r : Fin 320000) (q : Fin 128) :
    Cert.Bridge.linA (F := Ideal) x w b (ix2 r q) = linRow (fun k => x (ix2 r k)) w b q := by
  unfold Cert.Bridge.linA linRow
  rw [addf_apply, broadcastInDim_oneRow_apply,
    dotGeneral_plain_apply_of_eq (M := 320000) (K := 128) (N := 128)
      Cert.ReferenceIdeal.dot_S320000x128_S128x128_S320000x128_1_0_0_1_n_n rfl]

section Region
variable (V : (c : Dev nD) → (b : Ref sig .tc) → Buf (Elt Ideal) ((c : Thread nD τ).loc b))

theorem hz0 : (![0, 0] : Fin 2 → Nat) = fun _ => 0 := funext fun a => by fin_cases a <;> rfl

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 80 :=
  (by decide +kernel : ∀ t : Fin grid0.N, _)

abbrev xblk0 (c : Dev nD) (t : Fin cfg0.N) : Vec Ideal S4000x128 .f32 := iblk0 V c 0 t
abbrev wblk0 (c : Dev nD) (t : Fin cfg0.N) : Vec Ideal S128x128 .f32 := iblk0 V c 1 t
abbrev bblk0 (c : Dev nD) (t : Fin cfg0.N) : Vec Ideal S1x128 .f32 := iblk0 V c 2 t
abbrev xarr0 (c : Dev nD) : Vec Ideal S320000x128 .f32 := V c main_arg2
abbrev warr0 (c : Dev nD) : Vec Ideal S128x128 .f32 := V c main_arg11
abbrev barr0 (c : Dev nD) : Vec Ideal S1x128 .f32 := V c main_v8

theorem xblk0_apply (c : Dev nD) (t : Fin cfg0.N) (y : Fin 4000) (k : Fin 128) (r : Fin 320000)
    (hr : r.val = t.val * 4000 + y.val) : xblk0 V c t (ix2 y k) = xarr0 V c (ix2 r k) := by
  obtain ⟨e0, e1, -⟩ := idx0 t
  unfold xblk0 iblk0
  rw [View.read_apply]
  show V c main_arg2 _ = V c main_arg2 _
  congr 1
  funext a
  apply Fin.ext
  match a with
  | ⟨0, _⟩ => show win0_0.index t (0 : Fin 2) * 4000 + 1 * y.val = r.val; rw [e0, hr]; omega
  | ⟨1, _⟩ => show win0_0.index t (1 : Fin 2) * 128 + 1 * k.val = k.val; rw [e1]; omega

theorem wblk0_eq (c : Dev nD) (t : Fin cfg0.N) : wblk0 V c t = warr0 V c := by
  obtain ⟨-, -, e2, e3, -⟩ := idx0 t
  funext j
  obtain ⟨a, b, rfl⟩ : ∃ (a : Fin 128) (b : Fin 128), j = ix2 a b := ⟨j 0, j 1, eq_ix2 j⟩
  unfold wblk0 iblk0
  rw [View.read_apply]
  show V c main_arg11 _ = V c main_arg11 _
  congr 1
  funext ax
  apply Fin.ext
  match ax with
  | ⟨0, _⟩ => show win0_1.index t (0 : Fin 2) * 128 + 1 * a.val = a.val; rw [e2]; omega
  | ⟨1, _⟩ => show win0_1.index t (1 : Fin 2) * 128 + 1 * b.val = b.val; rw [e3]; omega

theorem bblk0_eq (c : Dev nD) (t : Fin cfg0.N) : bblk0 V c t = barr0 V c := by
  obtain ⟨-, -, -, -, e4, e5, -⟩ := idx0 t
  funext j
  obtain ⟨a, b, rfl⟩ : ∃ (a : Fin 1) (b : Fin 128), j = ix2 a b := ⟨j 0, j 1, eq_ix2 j⟩
  unfold bblk0 iblk0
  rw [View.read_apply]
  show V c main_v8 _ = V c main_v8 _
  congr 1
  funext ax
  apply Fin.ext
  match ax with
  | ⟨0, _⟩ => show win0_2.index t (0 : Fin 2) * 1 + 1 * a.val = a.val; rw [e4]; omega
  | ⟨1, _⟩ => show win0_2.index t (1 : Fin 2) * 128 + 1 * b.val = b.val; rw [e5]; omega

theorem point0 (c : Dev nD) (t : Fin cfg0.N) (y : Fin 4000) (q : Fin 128) (r : Fin 320000)
    (hr : r.val = t.val * 4000 + y.val) :
    k0_pay1 (F := Ideal) (xblk0 V c t) (wblk0 V c t) (bblk0 V c t) (ix2 y q)
      = Cert.Bridge.linA (F := Ideal) (xarr0 V c) (warr0 V c) (barr0 V c) (ix2 r q) := by
  rw [k0_pay1_apply, linA_apply, wblk0_eq, bblk0_eq]
  unfold linRow
  refine congrArg (· + _) (Finset.sum_congr rfl fun k _ => ?_)
  exact congrArg (· * _) (xblk0_apply V c t y k r hr)

theorem flushed0_eq (c : Dev nD) (t : Fin cfg0.N) :
    (dat0 (F := Ideal) V c).flushed 3 t
      = ((cfg0.win 3).blk t).view.read (Elt Ideal) (Cert.Bridge.linA (F := Ideal) (xarr0 V c) (warr0 V c) (barr0 V c)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S128x128) hz0,
    View.ld_unit_zero (S := S1x128) hz0]
  obtain ⟨-, -, -, -, -, -, e6, e7, hlt⟩ := idx0 t
  funext j
  obtain ⟨y, q, rfl⟩ : ∃ (y : Fin 4000) (q : Fin 128), j = ix2 y q := ⟨j 0, j 1, eq_ix2 j⟩
  have hr : t.val * 4000 + y.val < 320000 := by have := y.isLt; omega
  rw [View.read_apply]
  show k0_pay1 (F := Ideal) (xblk0 V c t) (wblk0 V c t) (bblk0 V c t) (ix2 y q)
      = Cert.Bridge.linA (F := Ideal) (xarr0 V c) (warr0 V c) (barr0 V c) (((cfg0.win 3).blk t).view.emb (ix2 y q))
  refine (point0 V c t y q ⟨t.val * 4000 + y.val, hr⟩ rfl).trans (congrArg _ ?_)
  funext a
  apply Fin.ext
  match a with
  | ⟨0, _⟩ => show t.val * 4000 + y.val = win0_3.index t (0 : Fin 2) * 4000 + 1 * y.val; rw [e6]; omega
  | ⟨1, _⟩ => show q.val = win0_3.index t (1 : Fin 2) * 128 + 1 * q.val; rw [e7]; omega

theorem mem_blk0 (t : Fin cfg0.N) (i : S320000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v9).slice (win0_3.rect t)).set ↔ _
  rw [View.set_slice_whole, Rect.mem_set_unit]
  exact Iff.rfl

theorem cover0 (i : S320000x128.Idx) : ∃ t : Fin cfg0.N, (cfg0.win 3).flush t = true ∧ i ∈ ((cfg0.win 3).blk t).view.set := by
  have hi0 : (i 0).val < 320000 := (i 0).isLt
  have hi1 : (i 1).val < 128 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, e6, e7, -⟩ := idx0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e6, ht]; omega
  | ⟨1, _⟩ => show win0_3.index t (1 : Fin 2) * 128 ≤ (i 1).val ∧ (i 1).val < win0_3.index t (1 : Fin 2) * 128 + 128; rw [e7]; omega

end Region

end Lin

theorem region0_array (V : (c : Dev nD) → (b : Ref sig .tc) → Buf (Elt Ideal) ((c : Thread nD τ).loc b)) (c : Dev nD) :
    (dat0 (F := Ideal) V c).arrAt 3 cfg0.N = Cert.Bridge.linA (F := Ideal) (V c main_arg2) (V c main_arg11) (V c main_v8) :=
  (dat0 (F := Ideal) V c).arrAt_eq_of_cover 3 _ (fun t _ => Lin.flushed0_eq V c t) Lin.cover0

end Cert.KernelIdeal.RegionValue

end
-- ==== Proof.Reg0.lean ====
/- Across region 0: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionLin

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg0 (c : Dev nD) (h : FactsW1 m ρ c) : FactsW2 m ρ c where
  v1 := (W2_of_ne m ρ c main_v1 (by decide)).trans h.v1
  v3 := (W2_of_ne m ρ c main_v3 (by decide)).trans h.v3
  v5 := (W2_of_ne m ρ c main_v5 (by decide)).trans h.v5
  v7 := (W2_of_ne m ρ c main_v7 (by decide)).trans h.v7
  v9 := by
    rw [show W2 m ρ c (Proc.devRef .tc main_v9) = (dat0 (V1 m ρ) c).arrAt 3 cfg0.N from W2_arr m ρ c 3,
      Cert.KernelIdeal.RegionValue.region0_array (V1 m ρ) c]
    show Cert.Bridge.linA (F := Ideal) (W1 m ρ c (Proc.devRef .tc main_arg2)) (W1 m ρ c (Proc.devRef .tc main_arg11)) (W1 m ρ c (Proc.devRef .tc main_v8)) = _
    rw [(h.args main_arg2 (by decide)), (h.args main_arg11 (by decide)), h.v8]
    rfl
  args := fun r hr => (W2_of_ne m ρ c r (by revert r; decide)).trans (h.args r (by revert r; decide))

end Cert.KernelIdeal.Stages

end
-- ==== Proof.RegionMlpB.lean ====
/- The two-layer perceptron max (x · w₁ + b₁) 0 · w₂ + b₂ computed in row blocks: each result row depends on the same row of x only. -/
import proofs.«165269_j27702539059574_1_alg».proof.Proof.FrameKI
import proofs.«165269_j27702539059574_1_alg».proof.Proof.Chains
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx

namespace MlpB

def mlpRow {K H N : Nat} (xr : Fin K → EReal) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (q : Fin N) : EReal :=
  (∑ k : Fin H, max ((∑ j : Fin K, xr j * w1 (ix2 j k)) + b1 (ix2 0 k)) 0 * w2 (ix2 k q)) + b2 (ix2 0 q)

theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant _ .f32 0x00000000#32) (ix2 a b) = ∑ c : Fin k, A (ix2 a c) * B (ix2 c b) := by
  rw [matmul_zero_eq_dotGeneral]
  exact StackMember.dotGeneral_plain_apply prec A B a b

theorem biasRow_apply {m n : Nat} {α : Type} (b : (⟨2, ![1, n]⟩ : Shape).Idx → α)
    (h : (⟨2, ![1, n]⟩ : Shape).Broadcasts ⟨2, ![m, n]⟩) (r : Fin m) (q : Fin n) :
    broadcastTo ⟨2, ![m, n]⟩ b h (ix2 r q) = b (ix2 0 q) :=
  broadcastTo_apply b h (ix2 r q) (ix2 0 q) (by
    intro a
    match a with
    | ⟨0, _⟩ => rfl
    | ⟨1, _⟩ =>
      show q.val = if n = 1 then 0 else q.val
      split
      · have := q.isLt; omega
      · rfl)

theorem biasRowHost_apply {m n : Nat} {α : Type} (b : (⟨2, ![1, n]⟩ : Shape).Idx → α)
    (h : (⟨2, ![1, n]⟩ : Shape).BroadcastsInDim ⟨2, ![m, n]⟩ ![0, 1]) (r : Fin m) (q : Fin n) :
    broadcastInDim ⟨2, ![m, n]⟩ ![0, 1] h b (ix2 r q) = b (ix2 0 q) :=
  broadcastInDim_apply ![0, 1] h b (ix2 r q) (ix2 0 q) (by
    intro a
    match a with
    | ⟨0, _⟩ => rfl
    | ⟨1, _⟩ =>
      show q.val = if n = 1 then 0 else q.val
      split
      · have := q.isLt; omega
      · rfl)

theorem splat_apply {s : Shape} {α : Type} (v : (⟨0, ![]⟩ : Shape).Idx → α) (h : (⟨0, ![]⟩ : Shape).BroadcastsInDim s ![])
    (j : s.Idx) : broadcastInDim s ![] h v j = v ix0 :=
  broadcastInDim_apply ![] h v j ix0 (fun a => a.elim0)

theorem zero_f32 : (FloatOps.ofBits .f32 0#32 : Ideal .f32) = 0 := Ideal.ofBits_zero_f32

theorem dotK_eq : dot_S4000x128_S128x128_S4000x128_1_0_0_1_n_n = DotDims.plain 4000 128 128 := rfl

theorem dotR_eq : Cert.ReferenceIdeal.dot_S20000x128_S128x128_S20000x128_1_0_0_1_n_n = DotDims.plain 20000 128 128 := rfl

theorem chain_apply (x : FVec Ideal Cert.ReferenceIdeal.S20000x128 .f32) (w1 : FVec Ideal Cert.ReferenceIdeal.S128x128 .f32)
    (b1 : FVec Ideal Cert.ReferenceIdeal.S1x128 .f32) (w2 : FVec Ideal Cert.ReferenceIdeal.S128x128 .f32)
    (b2 : FVec Ideal Cert.ReferenceIdeal.S1x128 .f32) (r : Fin 20000) (q : Fin 128) :
    Cert.Bridge.mlpB (F := Ideal) x w1 b1 w2 b2 (ix2 r q) = mlpRow (fun j => x (ix2 r j)) w1 b1 w2 b2 q := by
  unfold Cert.Bridge.mlpB mlpRow
  rw [dotR_eq, addf_apply, StackMember.dotGeneral_plain_apply, biasRowHost_apply]
  congr 1
  refine Finset.sum_congr rfl fun k _ => ?_
  rw [maximumf_apply, addf_apply, StackMember.dotGeneral_plain_apply, biasRowHost_apply, splat_apply, constant_apply,
    Ideal.ofBits_zero_f32]

end MlpB

namespace MlpB.Region1

variable (V : (c : Dev nD) → (b : Ref sig .tc) → Buf (Elt Ideal) ((c : Thread nD τ).loc b))

theorem pay_apply (X : Vec Ideal S4000x128 .f32) (w1 : Vec Ideal S128x128 .f32) (b1 : Vec Ideal S1x128 .f32)
    (w2 : Vec Ideal S128x128 .f32) (b2 : Vec Ideal S1x128 .f32) (r : Fin 4000) (q : Fin 128) :
    k1_pay1 X w1 b1 w2 b2 (ix2 r q) = mlpRow (fun j => X (ix2 r j)) w1 b1 w2 b2 q := by
  unfold k1_pay1
  simp only [shapeCast_self, dotK_eq, addf_apply, matmul_plain_zero_apply, truncf_apply, maximumf_apply, biasRow_apply,
    broadcast_apply]
  unfold mlpRow
  rw [zero_f32]

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (r : Fin 4000) : 4000 * t.val + r.val < 20000 := by
  have h : t.val < 5 := lt_of_lt_of_eq t.isLt N_1
  have := r.isLt
  omega

theorem iblk_x (c : Dev nD) (t : Fin cfg1.N) (r : Fin 4000) (j : Fin 128) :
    (iblk1 V c 0 t : Vec Ideal S4000x128 .f32) (ix2 r j)
      = (V c main_v30 : Vec Ideal S20000x128 .f32) (ix2 ⟨4000 * t.val + r.val, row_lt t r⟩ j) := by
  obtain ⟨e0, e1, -⟩ := idx_facts t
  unfold iblk1
  rw [View.read_apply]
  show V c main_v30 _ = V c main_v30 _
  congr 1
  funext a
  apply Fin.ext
  match a with
  | ⟨0, _⟩ => show win1_0.index t 0 * 4000 + 1 * r.val = 4000 * t.val + r.val; rw [e0]; omega
  | ⟨1, _⟩ => show win1_0.index t 1 * 128 + 1 * j.val = j.val; rw [e1]; omega

theorem iblk_w1 (c : Dev nD) (t : Fin cfg1.N) :
    (iblk1 V c 1 t : Vec Ideal S128x128 .f32) = (V c main_v32 : Vec Ideal S128x128 .f32) := by
  obtain ⟨-, -, e0, e1, -⟩ := idx_facts t
  funext y
  unfold iblk1
  rw [View.read_apply]
  show V c main_v32 _ = V c main_v32 y
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega

theorem iblk_b1 (c : Dev nD) (t : Fin cfg1.N) :
    (iblk1 V c 2 t : Vec Ideal S1x128 .f32) = (V c main_v39 : Vec Ideal S1x128 .f32) := by
  obtain ⟨-, -, -, -, e0, e1, -⟩ := idx_facts t
  funext y
  unfold iblk1
  rw [View.read_apply]
  show V c main_v39 _ = V c main_v39 y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

theorem iblk_w2 (c : Dev nD) (t : Fin cfg1.N) :
    (iblk1 V c 3 t : Vec Ideal S128x128 .f32) = (V c main_v36 : Vec Ideal S128x128 .f32) := by
  obtain ⟨-, -, -, -, -, -, e0, e1, -⟩ := idx_facts t
  funext y
  unfold iblk1
  rw [View.read_apply]
  show V c main_v36 _ = V c main_v36 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem iblk_b2 (c : Dev nD) (t : Fin cfg1.N) :
    (iblk1 V c 4 t : Vec Ideal S1x128 .f32) = (V c main_v40 : Vec Ideal S1x128 .f32) := by
  obtain ⟨-, -, -, -, -, -, -, -, e0, e1, -⟩ := idx_facts t
  funext y
  unfold iblk1
  rw [View.read_apply]
  show V c main_v40 _ = V c main_v40 y
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

theorem out_emb (t : Fin cfg1.N) (r : Fin 4000) (q : Fin 128) :
    (((cfg1.win 5).blk t).view.emb (ix2 r q) : S20000x128.Idx) = ix2 ⟨4000 * t.val + r.val, row_lt t r⟩ q := by
  obtain ⟨-, -, -, -, -, -, -, -, -, -, e0, e1⟩ := idx_facts t
  funext a
  apply Fin.ext
  match a with
  | ⟨0, _⟩ => show win1_5.index t 0 * 4000 + 1 * r.val = 4000 * t.val + r.val; rw [e0]; omega
  | ⟨1, _⟩ => show win1_5.index t 1 * 128 + 1 * q.val = q.val; rw [e1]; omega

theorem flushed_eq (c : Dev nD) (t : Fin cfg1.N) :
    (dat1 (F := Ideal) V c).flushed 5 t = ((cfg1.win 5).blk t).view.read (Elt Ideal)
      (Cert.Bridge.mlpB (F := Ideal) (V c main_v30) (V c main_v32) (V c main_v39) (V c main_v36) (V c main_v40)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  rw [iblk_w1 V c t, iblk_b1 V c t, iblk_w2 V c t, iblk_b2 V c t]
  refine funext fun (y : S4000x128.Idx) => ?_
  obtain ⟨r, q, rfl⟩ : ∃ (r : Fin 4000) (q : Fin 128), y = ix2 r q := ⟨y 0, y 1, eq_ix2 y⟩
  show k1_pay1 (iblk1 V c 0 t) _ _ _ _ (ix2 r q) = Cert.Bridge.mlpB (F := Ideal) _ _ _ _ _ (((cfg1.win 5).blk t).view.emb (ix2 r q))
  rw [pay_apply, out_emb t r q, chain_apply]
  congr 1
  funext j
  exact iblk_x V c t r j

theorem mem_blk (t : Fin cfg1.N) (i : S20000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v41).slice (win1_5.rect t)).set ↔ _
  rw [View.set_slice_whole, Rect.mem_set_unit]
  exact Iff.rfl

theorem cover (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  have ht : (i 0).val / 4000 < cfg1.N := lt_of_lt_of_eq (by omega : (i 0).val / 4000 < 5) N_1.symm
  obtain ⟨-, -, -, -, -, -, -, -, -, -, e0, e1⟩ := idx_facts ⟨(i 0).val / 4000, ht⟩
  refine ⟨⟨(i 0).val / 4000, ht⟩, flush1_5 _, ?_⟩
  rw [mem_blk]
  intro a
  match a with
  | ⟨0, _⟩ =>
    show win1_5.index ⟨(i 0).val / 4000, ht⟩ 0 * 4000 ≤ (i 0).val ∧ (i 0).val < win1_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ 1 * 128 ≤ (i 1).val ∧ (i 1).val < win1_5.index ⟨(i 0).val / 4000, ht⟩ 1 * 128 + 128
    rw [e1]; omega

end MlpB.Region1

theorem region1_array (V : (c : Dev nD) → (b : Ref sig .tc) → Buf (Elt Ideal) ((c : Thread nD τ).loc b)) (c : Dev nD) :
    (dat1 (F := Ideal) V c).arrAt 5 cfg1.N
      = Cert.Bridge.mlpB (F := Ideal) (V c main_v30) (V c main_v32) (V c main_v39) (V c main_v36) (V c main_v40) :=
  (dat1 V c).arrAt_eq_of_cover 5 _ (fun t _ => MlpB.Region1.flushed_eq V c t) MlpB.Region1.cover

end Cert.KernelIdeal.RegionValue

end
-- ==== Proof.Reg1.lean ====
/- Across region 1: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpB

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg1 (c : Dev nD) (h : FactsW5 m ρ c) : FactsW6 m ρ c where
  v1 := (W6_of_ne m ρ c main_v1 (by decide)).trans h.v1
  v3 := (W6_of_ne m ρ c main_v3 (by decide)).trans h.v3
  v5 := (W6_of_ne m ρ c main_v5 (by decide)).trans h.v5
  v7 := (W6_of_ne m ρ c main_v7 (by decide)).trans h.v7
  v9 := (W6_of_ne m ρ c main_v9 (by decide)).trans h.v9
  v41 := by
    rw [show W6 m ρ c (Proc.devRef .tc main_v41) = (dat1 (V5 m ρ) c).arrAt 5 cfg1.N from W6_arr m ρ c 5,
      Cert.KernelIdeal.RegionValue.region1_array (V5 m ρ) c]
    show Cert.Bridge.mlpB (F := Ideal) (W5 m ρ c (Proc.devRef .tc main_v30)) (W5 m ρ c (Proc.devRef .tc main_v32)) (W5 m ρ c (Proc.devRef .tc main_v39)) (W5 m ρ c (Proc.devRef .tc main_v36)) (W5 m ρ c (Proc.devRef .tc main_v40)) = _
    rw [h.v30, h.v32, h.v39, h.v36, h.v40]
    rfl
  args := fun r hr => (W6_of_ne m ρ c r (by revert r; decide)).trans (h.args r (by revert r; decide))

end Cert.KernelIdeal.Stages

end
-- ==== Proof.RegionMlpC.lean ====
/- The two-layer perceptron max (x · w₁ + b₁) 0 · w₂ + b₂ on a concatenated input, computed in row blocks: each result row depends on the same rows of the inputs only. -/
import proofs.«165269_j27702539059574_1_alg».proof.Proof.FrameKI
import proofs.«165269_j27702539059574_1_alg».proof.Proof.Chains
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx
open scoped BigOperators

namespace MlpC

theorem plain_sum {M K N : ℕ} (lhs : (⟨2, ![M, K]⟩ : Shape).Idx → EReal) (rhs : (⟨2, ![K, N]⟩ : Shape).Idx → EReal)
    (r : Fin M) (q : Fin N) :
    (∑ k : (DotDims.plain M K N).contr.Idx,
        lhs ((DotDims.plain M K N).lhsIdx (ix2 r q) k) * rhs ((DotDims.plain M K N).rhsIdx (ix2 r q) k))
      = ∑ k : Fin K, lhs (ix2 r k) * rhs (ix2 k q) := by
  rw [← Equiv.sum_comp (contrEquiv1 (DotDims.plain M K N) K rfl rfl).symm]
  refine Finset.sum_congr rfl fun k _ => ?_
  have hl : (DotDims.plain M K N).lhsIdx (ix2 r q) ((contrEquiv1 (DotDims.plain M K N) K rfl rfl).symm k) = ix2 r k := by
    funext a; apply Fin.ext
    match a with
    | ⟨0, _⟩ => rfl
    | ⟨1, _⟩ => rfl
  have hr : (DotDims.plain M K N).rhsIdx (ix2 r q) ((contrEquiv1 (DotDims.plain M K N) K rfl rfl).symm k) = ix2 k q := by
    funext a; apply Fin.ext
    match a with
    | ⟨0, _⟩ => rfl
    | ⟨1, _⟩ => rfl
  rw [hl, hr]

theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (q : Fin N) :
    matmul d prec lhs rhs (constant (F := Ideal) ⟨2, ![M, N]⟩ .f32 0x00000000#32) (ix2 r q)
      = ∑ k : Fin K, lhs (ix2 r k) * rhs (ix2 k q) := by
  subst hd
  show FloatOps.matmul _ _ _ _ _ _ = _
  rw [Ideal.matmul_constant_zero_apply]
  exact plain_sum lhs rhs r q

theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (q : Fin N) :
    Host.dotGeneral d prec lhs rhs (ix2 r q) = ∑ k : Fin K, lhs (ix2 r k) * rhs (ix2 k q) := by
  subst hd
  show FloatOps.dotGeneral _ _ _ _ _ _ = _
  rw [Ideal.dotGeneral_apply]
  exact plain_sum lhs rhs r q

def rowfn {K H N : ℕ} (xr : Fin K → EReal) (w1 : (⟨2, ![K, H]⟩ : Shape).Idx → EReal) (b1 : (⟨2, ![1, H]⟩ : Shape).Idx → EReal)
    (w2 : (⟨2, ![H, N]⟩ : Shape).Idx → EReal) (b2 : (⟨2, ![1, N]⟩ : Shape).Idx → EReal) (q : Fin N) : EReal :=
  (∑ k : Fin H, max ((∑ j : Fin K, xr j * w1 (ix2 j k)) + b1 (ix2 (0 : Fin 1) k)) (Ideal.ofBits .f32 0x00000000#32) * w2 (ix2 k q))
    + b2 (ix2 (0 : Fin 1) q)

theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

theorem broadcastInDim_scalar_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 fun a => a.elim0

theorem hz : (![0, 0] : Fin 2 → Nat) = fun _ => 0 := funext fun a => by fin_cases a <;> rfl

namespace R2

theorem k2_pay1_apply (X : FVec Ideal S4000x256 .f32) (w1 : FVec Ideal S256x128 .f32) (b1 : FVec Ideal S1x128 .f32)
    (w2 : FVec Ideal S128x2 .f32) (b2 : FVec Ideal S1x2 .f32) (r : Fin 4000) (q : Fin 2) :
    k2_pay1 (F := Ideal) X w1 b1 w2 b2 (ix2 r q) = rowfn (fun j => X (ix2 r j)) w1 b1 w2 b2 q := by
  unfold k2_pay1
  simp only [shapeCast_self]
  rw [addf_apply, matmul_plain_apply dot_S4000x128_S128x2_S4000x2_1_0_0_1_n_n rfl, broadcastTo_1b_ab_apply]
  unfold rowfn
  refine congrArg₂ (· + ·) (Finset.sum_congr rfl fun k _ => ?_) rfl
  rw [truncf_apply, truncf_apply, maximumf_apply, addf_apply,
    matmul_plain_apply dot_S4000x256_S256x128_S4000x128_1_0_0_1_n_n rfl, broadcastTo_1b_ab_apply, broadcast_apply]
  refine congrArg₂ (· * ·) (congrArg₂ max (congrArg₂ (· + ·) (Finset.sum_congr rfl fun j _ => ?_) rfl) rfl) rfl
  rw [truncf_apply, truncf_apply]

theorem mlpC_apply (x : FVec Ideal S200000x256 .f32) (w1 : FVec Ideal S256x128 .f32) (b1 : FVec Ideal S1x128 .f32)
    (w2 : FVec Ideal S128x2 .f32) (b2 : FVec Ideal S1x2 .f32) (r : Fin 200000) (q : Fin 2) :
    Cert.Bridge.mlpC (F := Ideal) x w1 b1 w2 b2 (ix2 r q) = rowfn (fun j => x (ix2 r j)) w1 b1 w2 b2 q := by
  unfold Cert.Bridge.mlpC
  rw [addf_apply, dotGeneral_plain_apply Cert.ReferenceIdeal.dot_S200000x128_S128x2_S200000x2_1_0_0_1_n_n rfl,
    broadcastInDim_1b_ab_apply]
  unfold rowfn
  refine congrArg₂ (· + ·) (Finset.sum_congr rfl fun k _ => ?_) rfl
  rw [maximumf_apply, addf_apply, dotGeneral_plain_apply Cert.ReferenceIdeal.dot_S200000x256_S256x128_S200000x128_1_0_0_1_n_n rfl,
    broadcastInDim_1b_ab_apply, broadcastInDim_scalar_apply, constant_apply]

theorem pay_eq_chain (x : FVec Ideal S200000x256 .f32) (w1 : FVec Ideal S256x128 .f32) (b1 : FVec Ideal S1x128 .f32)
    (w2 : FVec Ideal S128x2 .f32) (b2 : FVec Ideal S1x2 .f32) (X : FVec Ideal S4000x256 .f32)
    (W1 : FVec Ideal S256x128 .f32) (B1 : FVec Ideal S1x128 .f32) (W2 : FVec Ideal S128x2 .f32) (B2 : FVec Ideal S1x2 .f32)
    (hW1 : W1 = w1) (hB1 : B1 = b1) (hW2 : W2 = w2) (hB2 : B2 = b2) (tv : ℕ)
    (hX : ∀ (p : Fin 4000) (j : Fin 256) (r : Fin 200000), r.val = tv * 4000 + p.val → X (ix2 p j) = x (ix2 r j))
    (y : S4000x2.Idx) (i : S200000x2.Idx) (h0 : (i 0).val = tv * 4000 + (y 0).val) (h1 : (i 1).val = (y 1).val) :
    k2_pay1 (F := Ideal) X W1 B1 W2 B2 y = Cert.Bridge.mlpC (F := Ideal) x w1 b1 w2 b2 i := by
  subst hW1 hB1 hW2 hB2
  obtain ⟨p, q, rfl⟩ : ∃ (p : Fin 4000) (q : Fin 2), y = ix2 p q := ⟨y 0, y 1, eq_ix2 y⟩
  obtain ⟨r, q', rfl⟩ : ∃ (r : Fin 200000) (q' : Fin 2), i = ix2 r q' := ⟨i 0, i 1, eq_ix2 i⟩
  have h0' : r.val = tv * 4000 + p.val := h0
  obtain rfl : q' = q := Fin.ext h1
  rw [k2_pay1_apply, mlpC_apply]
  exact congrArg (fun xr => rowfn xr W1 B1 W2 B2 q') (funext fun j => hX p j r h0')

section Region

variable (V : (c : Dev nD) → (b : Ref sig .tc) → Buf (Elt Ideal) ((c : Thread nD τ).loc b))

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem iblk_x (c : Dev nD) (t : Fin cfg2.N) (p : Fin 4000) (j : Fin 256) (r : Fin 200000) (hr : r.val = t.val * 4000 + p.val) :
    (iblk2 (F := Ideal) V c 0 t : FVec Ideal S4000x256 .f32) (ix2 p j) = (V c main_v58 : FVec Ideal S200000x256 .f32) (ix2 r j) := by
  obtain ⟨e0, e1, -⟩ := idx_facts t
  unfold iblk2
  rw [View.read_apply]
  show (V c main_v58 : FVec Ideal S200000x256 .f32) _ = _
  refine congrArg _ (funext fun a => Fin.ext ?_)
  match a with
  | ⟨0, _⟩ => show win2_0.index t (0 : Fin 2) * 4000 + 1 * p.val = r.val; rw [e0, hr]; omega
  | ⟨1, _⟩ => show win2_0.index t (1 : Fin 2) * 256 + 1 * j.val = j.val; rw [e1]; omega

theorem iblk_w1 (c : Dev nD) (t : Fin cfg2.N) :
    (iblk2 (F := Ideal) V c 1 t : FVec Ideal S256x128 .f32) = (V c main_v60 : FVec Ideal S256x128 .f32) := by
  obtain ⟨-, -, e0, e1, -⟩ := idx_facts t
  funext y
  unfold iblk2
  rw [View.read_apply]
  show (V c main_v60 : FVec Ideal S256x128 .f32) _ = _
  refine congrArg _ (funext fun a => Fin.ext ?_)
  match a with
  | ⟨0, _⟩ => show win2_1.index t (0 : Fin 2) * 256 + 1 * (y 0).val = (y 0).val; rw [e0]; omega
  | ⟨1, _⟩ => show win2_1.index t (1 : Fin 2) * 128 + 1 * (y 1).val = (y 1).val; rw [e1]; omega

theorem iblk_b1 (c : Dev nD) (t : Fin cfg2.N) :
    (iblk2 (F := Ideal) V c 2 t : FVec Ideal S1x128 .f32) = (V c main_v67 : FVec Ideal S1x128 .f32) := by
  obtain ⟨-, -, -, -, e0, e1, -⟩ := idx_facts t
  funext y
  unfold iblk2
  rw [View.read_apply]
  show (V c main_v67 : FVec Ideal S1x128 .f32) _ = _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

theorem iblk_w2 (c : Dev nD) (t : Fin cfg2.N) :
    (iblk2 (F := Ideal) V c 3 t : FVec Ideal S128x2 .f32) = (V c main_v64 : FVec Ideal S128x2 .f32) := by
  obtain ⟨-, -, -, -, -, -, e0, e1, -⟩ := idx_facts t
  funext y
  unfold iblk2
  rw [View.read_apply]
  show (V c main_v64 : FVec Ideal S128x2 .f32) _ = _
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 2 + 1 * (y 1).val = (y 1).val; rw [e1]; omega

theorem iblk_b2 (c : Dev nD) (t : Fin cfg2.N) :
    (iblk2 (F := Ideal) V c 4 t : FVec Ideal S1x2 .f32) = (V c main_v68 : FVec Ideal S1x2 .f32) := by
  obtain ⟨-, -, -, -, -, -, -, -, e0, e1, -⟩ := idx_facts t
  funext y
  unfold iblk2
  rw [View.read_apply]
  show (V c main_v68 : FVec Ideal S1x2 .f32) _ = _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 2 + 1 * (y 1).val = (y 1).val; rw [e1]; omega

theorem flushed_eq (c : Dev nD) (t : Fin cfg2.N) :
    (dat2 (F := Ideal) V c).flushed 5 t
      = ((cfg2.win 5).blk t).view.read (Elt Ideal)
          (Cert.Bridge.mlpC (F := Ideal) (V c main_v58) (V c main_v60) (V c main_v67) (V c main_v64) (V c main_v68)) := by
  show (cfg2.win 5).cut (grid2.coords t) ((dat2 (F := Ideal) V c).after 5 t) = _
  rw [after2_5]
  unfold out2_5
  rw [View.canon_unit_zero hz]
  simp only [View.ld_unit_zero (S := S4000x256) hz, View.ld_unit_zero (S := S256x128) hz, View.ld_unit_zero (S := S1x128) hz,
    View.ld_unit_zero (S := S128x2) hz, View.ld_unit_zero (S := S1x2) hz]
  obtain ⟨-, -, -, -, -, -, -, -, -, -, e0, e1⟩ := idx_facts t
  funext y
  show k2_pay1 (F := Ideal) (iblk2 V c 0 t) (iblk2 V c 1 t) (iblk2 V c 2 t) (iblk2 V c 3 t) (iblk2 V c 4 t) y
      = Cert.Bridge.mlpC (F := Ideal) (V c main_v58) (V c main_v60) (V c main_v67) (V c main_v64) (V c main_v68)
          (((cfg2.win 5).blk t).view.emb y)
  refine pay_eq_chain _ _ _ _ _ (iblk2 V c 0 t) _ _ _ _ (iblk_w1 V c t) (iblk_b1 V c t) (iblk_w2 V c t) (iblk_b2 V c t) t.val
    (fun p j r hr => iblk_x V c t p j r hr) y _ ?_ ?_
  · show win2_5.index t (0 : Fin 2) * 4000 + 1 * (y 0).val = t.val * 4000 + (y 0).val; rw [e0]; omega
  · show win2_5.index t (1 : Fin 2) * 2 + 1 * (y 1).val = (y 1).val; rw [e1]; omega

theorem mem_blk (t : Fin cfg2.N) (i : S200000x2.Idx) :
    i ∈ ((cfg2.win 5).blk t).view.set ↔ ∀ a : Fin 2, win2_5.index t a * S4000x2.size a ≤ (i a).val
      ∧ (i a).val < win2_5.index t a * S4000x2.size a + S4000x2.size a := by
  show i ∈ ((View.whole main_v69).slice (win2_5.rect t)).set ↔ _
  rw [View.set_slice_whole, Rect.mem_set_unit]
  exact Iff.rfl

theorem cover (i : S200000x2.Idx) : ∃ t : Fin cfg2.N, (cfg2.win 5).flush t = true ∧ i ∈ ((cfg2.win 5).blk t).view.set := by
  have hi0 : (i 0).val < 200000 := (i 0).isLt
  have hi1 : (i 1).val < 2 := (i 1).isLt
  have hN : cfg2.N = 50 := N_2
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 4000 ≤ (i 0).val ∧ (i 0).val < win2_5.index t (0 : Fin 2) * 4000 + 4000
    rw [e0, ht]; omega
  | ⟨1, _⟩ =>
    show win2_5.index t (1 : Fin 2) * 2 ≤ (i 1).val ∧ (i 1).val < win2_5.index t (1 : Fin 2) * 2 + 2
    rw [e1]; omega

theorem array (c : Dev nD) :
    (dat2 (F := Ideal) V c).arrAt 5 cfg2.N
      = Cert.Bridge.mlpC (F := Ideal) (V c main_v58) (V c main_v60) (V c main_v67) (V c main_v64) (V c main_v68) :=
  (dat2 (F := Ideal) V c).arrAt_eq_of_cover 5 _ (fun t _ => flushed_eq V c t) (fun i => cover i)

end Region

end R2

end MlpC

theorem region2_array (V : (c : Dev nD) → (b : Ref sig .tc) → Buf (Elt Ideal) ((c : Thread nD τ).loc b)) (c : Dev nD) :
    (dat2 (F := Ideal) V c).arrAt 5 cfg2.N
      = Cert.Bridge.mlpC (F := Ideal) (V c main_v58) (V c main_v60) (V c main_v67) (V c main_v64) (V c main_v68) :=
  MlpC.R2.array V c

end Cert.KernelIdeal.RegionValue

end
-- ==== Proof.Reg2.lean ====
/- Across region 2: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpC

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg2 (c : Dev nD) (h : FactsW8 m ρ c) : FactsW9 m ρ c where
  v1 := (W9_of_ne m ρ c main_v1 (by decide)).trans h.v1
  v3 := (W9_of_ne m ρ c main_v3 (by decide)).trans h.v3
  v5 := (W9_of_ne m ρ c main_v5 (by decide)).trans h.v5
  v7 := (W9_of_ne m ρ c main_v7 (by decide)).trans h.v7
  v9 := (W9_of_ne m ρ c main_v9 (by decide)).trans h.v9
  v43 := (W9_of_ne m ρ c main_v43 (by decide)).trans h.v43
  v50 := (W9_of_ne m ρ c main_v50 (by decide)).trans h.v50
  v69 := by
    rw [show W9 m ρ c (Proc.devRef .tc main_v69) = (dat2 (V8 m ρ) c).arrAt 5 cfg2.N from W9_arr m ρ c 5,
      Cert.KernelIdeal.RegionValue.region2_array (V8 m ρ) c]
    show Cert.Bridge.mlpC (F := Ideal) (W8 m ρ c (Proc.devRef .tc main_v58)) (W8 m ρ c (Proc.devRef .tc main_v60)) (W8 m ρ c (Proc.devRef .tc main_v67)) (W8 m ρ c (Proc.devRef .tc main_v64)) (W8 m ρ c (Proc.devRef .tc main_v68)) = _
    rw [h.v58, h.v60, h.v67, h.v64, h.v68]
    rfl
  args := fun r hr => (W9_of_ne m ρ c r (by revert r; decide)).trans (h.args r (by revert r; decide))

end Cert.KernelIdeal.Stages

end
-- ==== Proof.RegionMlpD.lean ====
/- GENERATED by `bun scratch/mk_siblings.js <this unit's directory> 165269_j27702539059574_1_alg` from proof/Proof/RegionMlpC.lean (region 2, hand-written): its region part with the region's
   number (2 → 3), its operand and result buffers, the row count, the number of blocks and the reference's dimension records substituted; the region-free lemmas are imported from that module.
   The value of region 3: the same dense layer on other operands, block by block. -/
import proofs.«165269_j27702539059574_1_alg».proof.Proof.RegionMlpC
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx
open scoped BigOperators

namespace MlpC

namespace R3

/-- The kernel body's payload at entry `(r, q)` of its block: the row function of row `r` of the block of `x`
    (the bf16 casts are the identity at the ideal values; the bias row is broadcast down the rows). -/
theorem k2_pay1_apply (X : FVec Ideal S4000x256 .f32) (w1 : FVec Ideal S256x128 .f32) (b1 : FVec Ideal S1x128 .f32)
    (w2 : FVec Ideal S128x2 .f32) (b2 : FVec Ideal S1x2 .f32) (r : Fin 4000) (q : Fin 2) :
    k3_pay1 (F := Ideal) X w1 b1 w2 b2 (ix2 r q) = rowfn (fun j => X (ix2 r j)) w1 b1 w2 b2 q := by
  unfold k3_pay1
  simp only [shapeCast_self]
  rw [addf_apply, matmul_plain_apply dot_S4000x128_S128x2_S4000x2_1_0_0_1_n_n rfl, broadcastTo_1b_ab_apply]
  unfold rowfn
  refine congrArg₂ (· + ·) (Finset.sum_congr rfl fun k _ => ?_) rfl
  rw [truncf_apply, truncf_apply, maximumf_apply, addf_apply,
    matmul_plain_apply dot_S4000x256_S256x128_S4000x128_1_0_0_1_n_n rfl, broadcastTo_1b_ab_apply, broadcast_apply]
  refine congrArg₂ (· * ·) (congrArg₂ max (congrArg₂ (· + ·) (Finset.sum_congr rfl fun j _ => ?_) rfl) rfl) rfl
  rw [truncf_apply, truncf_apply]

/-! ## The payload and the chain at an index -/

/-- The reference's two-layer perceptron at entry `(r, q)`: the row function of row `r` of `x`. -/
theorem mlpC_apply (x : FVec Ideal S320000x256 .f32) (w1 : FVec Ideal S256x128 .f32) (b1 : FVec Ideal S1x128 .f32)
    (w2 : FVec Ideal S128x2 .f32) (b2 : FVec Ideal S1x2 .f32) (r : Fin 320000) (q : Fin 2) :
    Cert.Bridge.mlpD (F := Ideal) x w1 b1 w2 b2 (ix2 r q) = rowfn (fun j => x (ix2 r j)) w1 b1 w2 b2 q := by
  unfold Cert.Bridge.mlpD
  rw [addf_apply, dotGeneral_plain_apply Cert.ReferenceIdeal.dot_S320000x128_S128x2_S320000x2_1_0_0_1_n_n rfl,
    broadcastInDim_1b_ab_apply]
  unfold rowfn
  refine congrArg₂ (· + ·) (Finset.sum_congr rfl fun k _ => ?_) rfl
  rw [maximumf_apply, addf_apply, dotGeneral_plain_apply Cert.ReferenceIdeal.dot_S320000x256_S256x128_S320000x128_1_0_0_1_n_n rfl,
    broadcastInDim_1b_ab_apply, broadcastInDim_scalar_apply, constant_apply]

/-- So the payload of a block whose row `p` is row `r` of `x` is, on that row, the chain of `x` on row `r`. -/
theorem pay_eq_chain (x : FVec Ideal S320000x256 .f32) (w1 : FVec Ideal S256x128 .f32) (b1 : FVec Ideal S1x128 .f32)
    (w2 : FVec Ideal S128x2 .f32) (b2 : FVec Ideal S1x2 .f32) (X : FVec Ideal S4000x256 .f32)
    (W1 : FVec Ideal S256x128 .f32) (B1 : FVec Ideal S1x128 .f32) (W2 : FVec Ideal S128x2 .f32) (B2 : FVec Ideal S1x2 .f32)
    (hW1 : W1 = w1) (hB1 : B1 = b1) (hW2 : W2 = w2) (hB2 : B2 = b2) (tv : ℕ)
    (hX : ∀ (p : Fin 4000) (j : Fin 256) (r : Fin 320000), r.val = tv * 4000 + p.val → X (ix2 p j) = x (ix2 r j))
    (y : S4000x2.Idx) (i : S320000x2.Idx) (h0 : (i 0).val = tv * 4000 + (y 0).val) (h1 : (i 1).val = (y 1).val) :
    k3_pay1 (F := Ideal) X W1 B1 W2 B2 y = Cert.Bridge.mlpD (F := Ideal) x w1 b1 w2 b2 i := by
  subst hW1 hB1 hW2 hB2
  obtain ⟨p, q, rfl⟩ : ∃ (p : Fin 4000) (q : Fin 2), y = ix2 p q := ⟨y 0, y 1, eq_ix2 y⟩
  obtain ⟨r, q', rfl⟩ : ∃ (r : Fin 320000) (q' : Fin 2), i = ix2 r q' := ⟨i 0, i 1, eq_ix2 i⟩
  have h0' : r.val = tv * 4000 + p.val := h0
  obtain rfl : q' = q := Fin.ext h1
  rw [k2_pay1_apply, mlpC_apply]
  exact congrArg (fun xr => rowfn xr W1 B1 W2 B2 q') (funext fun j => hX p j r h0')

/-! ## The region: its blocks, its write-backs, its array

The grid has one axis; at point `t` the window of `x` and the output window are at block `(t, 0)` — rows
`4000 t … 4000 t + 3999` —, and the windows of the weights and the bias rows are their whole arrays, block `(0, 0)`. -/

section Region

variable (V : (c : Dev nD) → (b : Ref sig .tc) → Buf (Elt Ideal) ((c : Thread nD τ).loc b))

/-- The block index of every window at every point, decided over the grid. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block `t` of `x`: its row `p` is row `4000 t + p` of the array. -/
theorem iblk_x (c : Dev nD) (t : Fin cfg3.N) (p : Fin 4000) (j : Fin 256) (r : Fin 320000) (hr : r.val = t.val * 4000 + p.val) :
    (iblk3 (F := Ideal) V c 0 t : FVec Ideal S4000x256 .f32) (ix2 p j) = (V c main_v84 : FVec Ideal S320000x256 .f32) (ix2 r j) := by
  obtain ⟨e0, e1, -⟩ := idx_facts t
  unfold iblk3
  rw [View.read_apply]
  show (V c main_v84 : FVec Ideal S320000x256 .f32) _ = _
  refine congrArg _ (funext fun a => Fin.ext ?_)
  match a with
  | ⟨0, _⟩ => show win3_0.index t (0 : Fin 2) * 4000 + 1 * p.val = r.val; rw [e0, hr]; omega
  | ⟨1, _⟩ => show win3_0.index t (1 : Fin 2) * 256 + 1 * j.val = j.val; rw [e1]; omega

/-! The weights' and the bias rows' one block is the array itself, at every point. -/

theorem iblk_w1 (c : Dev nD) (t : Fin cfg3.N) :
    (iblk3 (F := Ideal) V c 1 t : FVec Ideal S256x128 .f32) = (V c main_v86 : FVec Ideal S256x128 .f32) := by
  obtain ⟨-, -, e0, e1, -⟩ := idx_facts t
  funext y
  unfold iblk3
  rw [View.read_apply]
  show (V c main_v86 : FVec Ideal S256x128 .f32) _ = _
  refine congrArg _ (funext fun a => Fin.ext ?_)
  match a with
  | ⟨0, _⟩ => show win3_1.index t (0 : Fin 2) * 256 + 1 * (y 0).val = (y 0).val; rw [e0]; omega
  | ⟨1, _⟩ => show win3_1.index t (1 : Fin 2) * 128 + 1 * (y 1).val = (y 1).val; rw [e1]; omega

theorem iblk_b1 (c : Dev nD) (t : Fin cfg3.N) :
    (iblk3 (F := Ideal) V c 2 t : FVec Ideal S1x128 .f32) = (V c main_v93 : FVec Ideal S1x128 .f32) := by
  obtain ⟨-, -, -, -, e0, e1, -⟩ := idx_facts t
  funext y
  unfold iblk3
  rw [View.read_apply]
  show (V c main_v93 : FVec Ideal S1x128 .f32) _ = _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem iblk_w2 (c : Dev nD) (t : Fin cfg3.N) :
    (iblk3 (F := Ideal) V c 3 t : FVec Ideal S128x2 .f32) = (V c main_v90 : FVec Ideal S128x2 .f32) := by
  obtain ⟨-, -, -, -, -, -, e0, e1, -⟩ := idx_facts t
  funext y
  unfold iblk3
  rw [View.read_apply]
  show (V c main_v90 : FVec Ideal S128x2 .f32) _ = _
  refine congrArg _ (funext fun a => Fin.ext ?_)
  match a with
  | ⟨0, _⟩ => show win3_3.index t (0 : Fin 2) * 128 + 1 * (y 0).val = (y 0).val; rw [e0]; omega
  | ⟨1, _⟩ => show win3_3.index t (1 : Fin 2) * 2 + 1 * (y 1).val = (y 1).val; rw [e1]; omega

theorem iblk_b2 (c : Dev nD) (t : Fin cfg3.N) :
    (iblk3 (F := Ideal) V c 4 t : FVec Ideal S1x2 .f32) = (V c main_v94 : FVec Ideal S1x2 .f32) := by
  obtain ⟨-, -, -, -, -, -, -, -, e0, e1, -⟩ := idx_facts t
  funext y
  unfold iblk3
  rw [View.read_apply]
  show (V c main_v94 : FVec Ideal S1x2 .f32) _ = _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 2 + 1 * (y 1).val = (y 1).val; rw [e1]; omega

/-- What point `t` writes back is block `t` of the chain of the operand arrays as the region finds them. -/
theorem flushed_eq (c : Dev nD) (t : Fin cfg3.N) :
    (dat3 (F := Ideal) V c).flushed 5 t
      = ((cfg3.win 5).blk t).view.read (Elt Ideal)
          (Cert.Bridge.mlpD (F := Ideal) (V c main_v84) (V c main_v86) (V c main_v93) (V c main_v90) (V c main_v94)) := by
  show (cfg3.win 5).cut (grid3.coords t) ((dat3 (F := Ideal) V c).after 5 t) = _
  rw [after3_5]
  unfold out3_5
  rw [View.canon_unit_zero hz]
  simp only [View.ld_unit_zero (S := S4000x256) hz, View.ld_unit_zero (S := S256x128) hz, View.ld_unit_zero (S := S1x128) hz,
    View.ld_unit_zero (S := S128x2) hz, View.ld_unit_zero (S := S1x2) hz]
  obtain ⟨-, -, -, -, -, -, -, -, -, -, e0, e1⟩ := idx_facts t
  funext y
  show k3_pay1 (F := Ideal) (iblk3 V c 0 t) (iblk3 V c 1 t) (iblk3 V c 2 t) (iblk3 V c 3 t) (iblk3 V c 4 t) y
      = Cert.Bridge.mlpD (F := Ideal) (V c main_v84) (V c main_v86) (V c main_v93) (V c main_v90) (V c main_v94)
          (((cfg3.win 5).blk t).view.emb y)
  refine pay_eq_chain _ _ _ _ _ (iblk3 V c 0 t) _ _ _ _ (iblk_w1 V c t) (iblk_b1 V c t) (iblk_w2 V c t) (iblk_b2 V c t) t.val
    (fun p j r hr => iblk_x V c t p j r hr) y _ ?_ ?_
  · show win3_5.index t (0 : Fin 2) * 4000 + 1 * (y 0).val = t.val * 4000 + (y 0).val; rw [e0]; omega
  · show win3_5.index t (1 : Fin 2) * 2 + 1 * (y 1).val = (y 1).val; rw [e1]; omega

/-- An entry of the output array is in point `t`'s block iff each coordinate is in the block's range on its axis. -/
theorem mem_blk (t : Fin cfg3.N) (i : S320000x2.Idx) :
    i ∈ ((cfg3.win 5).blk t).view.set ↔ ∀ a : Fin 2, win3_5.index t a * S4000x2.size a ≤ (i a).val
      ∧ (i a).val < win3_5.index t a * S4000x2.size a + S4000x2.size a := by
  show i ∈ ((View.whole main_v95).slice (win3_5.rect t)).set ↔ _
  rw [View.set_slice_whole, Rect.mem_set_unit]
  exact Iff.rfl

/-- The blocks cover the array: row `r` is in the block of point `r / 4000`. -/
theorem cover (i : S320000x2.Idx) : ∃ t : Fin cfg3.N, (cfg3.win 5).flush t = true ∧ i ∈ ((cfg3.win 5).blk t).view.set := by
  have hi0 : (i 0).val < 320000 := (i 0).isLt
  have hi1 : (i 1).val < 2 := (i 1).isLt
  have hN : cfg3.N = 80 := N_3
  obtain ⟨t, ht⟩ : ∃ t : Fin cfg3.N, t.val = (i 0).val / 4000 := ⟨⟨(i 0).val / 4000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 4000 ≤ (i 0).val ∧ (i 0).val < win3_5.index t (0 : Fin 2) * 4000 + 4000
    rw [e0, ht]; omega
  | ⟨1, _⟩ =>
    show win3_5.index t (1 : Fin 2) * 2 ≤ (i 1).val ∧ (i 1).val < win3_5.index t (1 : Fin 2) * 2 + 2
    rw [e1]; omega

/-- THE ARRAY after the region: the chain of the operand arrays, whole. -/
theorem array (c : Dev nD) :
    (dat3 (F := Ideal) V c).arrAt 5 cfg3.N
      = Cert.Bridge.mlpD (F := Ideal) (V c main_v84) (V c main_v86) (V c main_v93) (V c main_v90) (V c main_v94) :=
  (dat3 (F := Ideal) V c).arrAt_eq_of_cover 5 _ (fun t _ => flushed_eq V c t) (fun i => cover i)

end Region

end R3

end MlpC

/-- The output array of the region is the two-layer perceptron of its operand arrays as the region finds them. -/
theorem region3_array (V : (c : Dev nD) → (b : Ref sig .tc) → Buf (Elt Ideal) ((c : Thread nD τ).loc b)) (c : Dev nD) :
    (dat3 (F := Ideal) V c).arrAt 5 cfg3.N
      = Cert.Bridge.mlpD (F := Ideal) (V c main_v84) (V c main_v86) (V c main_v93) (V c main_v90) (V c main_v94) :=
  MlpC.R3.array V c

end Cert.KernelIdeal.RegionValue

end
-- ==== Proof.Reg3.lean ====
/- Across region 3: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpD

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg3 (c : Dev nD) (h : FactsW10 m ρ c) : FactsW11 m ρ c where
  v1 := (W11_of_ne m ρ c main_v1 (by decide)).trans h.v1
  v3 := (W11_of_ne m ρ c main_v3 (by decide)).trans h.v3
  v5 := (W11_of_ne m ρ c main_v5 (by decide)).trans h.v5
  v7 := (W11_of_ne m ρ c main_v7 (by decide)).trans h.v7
  v9 := (W11_of_ne m ρ c main_v9 (by decide)).trans h.v9
  v43 := (W11_of_ne m ρ c main_v43 (by decide)).trans h.v43
  v50 := (W11_of_ne m ρ c main_v50 (by decide)).trans h.v50
  v69 := (W11_of_ne m ρ c main_v69 (by decide)).trans h.v69
  v76 := (W11_of_ne m ρ c main_v76 (by decide)).trans h.v76
  v95 := by
    rw [show W11 m ρ c (Proc.devRef .tc main_v95) = (dat3 (V10 m ρ) c).arrAt 5 cfg3.N from W11_arr m ρ c 5,
      Cert.KernelIdeal.RegionValue.region3_array (V10 m ρ) c]
    show Cert.Bridge.mlpD (F := Ideal) (W10 m ρ c (Proc.devRef .tc main_v84)) (W10 m ρ c (Proc.devRef .tc main_v86)) (W10 m ρ c (Proc.devRef .tc main_v93)) (W10 m ρ c (Proc.devRef .tc main_v90)) (W10 m ρ c (Proc.devRef .tc main_v94)) = _
    rw [h.v84, h.v86, h.v93, h.v90, h.v94]
    rfl
  args := fun r hr => (W11_of_ne m ρ c r (by revert r; decide)).trans (h.args r (by revert r; decide))

end Cert.KernelIdeal.Stages

end
-- ==== Proof.RegionMlpB4.lean ====
/- GENERATED by `bun scratch/mk_siblings.js <this unit's directory> 165269_j27702539059574_1_alg` from proof/Proof/RegionMlpB.lean (region 1, hand-written): its region part with the region's
   number (1 → 4), its operand and result buffers substituted; the region-free lemmas are imported from that module.
   The value of region 4: the same dense layer on other operands, block by block. -/
import proofs.«165269_j27702539059574_1_alg».proof.Proof.RegionMlpB
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx

/-! ## One row of the perceptron, and the two sides read at an entry -/

namespace MlpB.Region4

variable (V : (c : Dev nD) → (b : Ref sig .tc) → Buf (Elt Ideal) ((c : Thread nD τ).loc b))

/-- The body's payload on a 4000 × 128 block `X`, at entry (r, q): the row function of row r of `X`. -/
theorem pay_apply (X : Vec Ideal S4000x128 .f32) (w1 : Vec Ideal S128x128 .f32) (b1 : Vec Ideal S1x128 .f32)
    (w2 : Vec Ideal S128x128 .f32) (b2 : Vec Ideal S1x128 .f32) (r : Fin 4000) (q : Fin 128) :
    k4_pay1 X w1 b1 w2 b2 (ix2 r q) = mlpRow (fun j => X (ix2 r j)) w1 b1 w2 b2 q := by
  unfold k4_pay1
  simp only [shapeCast_self, dotK_eq, addf_apply, matmul_plain_zero_apply, truncf_apply, maximumf_apply, biasRow_apply,
    broadcast_apply]
  unfold mlpRow
  rw [zero_f32]

theorem hz : (![0, 0] : Fin 2 → Nat) = fun _ => 0 := funext fun a => by fin_cases a <;> rfl

/-- The block indices over the grid: at point t the input's and the output's block is block t of rows, and every
    weight and bias window's block is the whole array. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row r of block t is row 4000 t + r of the array, and there are 5 blocks of 4000 rows in 20000. -/
theorem row_lt (t : Fin cfg4.N) (r : Fin 4000) : 4000 * t.val + r.val < 20000 := by
  have h : t.val < 5 := lt_of_lt_of_eq t.isLt N_4
  have := r.isLt
  omega

/-- The input's block at point t, at entry (r, j): the array at row 4000 t + r. -/
theorem iblk_x (c : Dev nD) (t : Fin cfg4.N) (r : Fin 4000) (j : Fin 128) :
    (iblk4 V c 0 t : Vec Ideal S4000x128 .f32) (ix2 r j)
      = (V c main_v139 : Vec Ideal S20000x128 .f32) (ix2 ⟨4000 * t.val + r.val, row_lt t r⟩ j) := by
  obtain ⟨e0, e1, -⟩ := idx_facts t
  unfold iblk4
  rw [View.read_apply]
  show V c main_v139 _ = V c main_v139 _
  congr 1
  funext a
  apply Fin.ext
  match a with
  | ⟨0, _⟩ => show win4_0.index t 0 * 4000 + 1 * r.val = 4000 * t.val + r.val; rw [e0]; omega
  | ⟨1, _⟩ => show win4_0.index t 1 * 128 + 1 * j.val = j.val; rw [e1]; omega

/-- The first layer's weights' block at any point is the whole matrix. -/
theorem iblk_w1 (c : Dev nD) (t : Fin cfg4.N) :
    (iblk4 V c 1 t : Vec Ideal S128x128 .f32) = (V c main_v141 : Vec Ideal S128x128 .f32) := by
  obtain ⟨-, -, e0, e1, -⟩ := idx_facts t
  funext y
  unfold iblk4
  rw [View.read_apply]
  show V c main_v141 _ = V c main_v141 y
  congr 1
  funext a
  apply Fin.ext
  match a with
  | ⟨0, _⟩ => show win4_1.index t 0 * 128 + 1 * (y 0).val = (y 0).val; rw [e0]; omega
  | ⟨1, _⟩ => show win4_1.index t 1 * 128 + 1 * (y 1).val = (y 1).val; rw [e1]; omega

/-- The first layer's bias row's block at any point is the whole row. -/
theorem iblk_b1 (c : Dev nD) (t : Fin cfg4.N) :
    (iblk4 V c 2 t : Vec Ideal S1x128 .f32) = (V c main_v148 : Vec Ideal S1x128 .f32) := by
  obtain ⟨-, -, -, -, e0, e1, -⟩ := idx_facts t
  funext y
  unfold iblk4
  rw [View.read_apply]
  show V c main_v148 _ = V c main_v148 y
  congr 1
  funext a
  apply Fin.ext
  match a with
  | ⟨0, _⟩ => show win4_2.index t 0 * 1 + 1 * (y 0).val = (y 0).val; rw [e0]; omega
  | ⟨1, _⟩ => show win4_2.index t 1 * 128 + 1 * (y 1).val = (y 1).val; rw [e1]; omega

/-- The second layer's weights' block at any point is the whole matrix. -/
theorem iblk_w2 (c : Dev nD) (t : Fin cfg4.N) :
    (iblk4 V c 3 t : Vec Ideal S128x128 .f32) = (V c main_v145 : Vec Ideal S128x128 .f32) := by
  obtain ⟨-, -, -, -, -, -, e0, e1, -⟩ := idx_facts t
  funext y
  unfold iblk4
  rw [View.read_apply]
  show V c main_v145 _ = V c main_v145 y
  congr 1
  funext a
  apply Fin.ext
  match a with
  | ⟨0, _⟩ => show win4_3.index t 0 * 128 + 1 * (y 0).val = (y 0).val; rw [e0]; omega
  | ⟨1, _⟩ => show win4_3.index t 1 * 128 + 1 * (y 1).val = (y 1).val; rw [e1]; omega

/-- The second layer's bias row's block at any point is the whole row. -/
theorem iblk_b2 (c : Dev nD) (t : Fin cfg4.N) :
    (iblk4 V c 4 t : Vec Ideal S1x128 .f32) = (V c main_v149 : Vec Ideal S1x128 .f32) := by
  obtain ⟨-, -, -, -, -, -, -, -, e0, e1, -⟩ := idx_facts t
  funext y
  unfold iblk4
  rw [View.read_apply]
  show V c main_v149 _ = V c main_v149 y
  congr 1
  funext a
  apply Fin.ext
  match a with
  | ⟨0, _⟩ => show win4_4.index t 0 * 1 + 1 * (y 0).val = (y 0).val; rw [e0]; omega
  | ⟨1, _⟩ => show win4_4.index t 1 * 128 + 1 * (y 1).val = (y 1).val; rw [e1]; omega

/-- Entry (r, q) of the output's block at point t sits in the array at row 4000 t + r, column q. -/
theorem out_emb (t : Fin cfg4.N) (r : Fin 4000) (q : Fin 128) :
    (((cfg4.win 5).blk t).view.emb (ix2 r q) : S20000x128.Idx) = ix2 ⟨4000 * t.val + r.val, row_lt t r⟩ q := by
  obtain ⟨-, -, -, -, -, -, -, -, -, -, e0, e1⟩ := idx_facts t
  funext a
  apply Fin.ext
  match a with
  | ⟨0, _⟩ => show win4_5.index t 0 * 4000 + 1 * r.val = 4000 * t.val + r.val; rw [e0]; omega
  | ⟨1, _⟩ => show win4_5.index t 1 * 128 + 1 * q.val = q.val; rw [e1]; omega

/-- What point t writes back is block t of the perceptron of the whole arrays: both are, row by row, the row function
    of the same row of `x`. -/
theorem flushed_eq (c : Dev nD) (t : Fin cfg4.N) :
    (dat4 (F := Ideal) V c).flushed 5 t = ((cfg4.win 5).blk t).view.read (Elt Ideal)
      (Cert.Bridge.mlpB (F := Ideal) (V c main_v139) (V c main_v141) (V c main_v148) (V c main_v145) (V c main_v149)) := by
  show (cfg4.win 5).cut (grid4.coords t) ((dat4 V c).after 5 t) = _
  rw [after4_5]
  unfold out4_5
  rw [View.canon_unit_zero hz]
  simp only [View.ld_unit_zero (S := S4000x128) hz, View.ld_unit_zero (S := S128x128) hz, View.ld_unit_zero (S := S1x128) hz]
  rw [iblk_w1 V c t, iblk_b1 V c t, iblk_w2 V c t, iblk_b2 V c t]
  refine funext fun (y : S4000x128.Idx) => ?_
  obtain ⟨r, q, rfl⟩ : ∃ (r : Fin 4000) (q : Fin 128), y = ix2 r q := ⟨y 0, y 1, eq_ix2 y⟩
  show k4_pay1 (iblk4 V c 0 t) _ _ _ _ (ix2 r q) = Cert.Bridge.mlpB (F := Ideal) _ _ _ _ _ (((cfg4.win 5).blk t).view.emb (ix2 r q))
  rw [pay_apply, out_emb t r q, chain_apply]
  congr 1
  funext j
  exact iblk_x V c t r j

/-- An entry of the array is in point t's block exactly when each coordinate is in the block's range on its axis. -/
theorem mem_blk (t : Fin cfg4.N) (i : S20000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v150).slice (win4_5.rect t)).set ↔ _
  rw [View.set_slice_whole, Rect.mem_set_unit]
  exact Iff.rfl

/-- The blocks cover the array: row i is in the block of point i / 4000. -/
theorem cover (i : S20000x128.Idx) : ∃ t : Fin cfg4.N, (cfg4.win 5).flush t = true ∧ i ∈ ((cfg4.win 5).blk t).view.set := by
  have hi0 : (i 0).val < 20000 := (i 0).isLt
  have hi1 : (i 1).val < 128 := (i 1).isLt
  have ht : (i 0).val / 4000 < cfg4.N := lt_of_lt_of_eq (by omega : (i 0).val / 4000 < 5) N_4.symm
  obtain ⟨-, -, -, -, -, -, -, -, -, -, e0, e1⟩ := idx_facts ⟨(i 0).val / 4000, ht⟩
  refine ⟨⟨(i 0).val / 4000, ht⟩, flush4_5 _, ?_⟩
  rw [mem_blk]
  intro a
  match a with
  | ⟨0, _⟩ =>
    show win4_5.index ⟨(i 0).val / 4000, ht⟩ 0 * 4000 ≤ (i 0).val ∧ (i 0).val < win4_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win4_5.index ⟨(i 0).val / 4000, ht⟩ 1 * 128 ≤ (i 1).val ∧ (i 1).val < win4_5.index ⟨(i 0).val / 4000, ht⟩ 1 * 128 + 128
    rw [e1]; omega

end MlpB.Region4

/-- The array the region leaves: the two-layer perceptron of the whole operand arrays. -/
theorem region4_array (V : (c : Dev nD) → (b : Ref sig .tc) → Buf (Elt Ideal) ((c : Thread nD τ).loc b)) (c : Dev nD) :
    (dat4 (F := Ideal) V c).arrAt 5 cfg4.N
      = Cert.Bridge.mlpB (F := Ideal) (V c main_v139) (V c main_v141) (V c main_v148) (V c main_v145) (V c main_v149) :=
  (dat4 V c).arrAt_eq_of_cover 5 _ (fun t _ => MlpB.Region4.flushed_eq V c t) MlpB.Region4.cover

end Cert.KernelIdeal.RegionValue

end
-- ==== Proof.Reg4.lean ====
/- Across region 4: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpB4

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg4 (c : Dev nD) (h : FactsW16 m ρ c) : FactsW17 m ρ c where
  v1 := (W17_of_ne m ρ c main_v1 (by decide)).trans h.v1
  v3 := (W17_of_ne m ρ c main_v3 (by decide)).trans h.v3
  v5 := (W17_of_ne m ρ c main_v5 (by decide)).trans h.v5
  v7 := (W17_of_ne m ρ c main_v7 (by decide)).trans h.v7
  v9 := (W17_of_ne m ρ c main_v9 (by decide)).trans h.v9
  v150 := by
    rw [show W17 m ρ c (Proc.devRef .tc main_v150) = (dat4 (V16 m ρ) c).arrAt 5 cfg4.N from W17_arr m ρ c 5,
      Cert.KernelIdeal.RegionValue.region4_array (V16 m ρ) c]
    show Cert.Bridge.mlpB (F := Ideal) (W16 m ρ c (Proc.devRef .tc main_v139)) (W16 m ρ c (Proc.devRef .tc main_v141)) (W16 m ρ c (Proc.devRef .tc main_v148)) (W16 m ρ c (Proc.devRef .tc main_v145)) (W16 m ρ c (Proc.devRef .tc main_v149)) = _
    rw [h.v139, h.v141, h.v148, h.v145, h.v149]
    rfl
  args := fun r hr => (W17_of_ne m ρ c r (by revert r; decide)).trans (h.args r (by revert r; decide))

end Cert.KernelIdeal.Stages

end
-- ==== Proof.RegionMlpB5.lean ====
/- GENERATED by `bun scratch/mk_siblings.js <this unit's directory> 165269_j27702539059574_1_alg` from proof/Proof/RegionMlpB.lean (region 1, hand-written): its region part with the region's
   number (1 → 5), its operand and result buffers substituted; the region-free lemmas are imported from that module.
   The value of region 5: the same dense layer on other operands, block by block. -/
import proofs.«165269_j27702539059574_1_alg».proof.Proof.RegionMlpB
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx

/-! ## One row of the perceptron, and the two sides read at an entry -/

namespace MlpB.Region5

variable (V : (c : Dev nD) → (b : Ref sig .tc) → Buf (Elt Ideal) ((c : Thread nD τ).loc b))

/-- The body's payload on a 4000 × 128 block `X`, at entry (r, q): the row function of row r of `X`. -/
theorem pay_apply (X : Vec Ideal S4000x128 .f32) (w1 : Vec Ideal S128x128 .f32) (b1 : Vec Ideal S1x128 .f32)
    (w2 : Vec Ideal S128x128 .f32) (b2 : Vec Ideal S1x128 .f32) (r : Fin 4000) (q : Fin 128) :
    k5_pay1 X w1 b1 w2 b2 (ix2 r q) = mlpRow (fun j => X (ix2 r j)) w1 b1 w2 b2 q := by
  unfold k5_pay1
  simp only [shapeCast_self, dotK_eq, addf_apply, matmul_plain_zero_apply, truncf_apply, maximumf_apply, biasRow_apply,
    broadcast_apply]
  unfold mlpRow
  rw [zero_f32]

theorem hz : (![0, 0] : Fin 2 → Nat) = fun _ => 0 := funext fun a => by fin_cases a <;> rfl

/-- The block indices over the grid: at point t the input's and the output's block is block t of rows, and every
    weight and bias window's block is the whole array. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row r of block t is row 4000 t + r of the array, and there are 5 blocks of 4000 rows in 20000. -/
theorem row_lt (t : Fin cfg5.N) (r : Fin 4000) : 4000 * t.val + r.val < 20000 := by
  have h : t.val < 5 := lt_of_lt_of_eq t.isLt N_5
  have := r.isLt
  omega

/-- The input's block at point t, at entry (r, j): the array at row 4000 t + r. -/
theorem iblk_x (c : Dev nD) (t : Fin cfg5.N) (r : Fin 4000) (j : Fin 128) :
    (iblk5 V c 0 t : Vec Ideal S4000x128 .f32) (ix2 r j)
      = (V c main_v171 : Vec Ideal S20000x128 .f32) (ix2 ⟨4000 * t.val + r.val, row_lt t r⟩ j) := by
  obtain ⟨e0, e1, -⟩ := idx_facts t
  unfold iblk5
  rw [View.read_apply]
  show V c main_v171 _ = V c main_v171 _
  congr 1
  funext a
  apply Fin.ext
  match a with
  | ⟨0, _⟩ => show win5_0.index t 0 * 4000 + 1 * r.val = 4000 * t.val + r.val; rw [e0]; omega
  | ⟨1, _⟩ => show win5_0.index t 1 * 128 + 1 * j.val = j.val; rw [e1]; omega

/-- The first layer's weights' block at any point is the whole matrix. -/
theorem iblk_w1 (c : Dev nD) (t : Fin cfg5.N) :
    (iblk5 V c 1 t : Vec Ideal S128x128 .f32) = (V c main_v173 : Vec Ideal S128x128 .f32) := by
  obtain ⟨-, -, e0, e1, -⟩ := idx_facts t
  funext y
  unfold iblk5
  rw [View.read_apply]
  show V c main_v173 _ = V c main_v173 y
  congr 1
  funext a
  apply Fin.ext
  match a with
  | ⟨0, _⟩ => show win5_1.index t 0 * 128 + 1 * (y 0).val = (y 0).val; rw [e0]; omega
  | ⟨1, _⟩ => show win5_1.index t 1 * 128 + 1 * (y 1).val = (y 1).val; rw [e1]; omega

/-- The first layer's bias row's block at any point is the whole row. -/
theorem iblk_b1 (c : Dev nD) (t : Fin cfg5.N) :
    (iblk5 V c 2 t : Vec Ideal S1x128 .f32) = (V c main_v180 : Vec Ideal S1x128 .f32) := by
  obtain ⟨-, -, -, -, e0, e1, -⟩ := idx_facts t
  funext y
  unfold iblk5
  rw [View.read_apply]
  show V c main_v180 _ = V c main_v180 y
  congr 1
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

/-- The second layer's weights' block at any point is the whole matrix. -/
theorem iblk_w2 (c : Dev nD) (t : Fin cfg5.N) :
    (iblk5 V c 3 t : Vec Ideal S128x128 .f32) = (V c main_v177 : Vec Ideal S128x128 .f32) := by
  obtain ⟨-, -, -, -, -, -, e0, e1, -⟩ := idx_facts t
  funext y
  unfold iblk5
  rw [View.read_apply]
  show V c main_v177 _ = V c main_v177 y
  congr 1
  funext a
  apply Fin.ext
  match a with
  | ⟨0, _⟩ => show win5_3.index t 0 * 128 + 1 * (y 0).val = (y 0).val; rw [e0]; omega
  | ⟨1, _⟩ => show win5_3.index t 1 * 128 + 1 * (y 1).val = (y 1).val; rw [e1]; omega

/-- The second layer's bias row's block at any point is the whole row. -/
theorem iblk_b2 (c : Dev nD) (t : Fin cfg5.N) :
    (iblk5 V c 4 t : Vec Ideal S1x128 .f32) = (V c main_v181 : Vec Ideal S1x128 .f32) := by
  obtain ⟨-, -, -, -, -, -, -, -, e0, e1, -⟩ := idx_facts t
  funext y
  unfold iblk5
  rw [View.read_apply]
  show V c main_v181 _ = V c main_v181 y
  congr 1
  funext a
  apply Fin.ext
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- Entry (r, q) of the output's block at point t sits in the array at row 4000 t + r, column q. -/
theorem out_emb (t : Fin cfg5.N) (r : Fin 4000) (q : Fin 128) :
    (((cfg5.win 5).blk t).view.emb (ix2 r q) : S20000x128.Idx) = ix2 ⟨4000 * t.val + r.val, row_lt t r⟩ q := by
  obtain ⟨-, -, -, -, -, -, -, -, -, -, e0, e1⟩ := idx_facts t
  funext a
  apply Fin.ext
  match a with
  | ⟨0, _⟩ => show win5_5.index t 0 * 4000 + 1 * r.val = 4000 * t.val + r.val; rw [e0]; omega
  | ⟨1, _⟩ => show win5_5.index t 1 * 128 + 1 * q.val = q.val; rw [e1]; omega

/-- What point t writes back is block t of the perceptron of the whole arrays: both are, row by row, the row function
    of the same row of `x`. -/
theorem flushed_eq (c : Dev nD) (t : Fin cfg5.N) :
    (dat5 (F := Ideal) V c).flushed 5 t = ((cfg5.win 5).blk t).view.read (Elt Ideal)
      (Cert.Bridge.mlpB (F := Ideal) (V c main_v171) (V c main_v173) (V c main_v180) (V c main_v177) (V c main_v181)) := by
  show (cfg5.win 5).cut (grid5.coords t) ((dat5 V c).after 5 t) = _
  rw [after5_5]
  unfold out5_5
  rw [View.canon_unit_zero hz]
  simp only [View.ld_unit_zero (S := S4000x128) hz, View.ld_unit_zero (S := S128x128) hz, View.ld_unit_zero (S := S1x128) hz]
  rw [iblk_w1 V c t, iblk_b1 V c t, iblk_w2 V c t, iblk_b2 V c t]
  refine funext fun (y : S4000x128.Idx) => ?_
  obtain ⟨r, q, rfl⟩ : ∃ (r : Fin 4000) (q : Fin 128), y = ix2 r q := ⟨y 0, y 1, eq_ix2 y⟩
  show k5_pay1 (iblk5 V c 0 t) _ _ _ _ (ix2 r q) = Cert.Bridge.mlpB (F := Ideal) _ _ _ _ _ (((cfg5.win 5).blk t).view.emb (ix2 r q))
  rw [pay_apply, out_emb t r q, chain_apply]
  congr 1
  funext j
  exact iblk_x V c t r j

/-- An entry of the array is in point t's block exactly when each coordinate is in the block's range on its axis. -/
theorem mem_blk (t : Fin cfg5.N) (i : S20000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole main_v182).slice (win5_5.rect t)).set ↔ _
  rw [View.set_slice_whole, Rect.mem_set_unit]
  exact Iff.rfl

/-- The blocks cover the array: row i is in the block of point i / 4000. -/
theorem cover (i : S20000x128.Idx) : ∃ t : Fin cfg5.N, (cfg5.win 5).flush t = true ∧ i ∈ ((cfg5.win 5).blk t).view.set := by
  have hi0 : (i 0).val < 20000 := (i 0).isLt
  have hi1 : (i 1).val < 128 := (i 1).isLt
  have ht : (i 0).val / 4000 < cfg5.N := lt_of_lt_of_eq (by omega : (i 0).val / 4000 < 5) N_5.symm
  obtain ⟨-, -, -, -, -, -, -, -, -, -, e0, e1⟩ := idx_facts ⟨(i 0).val / 4000, ht⟩
  refine ⟨⟨(i 0).val / 4000, ht⟩, flush5_5 _, ?_⟩
  rw [mem_blk]
  intro a
  match a with
  | ⟨0, _⟩ =>
    show win5_5.index ⟨(i 0).val / 4000, ht⟩ 0 * 4000 ≤ (i 0).val ∧ (i 0).val < win5_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win5_5.index ⟨(i 0).val / 4000, ht⟩ 1 * 128 ≤ (i 1).val ∧ (i 1).val < win5_5.index ⟨(i 0).val / 4000, ht⟩ 1 * 128 + 128
    rw [e1]; omega

end MlpB.Region5

/-- The array the region leaves: the two-layer perceptron of the whole operand arrays. -/
theorem region5_array (V : (c : Dev nD) → (b : Ref sig .tc) → Buf (Elt Ideal) ((c : Thread nD τ).loc b)) (c : Dev nD) :
    (dat5 (F := Ideal) V c).arrAt 5 cfg5.N
      = Cert.Bridge.mlpB (F := Ideal) (V c main_v171) (V c main_v173) (V c main_v180) (V c main_v177) (V c main_v181) :=
  (dat5 V c).arrAt_eq_of_cover 5 _ (fun t _ => MlpB.Region5.flushed_eq V c t) MlpB.Region5.cover

end Cert.KernelIdeal.RegionValue

end
-- ==== Proof.Reg5.lean ====
/- Across region 5: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpB5

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg5 (c : Dev nD) (h : FactsW20 m ρ c) : FactsW21 m ρ c where
  v1 := (W21_of_ne m ρ c main_v1 (by decide)).trans h.v1
  v3 := (W21_of_ne m ρ c main_v3 (by decide)).trans h.v3
  v5 := (W21_of_ne m ρ c main_v5 (by decide)).trans h.v5
  v7 := (W21_of_ne m ρ c main_v7 (by decide)).trans h.v7
  v9 := (W21_of_ne m ρ c main_v9 (by decide)).trans h.v9
  v150 := (W21_of_ne m ρ c main_v150 (by decide)).trans h.v150
  v182 := by
    rw [show W21 m ρ c (Proc.devRef .tc main_v182) = (dat5 (V20 m ρ) c).arrAt 5 cfg5.N from W21_arr m ρ c 5,
      Cert.KernelIdeal.RegionValue.region5_array (V20 m ρ) c]
    show Cert.Bridge.mlpB (F := Ideal) (W20 m ρ c (Proc.devRef .tc main_v171)) (W20 m ρ c (Proc.devRef .tc main_v173)) (W20 m ρ c (Proc.devRef .tc main_v180)) (W20 m ρ c (Proc.devRef .tc main_v177)) (W20 m ρ c (Proc.devRef .tc main_v181)) = _
    rw [h.v171, h.v173, h.v180, h.v177, h.v181]
    rfl
  args := fun r hr => (W21_of_ne m ρ c r (by revert r; decide)).trans (h.args r (by revert r; decide))

end Cert.KernelIdeal.Stages

end
-- ==== Proof.RegionMlpC6.lean ====
/- GENERATED by `bun scratch/mk_siblings.js <this unit's directory> 165269_j27702539059574_1_alg` from proof/Proof/RegionMlpC.lean (region 2, hand-written): its region part with the region's
   number (2 → 6), its operand and result buffers substituted; the region-free lemmas are imported from that module.
   The value of region 6: the same dense layer on other operands, block by block. -/
import proofs.«165269_j27702539059574_1_alg».proof.Proof.RegionMlpC
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx
open scoped BigOperators

namespace MlpC

namespace R6

/-- The kernel body's payload at entry `(r, q)` of its block: the row function of row `r` of the block of `x`
    (the bf16 casts are the identity at the ideal values; the bias row is broadcast down the rows). -/
theorem k2_pay1_apply (X : FVec Ideal S4000x256 .f32) (w1 : FVec Ideal S256x128 .f32) (b1 : FVec Ideal S1x128 .f32)
    (w2 : FVec Ideal S128x2 .f32) (b2 : FVec Ideal S1x2 .f32) (r : Fin 4000) (q : Fin 2) :
    k6_pay1 (F := Ideal) X w1 b1 w2 b2 (ix2 r q) = rowfn (fun j => X (ix2 r j)) w1 b1 w2 b2 q := by
  unfold k6_pay1
  simp only [shapeCast_self]
  rw [addf_apply, matmul_plain_apply dot_S4000x128_S128x2_S4000x2_1_0_0_1_n_n rfl, broadcastTo_1b_ab_apply]
  unfold rowfn
  refine congrArg₂ (· + ·) (Finset.sum_congr rfl fun k _ => ?_) rfl
  rw [truncf_apply, truncf_apply, maximumf_apply, addf_apply,
    matmul_plain_apply dot_S4000x256_S256x128_S4000x128_1_0_0_1_n_n rfl, broadcastTo_1b_ab_apply, broadcast_apply]
  refine congrArg₂ (· * ·) (congrArg₂ max (congrArg₂ (· + ·) (Finset.sum_congr rfl fun j _ => ?_) rfl) rfl) rfl
  rw [truncf_apply, truncf_apply]

/-! ## The payload and the chain at an index -/

/-- The reference's two-layer perceptron at entry `(r, q)`: the row function of row `r` of `x`. -/
theorem mlpC_apply (x : FVec Ideal S200000x256 .f32) (w1 : FVec Ideal S256x128 .f32) (b1 : FVec Ideal S1x128 .f32)
    (w2 : FVec Ideal S128x2 .f32) (b2 : FVec Ideal S1x2 .f32) (r : Fin 200000) (q : Fin 2) :
    Cert.Bridge.mlpC (F := Ideal) x w1 b1 w2 b2 (ix2 r q) = rowfn (fun j => x (ix2 r j)) w1 b1 w2 b2 q := by
  unfold Cert.Bridge.mlpC
  rw [addf_apply, dotGeneral_plain_apply Cert.ReferenceIdeal.dot_S200000x128_S128x2_S200000x2_1_0_0_1_n_n rfl,
    broadcastInDim_1b_ab_apply]
  unfold rowfn
  refine congrArg₂ (· + ·) (Finset.sum_congr rfl fun k _ => ?_) rfl
  rw [maximumf_apply, addf_apply, dotGeneral_plain_apply Cert.ReferenceIdeal.dot_S200000x256_S256x128_S200000x128_1_0_0_1_n_n rfl,
    broadcastInDim_1b_ab_apply, broadcastInDim_scalar_apply, constant_apply]

/-- So the payload of a block whose row `p` is row `r` of `x` is, on that row, the chain of `x` on row `r`. -/
theorem pay_eq_chain (x : FVec Ideal S200000x256 .f32) (w1 : FVec Ideal S256x128 .f32) (b1 : FVec Ideal S1x128 .f32)
    (w2 : FVec Ideal S128x2 .f32) (b2 : FVec Ideal S1x2 .f32) (X : FVec Ideal S4000x256 .f32)
    (W1 : FVec Ideal S256x128 .f32) (B1 : FVec Ideal S1x128 .f32) (W2 : FVec Ideal S128x2 .f32) (B2 : FVec Ideal S1x2 .f32)
    (hW1 : W1 = w1) (hB1 : B1 = b1) (hW2 : W2 = w2) (hB2 : B2 = b2) (tv : ℕ)
    (hX : ∀ (p : Fin 4000) (j : Fin 256) (r : Fin 200000), r.val = tv * 4000 + p.val → X (ix2 p j) = x (ix2 r j))
    (y : S4000x2.Idx) (i : S200000x2.Idx) (h0 : (i 0).val = tv * 4000 + (y 0).val) (h1 : (i 1).val = (y 1).val) :
    k6_pay1 (F := Ideal) X W1 B1 W2 B2 y = Cert.Bridge.mlpC (F := Ideal) x w1 b1 w2 b2 i := by
  subst hW1 hB1 hW2 hB2
  obtain ⟨p, q, rfl⟩ : ∃ (p : Fin 4000) (q : Fin 2), y = ix2 p q := ⟨y 0, y 1, eq_ix2 y⟩
  obtain ⟨r, q', rfl⟩ : ∃ (r : Fin 200000) (q' : Fin 2), i = ix2 r q' := ⟨i 0, i 1, eq_ix2 i⟩
  have h0' : r.val = tv * 4000 + p.val := h0
  obtain rfl : q' = q := Fin.ext h1
  rw [k2_pay1_apply, mlpC_apply]
  exact congrArg (fun xr => rowfn xr W1 B1 W2 B2 q') (funext fun j => hX p j r h0')

/-! ## The region: its blocks, its write-backs, its array

The grid has one axis; at point `t` the window of `x` and the output window are at block `(t, 0)` — rows
`4000 t … 4000 t + 3999` —, and the windows of the weights and the bias rows are their whole arrays, block `(0, 0)`. -/

section Region

variable (V : (c : Dev nD) → (b : Ref sig .tc) → Buf (Elt Ideal) ((c : Thread nD τ).loc b))

/-- The block index of every window at every point, decided over the grid. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Block `t` of `x`: its row `p` is row `4000 t + p` of the array. -/
theorem iblk_x (c : Dev nD) (t : Fin cfg6.N) (p : Fin 4000) (j : Fin 256) (r : Fin 200000) (hr : r.val = t.val * 4000 + p.val) :
    (iblk6 (F := Ideal) V c 0 t : FVec Ideal S4000x256 .f32) (ix2 p j) = (V c main_v199 : FVec Ideal S200000x256 .f32) (ix2 r j) := by
  obtain ⟨e0, e1, -⟩ := idx_facts t
  unfold iblk6
  rw [View.read_apply]
  show (V c main_v199 : FVec Ideal S200000x256 .f32) _ = _
  refine congrArg _ (funext fun a => Fin.ext ?_)
  match a with
  | ⟨0, _⟩ => show win6_0.index t (0 : Fin 2) * 4000 + 1 * p.val = r.val; rw [e0, hr]; omega
  | ⟨1, _⟩ => show win6_0.index t (1 : Fin 2) * 256 + 1 * j.val = j.val; rw [e1]; omega

/-! The weights' and the bias rows' one block is the array itself, at every point. -/

theorem iblk_w1 (c : Dev nD) (t : Fin cfg6.N) :
    (iblk6 (F := Ideal) V c 1 t : FVec Ideal S256x128 .f32) = (V c main_v201 : FVec Ideal S256x128 .f32) := by
  obtain ⟨-, -, e0, e1, -⟩ := idx_facts t
  funext y
  unfold iblk6
  rw [View.read_apply]
  show (V c main_v201 : FVec Ideal S256x128 .f32) _ = _
  refine congrArg _ (funext fun a => Fin.ext ?_)
  match a with
  | ⟨0, _⟩ => show win6_1.index t (0 : Fin 2) * 256 + 1 * (y 0).val = (y 0).val; rw [e0]; omega
  | ⟨1, _⟩ => show win6_1.index t (1 : Fin 2) * 128 + 1 * (y 1).val = (y 1).val; rw [e1]; omega

theorem iblk_b1 (c : Dev nD) (t : Fin cfg6.N) :
    (iblk6 (F := Ideal) V c 2 t : FVec Ideal S1x128 .f32) = (V c main_v208 : FVec Ideal S1x128 .f32) := by
  obtain ⟨-, -, -, -, e0, e1, -⟩ := idx_facts t
  funext y
  unfold iblk6
  rw [View.read_apply]
  show (V c main_v208 : FVec Ideal S1x128 .f32) _ = _
  refine congrArg _ (funext fun a => Fin.ext ?_)
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

theorem iblk_w2 (c : Dev nD) (t : Fin cfg6.N) :
    (iblk6 (F := Ideal) V c 3 t : FVec Ideal S128x2 .f32) = (V c main_v205 : FVec Ideal S128x2 .f32) := by
  obtain ⟨-, -, -, -, -, -, e0, e1, -⟩ := idx_facts t
  funext y
  unfold iblk6
  rw [View.read_apply]
  show (V c main_v205 : FVec Ideal S128x2 .f32) _ = _
  refine congrArg _ (funext fun a => Fin.ext ?_)
  match a with
  | ⟨0, _⟩ => show win6_3.index t (0 : Fin 2) * 128 + 1 * (y 0).val = (y 0).val; rw [e0]; omega
  | ⟨1, _⟩ => show win6_3.index t (1 : Fin 2) * 2 + 1 * (y 1).val = (y 1).val; rw [e1]; omega

theorem iblk_b2 (c : Dev nD) (t : Fin cfg6.N) :
    (iblk6 (F := Ideal) V c 4 t : FVec Ideal S1x2 .f32) = (V c main_v209 : FVec Ideal S1x2 .f32) := by
  obtain ⟨-, -, -, -, -, -, -, -, e0, e1, -⟩ := idx_facts t
  funext y
  unfold iblk6
  rw [View.read_apply]
  show (V c main_v209 : FVec Ideal S1x2 .f32) _ = _
  refine congrArg _ (funext fun a => Fin.ext ?_)
  match a with
  | ⟨0, _⟩ => show win6_4.index t (0 : Fin 2) * 1 + 1 * (y 0).val = (y 0).val; rw [e0]; omega
  | ⟨1, _⟩ => show win6_4.index t (1 : Fin 2) * 2 + 1 * (y 1).val = (y 1).val; rw [e1]; omega

/-- What point `t` writes back is block `t` of the chain of the operand arrays as the region finds them. -/
theorem flushed_eq (c : Dev nD) (t : Fin cfg6.N) :
    (dat6 (F := Ideal) V c).flushed 5 t
      = ((cfg6.win 5).blk t).view.read (Elt Ideal)
          (Cert.Bridge.mlpC (F := Ideal) (V c main_v199) (V c main_v201) (V c main_v208) (V c main_v205) (V c main_v209)) := by
  show (cfg6.win 5).cut (grid6.coords t) ((dat6 (F := Ideal) V c).after 5 t) = _
  rw [after6_5]
  unfold out6_5
  rw [View.canon_unit_zero hz]
  simp only [View.ld_unit_zero (S := S4000x256) hz, View.ld_unit_zero (S := S256x128) hz, View.ld_unit_zero (S := S1x128) hz,
    View.ld_unit_zero (S := S128x2) hz, View.ld_unit_zero (S := S1x2) hz]
  obtain ⟨-, -, -, -, -, -, -, -, -, -, e0, e1⟩ := idx_facts t
  funext y
  show k6_pay1 (F := Ideal) (iblk6 V c 0 t) (iblk6 V c 1 t) (iblk6 V c 2 t) (iblk6 V c 3 t) (iblk6 V c 4 t) y
      = Cert.Bridge.mlpC (F := Ideal) (V c main_v199) (V c main_v201) (V c main_v208) (V c main_v205) (V c main_v209)
          (((cfg6.win 5).blk t).view.emb y)
  refine pay_eq_chain _ _ _ _ _ (iblk6 V c 0 t) _ _ _ _ (iblk_w1 V c t) (iblk_b1 V c t) (iblk_w2 V c t) (iblk_b2 V c t) t.val
    (fun p j r hr => iblk_x V c t p j r hr) y _ ?_ ?_
  · show win6_5.index t (0 : Fin 2) * 4000 + 1 * (y 0).val = t.val * 4000 + (y 0).val; rw [e0]; omega
  · show win6_5.index t (1 : Fin 2) * 2 + 1 * (y 1).val = (y 1).val; rw [e1]; omega

/-- An entry of the output array is in point `t`'s block iff each coordinate is in the block's range on its axis. -/
theorem mem_blk (t : Fin cfg6.N) (i : S200000x2.Idx) :
    i ∈ ((cfg6.win 5).blk t).view.set ↔ ∀ a : Fin 2, win6_5.index t a * S4000x2.size a ≤ (i a).val
      ∧ (i a).val < win6_5.index t a * S4000x2.size a + S4000x2.size a := by
  show i ∈ ((View.whole main_v210).slice (win6_5.rect t)).set ↔ _
  rw [View.set_slice_whole, Rect.mem_set_unit]
  exact Iff.rfl

/-- The blocks cover the array: row `r` is in the block of point `r / 4000`. -/
theorem cover (i : S200000x2.Idx) : ∃ t : Fin cfg6.N, (cfg6.win 5).flush t = true ∧ i ∈ ((cfg6.win 5).blk t).view.set := by
  have hi0 : (i 0).val < 200000 := (i 0).isLt
  have hi1 : (i 1).val < 2 := (i 1).isLt
  have hN : cfg6.N = 50 := N_6
  obtain ⟨t, ht⟩ : ∃ t : Fin cfg6.N, t.val = (i 0).val / 4000 := ⟨⟨(i 0).val / 4000, by rw [hN]; omega⟩, rfl⟩
  obtain ⟨-, -, -, -, -, -, -, -, -, -, e0, e1⟩ := idx_facts t
  refine ⟨t, flush6_5 t, ?_⟩
  rw [mem_blk]
  intro a
  match a with
  | ⟨0, _⟩ =>
    show win6_5.index t (0 : Fin 2) * 4000 ≤ (i 0).val ∧ (i 0).val < win6_5.index t (0 : Fin 2) * 4000 + 4000
    rw [e0, ht]; omega
  | ⟨1, _⟩ =>
    show win6_5.index t (1 : Fin 2) * 2 ≤ (i 1).val ∧ (i 1).val < win6_5.index t (1 : Fin 2) * 2 + 2
    rw [e1]; omega

/-- THE ARRAY after the region: the chain of the operand arrays, whole. -/
theorem array (c : Dev nD) :
    (dat6 (F := Ideal) V c).arrAt 5 cfg6.N
      = Cert.Bridge.mlpC (F := Ideal) (V c main_v199) (V c main_v201) (V c main_v208) (V c main_v205) (V c main_v209) :=
  (dat6 (F := Ideal) V c).arrAt_eq_of_cover 5 _ (fun t _ => flushed_eq V c t) (fun i => cover i)

end Region

end R6

end MlpC

/-- The output array of the region is the two-layer perceptron of its operand arrays as the region finds them. -/
theorem region6_array (V : (c : Dev nD) → (b : Ref sig .tc) → Buf (Elt Ideal) ((c : Thread nD τ).loc b)) (c : Dev nD) :
    (dat6 (F := Ideal) V c).arrAt 5 cfg6.N
      = Cert.Bridge.mlpC (F := Ideal) (V c main_v199) (V c main_v201) (V c main_v208) (V c main_v205) (V c main_v209) :=
  MlpC.R6.array V c

end Cert.KernelIdeal.RegionValue

end
-- ==== Proof.Reg6.lean ====
/- Across region 6: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpC6

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg6 (c : Dev nD) (h : FactsW23 m ρ c) : FactsW24 m ρ c where
  v1 := (W24_of_ne m ρ c main_v1 (by decide)).trans h.v1
  v3 := (W24_of_ne m ρ c main_v3 (by decide)).trans h.v3
  v7 := (W24_of_ne m ρ c main_v7 (by decide)).trans h.v7
  v9 := (W24_of_ne m ρ c main_v9 (by decide)).trans h.v9
  v184 := (W24_of_ne m ρ c main_v184 (by decide)).trans h.v184
  v191 := (W24_of_ne m ρ c main_v191 (by decide)).trans h.v191
  v210 := by
    rw [show W24 m ρ c (Proc.devRef .tc main_v210) = (dat6 (V23 m ρ) c).arrAt 5 cfg6.N from W24_arr m ρ c 5,
      Cert.KernelIdeal.RegionValue.region6_array (V23 m ρ) c]
    show Cert.Bridge.mlpC (F := Ideal) (W23 m ρ c (Proc.devRef .tc main_v199)) (W23 m ρ c (Proc.devRef .tc main_v201)) (W23 m ρ c (Proc.devRef .tc main_v208)) (W23 m ρ c (Proc.devRef .tc main_v205)) (W23 m ρ c (Proc.devRef .tc main_v209)) = _
    rw [h.v199, h.v201, h.v208, h.v205, h.v209]
    rfl
  args := fun r hr => (W24_of_ne m ρ c r (by revert r; decide)).trans (h.args r (by revert r; decide))

end Cert.KernelIdeal.Stages

end
-- ==== Proof.RegionMlpD7.lean ====
/- GENERATED by `bun scratch/mk_siblings.js <this unit's directory> 165269_j27702539059574_1_alg` from proof/Proof/RegionMlpC.lean (region 2, hand-written): its region part with the region's
   number (2 → 7), its operand and result buffers, the row count, the number of blocks and the reference's dimension records substituted; the region-free lemmas are imported from that module.
   The value of region 7: the same dense layer on other operands, block by block. -/
import proofs.«165269_j27702539059574_1_alg».proof.Proof.RegionMlpC
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx
open scoped BigOperators

namespace MlpC

namespace R7

/-- The kernel body's payload at entry `(r, q)` of its block: the row function of row `r` of the block of `x`
    (the bf16 casts are the identity at the ideal values; the bias row is broadcast down the rows). -/
theorem k2_pay1_apply (X : FVec Ideal S4000x256 .f32) (w1 : FVec Ideal S256x128 .f32) (b1 : FVec Ideal S1x128 .f32)
    (w2 : FVec Ideal S128x2 .f32) (b2 : FVec Ideal S1x2 .f32) (r : Fin 4000) (q : Fin 2) :
    k7_pay1 (F := Ideal) X w1 b1 w2 b2 (ix2 r q) = rowfn (fun j => X (ix2 r j)) w1 b1 w2 b2 q := by
  unfold k7_pay1
  simp only [shapeCast_self]
  rw [addf_apply, matmul_plain_apply dot_S4000x128_S128x2_S4000x2_1_0_0_1_n_n rfl, broadcastTo_1b_ab_apply]
  unfold rowfn
  refine congrArg₂ (· + ·) (Finset.sum_congr rfl fun k _ => ?_) rfl
  rw [truncf_apply, truncf_apply, maximumf_apply, addf_apply,
    matmul_plain_apply dot_S4000x256_S256x128_S4000x128_1_0_0_1_n_n rfl, broadcastTo_1b_ab_apply, broadcast_apply]
  refine congrArg₂ (· * ·) (congrArg₂ max (congrArg₂ (· + ·) (Finset.sum_congr rfl fun j _ => ?_) rfl) rfl) rfl
  rw [truncf_apply, truncf_apply]

/-! ## The payload and the chain at an index -/

/-- The reference's two-layer perceptron at entry `(r, q)`: the row function of row `r` of `x`. -/
theorem mlpC_apply (x : FVec Ideal S320000x256 .f32) (w1 : FVec Ideal S256x128 .f32) (b1 : FVec Ideal S1x128 .f32)
    (w2 : FVec Ideal S128x2 .f32) (b2 : FVec Ideal S1x2 .f32) (r : Fin 320000) (q : Fin 2) :
    Cert.Bridge.mlpD (F := Ideal) x w1 b1 w2 b2 (ix2 r q) = rowfn (fun j => x (ix2 r j)) w1 b1 w2 b2 q := by
  unfold Cert.Bridge.mlpD
  rw [addf_apply, dotGeneral_plain_apply Cert.ReferenceIdeal.dot_S320000x128_S128x2_S320000x2_1_0_0_1_n_n rfl,
    broadcastInDim_1b_ab_apply]
  unfold rowfn
  refine congrArg₂ (· + ·) (Finset.sum_congr rfl fun k _ => ?_) rfl
  rw [maximumf_apply, addf_apply, dotGeneral_plain_apply Cert.ReferenceIdeal.dot_S320000x256_S256x128_S320000x128_1_0_0_1_n_n rfl,
    broadcastInDim_1b_ab_apply, broadcastInDim_scalar_apply, constant_apply]

/-- So the payload of a block whose row `p` is row `r` of `x` is, on that row, the chain of `x` on row `r`. -/
theorem pay_eq_chain (x : FVec Ideal S320000x256 .f32) (w1 : FVec Ideal S256x128 .f32) (b1 : FVec Ideal S1x128 .f32)
    (w2 : FVec Ideal S128x2 .f32) (b2 : FVec Ideal S1x2 .f32) (X : FVec Ideal S4000x256 .f32)
    (W1 : FVec Ideal S256x128 .f32) (B1 : FVec Ideal S1x128 .f32) (W2 : FVec Ideal S128x2 .f32) (B2 : FVec Ideal S1x2 .f32)
    (hW1 : W1 = w1) (hB1 : B1 = b1) (hW2 : W2 = w2) (hB2 : B2 = b2) (tv : ℕ)
    (hX : ∀ (p : Fin 4000) (j : Fin 256) (r : Fin 320000), r.val = tv * 4000 + p.val → X (ix2 p j) = x (ix2 r j))
    (y : S4000x2.Idx) (i : S320000x2.Idx) (h0 : (i 0).val = tv * 4000 + (y 0).val) (h1 : (i 1).val = (y 1).val) :
    k7_pay1 (F := Ideal) X W1 B1 W2 B2 y = Cert.Bridge.mlpD (F := Ideal) x w1 b1 w2 b2 i := by
  subst hW1 hB1 hW2 hB2
  obtain ⟨p, q, rfl⟩ : ∃ (p : Fin 4000) (q : Fin 2), y = ix2 p q := ⟨y 0, y 1, eq_ix2 y⟩
  obtain ⟨r, q', rfl⟩ : ∃ (r : Fin 320000) (q' : Fin 2), i = ix2 r q' := ⟨i 0, i 1, eq_ix2 i⟩
  have h0' : r.val = tv * 4000 + p.val := h0
  obtain rfl : q' = q := Fin.ext h1
  rw [k2_pay1_apply, mlpC_apply]
  exact congrArg (fun xr => rowfn xr W1 B1 W2 B2 q') (funext fun j => hX p j r h0')

/-! ## The region: its blocks, its write-backs, its array

The grid has one axis; at point `t` the window of `x` and the output window are at block `(t, 0)` — rows
`4000 t … 4000 t + 3999` —, and the windows of the weights and the bias rows are their whole arrays, block `(0, 0)`. -/

section Region

variable (V : (c : Dev nD) → (b : Ref sig .tc) → Buf (Elt Ideal) ((c : Thread nD τ).loc b))

/-- The block index of every window at every point, decided over the grid. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Block `t` of `x`: its row `p` is row `4000 t + p` of the array. -/
theorem iblk_x (c : Dev nD) (t : Fin cfg7.N) (p : Fin 4000) (j : Fin 256) (r : Fin 320000) (hr : r.val = t.val * 4000 + p.val) :
    (iblk7 (F := Ideal) V c 0 t : FVec Ideal S4000x256 .f32) (ix2 p j) = (V c main_v225 : FVec Ideal S320000x256 .f32) (ix2 r j) := by
  obtain ⟨e0, e1, -⟩ := idx_facts t
  unfold iblk7
  rw [View.read_apply]
  show (V c main_v225 : FVec Ideal S320000x256 .f32) _ = _
  refine congrArg _ (funext fun a => Fin.ext ?_)
  match a with
  | ⟨0, _⟩ => show win7_0.index t (0 : Fin 2) * 4000 + 1 * p.val = r.val; rw [e0, hr]; omega
  | ⟨1, _⟩ => show win7_0.index t (1 : Fin 2) * 256 + 1 * j.val = j.val; rw [e1]; omega

/-! The weights' and the bias rows' one block is the array itself, at every point. -/

theorem iblk_w1 (c : Dev nD) (t : Fin cfg7.N) :
    (iblk7 (F := Ideal) V c 1 t : FVec Ideal S256x128 .f32) = (V c main_v227 : FVec Ideal S256x128 .f32) := by
  obtain ⟨-, -, e0, e1, -⟩ := idx_facts t
  funext y
  unfold iblk7
  rw [View.read_apply]
  show (V c main_v227 : FVec Ideal S256x128 .f32) _ = _
  refine congrArg _ (funext fun a => Fin.ext ?_)
  match a with
  | ⟨0, _⟩ => show win7_1.index t (0 : Fin 2) * 256 + 1 * (y 0).val = (y 0).val; rw [e0]; omega
  | ⟨1, _⟩ => show win7_1.index t (1 : Fin 2) * 128 + 1 * (y 1).val = (y 1).val; rw [e1]; omega

theorem iblk_b1 (c : Dev nD) (t : Fin cfg7.N) :
    (iblk7 (F := Ideal) V c 2 t : FVec Ideal S1x128 .f32) = (V c main_v234 : FVec Ideal S1x128 .f32) := by
  obtain ⟨-, -, -, -, e0, e1, -⟩ := idx_facts t
  funext y
  unfold iblk7
  rw [View.read_apply]
  show (V c main_v234 : FVec Ideal S1x128 .f32) _ = _
  refine congrArg _ (funext fun a => Fin.ext ?_)
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

theorem iblk_w2 (c : Dev nD) (t : Fin cfg7.N) :
    (iblk7 (F := Ideal) V c 3 t : FVec Ideal S128x2 .f32) = (V c main_v231 : FVec Ideal S128x2 .f32) := by
  obtain ⟨-, -, -, -, -, -, e0, e1, -⟩ := idx_facts t
  funext y
  unfold iblk7
  rw [View.read_apply]
  show (V c main_v231 : FVec Ideal S128x2 .f32) _ = _
  refine congrArg _ (funext fun a => Fin.ext ?_)
  match a with
  | ⟨0, _⟩ => show win7_3.index t (0 : Fin 2) * 128 + 1 * (y 0).val = (y 0).val; rw [e0]; omega
  | ⟨1, _⟩ => show win7_3.index t (1 : Fin 2) * 2 + 1 * (y 1).val = (y 1).val; rw [e1]; omega

theorem iblk_b2 (c : Dev nD) (t : Fin cfg7.N) :
    (iblk7 (F := Ideal) V c 4 t : FVec Ideal S1x2 .f32) = (V c main_v235 : FVec Ideal S1x2 .f32) := by
  obtain ⟨-, -, -, -, -, -, -, -, e0, e1, -⟩ := idx_facts t
  funext y
  unfold iblk7
  rw [View.read_apply]
  show (V c main_v235 : FVec Ideal S1x2 .f32) _ = _
  refine congrArg _ (funext fun a => Fin.ext ?_)
  match a with
  | ⟨0, _⟩ => show win7_4.index t (0 : Fin 2) * 1 + 1 * (y 0).val = (y 0).val; rw [e0]; omega
  | ⟨1, _⟩ => show win7_4.index t (1 : Fin 2) * 2 + 1 * (y 1).val = (y 1).val; rw [e1]; omega

/-- What point `t` writes back is block `t` of the chain of the operand arrays as the region finds them. -/
theorem flushed_eq (c : Dev nD) (t : Fin cfg7.N) :
    (dat7 (F := Ideal) V c).flushed 5 t
      = ((cfg7.win 5).blk t).view.read (Elt Ideal)
          (Cert.Bridge.mlpD (F := Ideal) (V c main_v225) (V c main_v227) (V c main_v234) (V c main_v231) (V c main_v235)) := by
  show (cfg7.win 5).cut (grid7.coords t) ((dat7 (F := Ideal) V c).after 5 t) = _
  rw [after7_5]
  unfold out7_5
  rw [View.canon_unit_zero hz]
  simp only [View.ld_unit_zero (S := S4000x256) hz, View.ld_unit_zero (S := S256x128) hz, View.ld_unit_zero (S := S1x128) hz,
    View.ld_unit_zero (S := S128x2) hz, View.ld_unit_zero (S := S1x2) hz]
  obtain ⟨-, -, -, -, -, -, -, -, -, -, e0, e1⟩ := idx_facts t
  funext y
  show k7_pay1 (F := Ideal) (iblk7 V c 0 t) (iblk7 V c 1 t) (iblk7 V c 2 t) (iblk7 V c 3 t) (iblk7 V c 4 t) y
      = Cert.Bridge.mlpD (F := Ideal) (V c main_v225) (V c main_v227) (V c main_v234) (V c main_v231) (V c main_v235)
          (((cfg7.win 5).blk t).view.emb y)
  refine pay_eq_chain _ _ _ _ _ (iblk7 V c 0 t) _ _ _ _ (iblk_w1 V c t) (iblk_b1 V c t) (iblk_w2 V c t) (iblk_b2 V c t) t.val
    (fun p j r hr => iblk_x V c t p j r hr) y _ ?_ ?_
  · show win7_5.index t (0 : Fin 2) * 4000 + 1 * (y 0).val = t.val * 4000 + (y 0).val; rw [e0]; omega
  · show win7_5.index t (1 : Fin 2) * 2 + 1 * (y 1).val = (y 1).val; rw [e1]; omega

/-- An entry of the output array is in point `t`'s block iff each coordinate is in the block's range on its axis. -/
theorem mem_blk (t : Fin cfg7.N) (i : S320000x2.Idx) :
    i ∈ ((cfg7.win 5).blk t).view.set ↔ ∀ a : Fin 2, win7_5.index t a * S4000x2.size a ≤ (i a).val
      ∧ (i a).val < win7_5.index t a * S4000x2.size a + S4000x2.size a := by
  show i ∈ ((View.whole main_v236).slice (win7_5.rect t)).set ↔ _
  rw [View.set_slice_whole, Rect.mem_set_unit]
  exact Iff.rfl

/-- The blocks cover the array: row `r` is in the block of point `r / 4000`. -/
theorem cover (i : S320000x2.Idx) : ∃ t : Fin cfg7.N, (cfg7.win 5).flush t = true ∧ i ∈ ((cfg7.win 5).blk t).view.set := by
  have hi0 : (i 0).val < 320000 := (i 0).isLt
  have hi1 : (i 1).val < 2 := (i 1).isLt
  have hN : cfg7.N = 80 := N_7
  obtain ⟨t, ht⟩ : ∃ t : Fin cfg7.N, t.val = (i 0).val / 4000 := ⟨⟨(i 0).val / 4000, by rw [hN]; omega⟩, rfl⟩
  obtain ⟨-, -, -, -, -, -, -, -, -, -, e0, e1⟩ := idx_facts t
  refine ⟨t, flush7_5 t, ?_⟩
  rw [mem_blk]
  intro a
  match a with
  | ⟨0, _⟩ =>
    show win7_5.index t (0 : Fin 2) * 4000 ≤ (i 0).val ∧ (i 0).val < win7_5.index t (0 : Fin 2) * 4000 + 4000
    rw [e0, ht]; omega
  | ⟨1, _⟩ =>
    show win7_5.index t (1 : Fin 2) * 2 ≤ (i 1).val ∧ (i 1).val < win7_5.index t (1 : Fin 2) * 2 + 2
    rw [e1]; omega

/-- THE ARRAY after the region: the chain of the operand arrays, whole. -/
theorem array (c : Dev nD) :
    (dat7 (F := Ideal) V c).arrAt 5 cfg7.N
      = Cert.Bridge.mlpD (F := Ideal) (V c main_v225) (V c main_v227) (V c main_v234) (V c main_v231) (V c main_v235) :=
  (dat7 (F := Ideal) V c).arrAt_eq_of_cover 5 _ (fun t _ => flushed_eq V c t) (fun i => cover i)

end Region

end R7

end MlpC

/-- The output array of the region is the two-layer perceptron of its operand arrays as the region finds them. -/
theorem region7_array (V : (c : Dev nD) → (b : Ref sig .tc) → Buf (Elt Ideal) ((c : Thread nD τ).loc b)) (c : Dev nD) :
    (dat7 (F := Ideal) V c).arrAt 5 cfg7.N
      = Cert.Bridge.mlpD (F := Ideal) (V c main_v225) (V c main_v227) (V c main_v234) (V c main_v231) (V c main_v235) :=
  MlpC.R7.array V c

end Cert.KernelIdeal.RegionValue

end
-- ==== Proof.Reg7.lean ====
/- Across region 7: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpD7

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg7 (c : Dev nD) (h : FactsW25 m ρ c) : FactsW26 m ρ c where
  v3 := (W26_of_ne m ρ c main_v3 (by decide)).trans h.v3
  v7 := (W26_of_ne m ρ c main_v7 (by decide)).trans h.v7
  v9 := (W26_of_ne m ρ c main_v9 (by decide)).trans h.v9
  v184 := (W26_of_ne m ρ c main_v184 (by decide)).trans h.v184
  v191 := (W26_of_ne m ρ c main_v191 (by decide)).trans h.v191
  v210 := (W26_of_ne m ρ c main_v210 (by decide)).trans h.v210
  v217 := (W26_of_ne m ρ c main_v217 (by decide)).trans h.v217
  v236 := by
    rw [show W26 m ρ c (Proc.devRef .tc main_v236) = (dat7 (V25 m ρ) c).arrAt 5 cfg7.N from W26_arr m ρ c 5,
      Cert.KernelIdeal.RegionValue.region7_array (V25 m ρ) c]
    show Cert.Bridge.mlpD (F := Ideal) (W25 m ρ c (Proc.devRef .tc main_v225)) (W25 m ρ c (Proc.devRef .tc main_v227)) (W25 m ρ c (Proc.devRef .tc main_v234)) (W25 m ρ c (Proc.devRef .tc main_v231)) (W25 m ρ c (Proc.devRef .tc main_v235)) = _
    rw [h.v225, h.v227, h.v234, h.v231, h.v235]
    rfl
  args := fun r hr => (W26_of_ne m ρ c r (by revert r; decide)).trans (h.args r (by revert r; decide))

end Cert.KernelIdeal.Stages

end
-- ==== Proof.RegionMlpB8.lean ====
/- GENERATED by `bun scratch/mk_siblings.js <this unit's directory> 165269_j27702539059574_1_alg` from proof/Proof/RegionMlpB.lean (region 1, hand-written): its region part with the region's
   number (1 → 8), its operand and result buffers substituted; the region-free lemmas are imported from that module.
   The value of region 8: the same dense layer on other operands, block by block. -/
import proofs.«165269_j27702539059574_1_alg».proof.Proof.RegionMlpB
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx

/-! ## One row of the perceptron, and the two sides read at an entry -/

namespace MlpB.Region8

variable (V : (c : Dev nD) → (b : Ref sig .tc) → Buf (Elt Ideal) ((c : Thread nD τ).loc b))

/-- The body's payload on a 4000 × 128 block `X`, at entry (r, q): the row function of row r of `X`. -/
theorem pay_apply (X : Vec Ideal S4000x128 .f32) (w1 : Vec Ideal S128x128 .f32) (b1 : Vec Ideal S1x128 .f32)
    (w2 : Vec Ideal S128x128 .f32) (b2 : Vec Ideal S1x128 .f32) (r : Fin 4000) (q : Fin 128) :
    k8_pay1 X w1 b1 w2 b2 (ix2 r q) = mlpRow (fun j => X (ix2 r j)) w1 b1 w2 b2 q := by
  unfold k8_pay1
  simp only [shapeCast_self, dotK_eq, addf_apply, matmul_plain_zero_apply, truncf_apply, maximumf_apply, biasRow_apply,
    broadcast_apply]
  unfold mlpRow
  rw [zero_f32]

theorem hz : (![0, 0] : Fin 2 → Nat) = fun _ => 0 := funext fun a => by fin_cases a <;> rfl

/-- The block indices over the grid: at point t the input's and the output's block is block t of rows, and every
    weight and bias window's block is the whole array. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row r of block t is row 4000 t + r of the array, and there are 5 blocks of 4000 rows in 20000. -/
theorem row_lt (t : Fin cfg8.N) (r : Fin 4000) : 4000 * t.val + r.val < 20000 := by
  have h : t.val < 5 := lt_of_lt_of_eq t.isLt N_8
  have := r.isLt
  omega

/-- The input's block at point t, at entry (r, j): the array at row 4000 t + r. -/
theorem iblk_x (c : Dev nD) (t : Fin cfg8.N) (r : Fin 4000) (j : Fin 128) :
    (iblk8 V c 0 t : Vec Ideal S4000x128 .f32) (ix2 r j)
      = (V c main_v280 : Vec Ideal S20000x128 .f32) (ix2 ⟨4000 * t.val + r.val, row_lt t r⟩ j) := by
  obtain ⟨e0, e1, -⟩ := idx_facts t
  unfold iblk8
  rw [View.read_apply]
  show V c main_v280 _ = V c main_v280 _
  congr 1
  funext a
  apply Fin.ext
  match a with
  | ⟨0, _⟩ => show win8_0.index t 0 * 4000 + 1 * r.val = 4000 * t.val + r.val; rw [e0]; omega
  | ⟨1, _⟩ => show win8_0.index t 1 * 128 + 1 * j.val = j.val; rw [e1]; omega

/-- The first layer's weights' block at any point is the whole matrix. -/
theorem iblk_w1 (c : Dev nD) (t : Fin cfg8.N) :
    (iblk8 V c 1 t : Vec Ideal S128x128 .f32) = (V c main_v282 : Vec Ideal S128x128 .f32) := by
  obtain ⟨-, -, e0, e1, -⟩ := idx_facts t
  funext y
  unfold iblk8
  rw [View.read_apply]
  show V c main_v282 _ = V c main_v282 y
  congr 1
  funext a
  apply Fin.ext
  match a with
  | ⟨0, _⟩ => show win8_1.index t 0 * 128 + 1 * (y 0).val = (y 0).val; rw [e0]; omega
  | ⟨1, _⟩ => show win8_1.index t 1 * 128 + 1 * (y 1).val = (y 1).val; rw [e1]; omega

/-- The first layer's bias row's block at any point is the whole row. -/
theorem iblk_b1 (c : Dev nD) (t : Fin cfg8.N) :
    (iblk8 V c 2 t : Vec Ideal S1x128 .f32) = (V c main_v289 : Vec Ideal S1x128 .f32) := by
  obtain ⟨-, -, -, -, e0, e1, -⟩ := idx_facts t
  funext y
  unfold iblk8
  rw [View.read_apply]
  show V c main_v289 _ = V c main_v289 y
  congr 1
  funext a
  apply Fin.ext
  match a with
  | ⟨0, _⟩ => show win8_2.index t 0 * 1 + 1 * (y 0).val = (y 0).val; rw [e0]; omega
  | ⟨1, _⟩ => show win8_2.index t 1 * 128 + 1 * (y 1).val = (y 1).val; rw [e1]; omega

/-- The second layer's weights' block at any point is the whole matrix. -/
theorem iblk_w2 (c : Dev nD) (t : Fin cfg8.N) :
    (iblk8 V c 3 t : Vec Ideal S128x128 .f32) = (V c main_v286 : Vec Ideal S128x128 .f32) := by
  obtain ⟨-, -, -, -, -, -, e0, e1, -⟩ := idx_facts t
  funext y
  unfold iblk8
  rw [View.read_apply]
  show V c main_v286 _ = V c main_v286 y
  congr 1
  funext a
  apply Fin.ext
  match a with
  | ⟨0, _⟩ => show win8_3.index t 0 * 128 + 1 * (y 0).val = (y 0).val; rw [e0]; omega
  | ⟨1, _⟩ => show win8_3.index t 1 * 128 + 1 * (y 1).val = (y 1).val; rw [e1]; omega

/-- The second layer's bias row's block at any point is the whole row. -/
theorem iblk_b2 (c : Dev nD) (t : Fin cfg8.N) :
    (iblk8 V c 4 t : Vec Ideal S1x128 .f32) = (V c main_v290 : Vec Ideal S1x128 .f32) := by
  obtain ⟨-, -, -, -, -, -, -, -, e0, e1, -⟩ := idx_facts t
  funext y
  unfold iblk8
  rw [View.read_apply]
  show V c main_v290 _ = V c main_v290 y
  congr 1
  funext a
  apply Fin.ext
  match a with
  | ⟨0, _⟩ => show win8_4.index t 0 * 1 + 1 * (y 0).val = (y 0).val; rw [e0]; omega
  | ⟨1, _⟩ => show win8_4.index t 1 * 128 + 1 * (y 1).val = (y 1).val; rw [e1]; omega

/-- Entry (r, q) of the output's block at point t sits in the array at row 4000 t + r, column q. -/
theorem out_emb (t : Fin cfg8.N) (r : Fin 4000) (q : Fin 128) :
    (((cfg8.win 5).blk t).view.emb (ix2 r q) : S20000x128.Idx) = ix2 ⟨4000 * t.val + r.val, row_lt t r⟩ q := by
  obtain ⟨-, -, -, -, -, -, -, -, -, -, e0, e1⟩ := idx_facts t
  funext a
  apply Fin.ext
  match a with
  | ⟨0, _⟩ => show win8_5.index t 0 * 4000 + 1 * r.val = 4000 * t.val + r.val; rw [e0]; omega
  | ⟨1, _⟩ => show win8_5.index t 1 * 128 + 1 * q.val = q.val; rw [e1]; omega

/-- What point t writes back is block t of the perceptron of the whole arrays: both are, row by row, the row function
    of the same row of `x`. -/
theorem flushed_eq (c : Dev nD) (t : Fin cfg8.N) :
    (dat8 (F := Ideal) V c).flushed 5 t = ((cfg8.win 5).blk t).view.read (Elt Ideal)
      (Cert.Bridge.mlpB (F := Ideal) (V c main_v280) (V c main_v282) (V c main_v289) (V c main_v286) (V c main_v290)) := by
  show (cfg8.win 5).cut (grid8.coords t) ((dat8 V c).after 5 t) = _
  rw [after8_5]
  unfold out8_5
  rw [View.canon_unit_zero hz]
  simp only [View.ld_unit_zero (S := S4000x128) hz, View.ld_unit_zero (S := S128x128) hz, View.ld_unit_zero (S := S1x128) hz]
  rw [iblk_w1 V c t, iblk_b1 V c t, iblk_w2 V c t, iblk_b2 V c t]
  refine funext fun (y : S4000x128.Idx) => ?_
  obtain ⟨r, q, rfl⟩ : ∃ (r : Fin 4000) (q : Fin 128), y = ix2 r q := ⟨y 0, y 1, eq_ix2 y⟩
  show k8_pay1 (iblk8 V c 0 t) _ _ _ _ (ix2 r q) = Cert.Bridge.mlpB (F := Ideal) _ _ _ _ _ (((cfg8.win 5).blk t).view.emb (ix2 r q))
  rw [pay_apply, out_emb t r q, chain_apply]
  congr 1
  funext j
  exact iblk_x V c t r j

/-- An entry of the array is in point t's block exactly when each coordinate is in the block's range on its axis. -/
theorem mem_blk (t : Fin cfg8.N) (i : S20000x128.Idx) :
    i ∈ ((cfg8.win 5).blk t).view.set ↔ ∀ a : Fin 2, win8_5.index t a * S4000x128.size a ≤ (i a).val ∧ (i a).val < win8_5.index t a * S4000x128.size a + S4000x128.size a := by
  show i ∈ ((View.whole main_v291).slice (win8_5.rect t)).set ↔ _
  rw [View.set_slice_whole, Rect.mem_set_unit]
  exact Iff.rfl

/-- The blocks cover the array: row i is in the block of point i / 4000. -/
theorem cover (i : S20000x128.Idx) : ∃ t : Fin cfg8.N, (cfg8.win 5).flush t = true ∧ i ∈ ((cfg8.win 5).blk t).view.set := by
  have hi0 : (i 0).val < 20000 := (i 0).isLt
  have hi1 : (i 1).val < 128 := (i 1).isLt
  have ht : (i 0).val / 4000 < cfg8.N := lt_of_lt_of_eq (by omega : (i 0).val / 4000 < 5) N_8.symm
  obtain ⟨-, -, -, -, -, -, -, -, -, -, e0, e1⟩ := idx_facts ⟨(i 0).val / 4000, ht⟩
  refine ⟨⟨(i 0).val / 4000, ht⟩, flush8_5 _, ?_⟩
  rw [mem_blk]
  intro a
  match a with
  | ⟨0, _⟩ =>
    show win8_5.index ⟨(i 0).val / 4000, ht⟩ 0 * 4000 ≤ (i 0).val ∧ (i 0).val < win8_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win8_5.index ⟨(i 0).val / 4000, ht⟩ 1 * 128 ≤ (i 1).val ∧ (i 1).val < win8_5.index ⟨(i 0).val / 4000, ht⟩ 1 * 128 + 128
    rw [e1]; omega

end MlpB.Region8

/-- The array the region leaves: the two-layer perceptron of the whole operand arrays. -/
theorem region8_array (V : (c : Dev nD) → (b : Ref sig .tc) → Buf (Elt Ideal) ((c : Thread nD τ).loc b)) (c : Dev nD) :
    (dat8 (F := Ideal) V c).arrAt 5 cfg8.N
      = Cert.Bridge.mlpB (F := Ideal) (V c main_v280) (V c main_v282) (V c main_v289) (V c main_v286) (V c main_v290) :=
  (dat8 V c).arrAt_eq_of_cover 5 _ (fun t _ => MlpB.Region8.flushed_eq V c t) MlpB.Region8.cover

end Cert.KernelIdeal.RegionValue

end
-- ==== Proof.Reg8.lean ====
/- Across region 8: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionMlpB8

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg8 (c : Dev nD) (h : FactsW31 m ρ c) : FactsW32 m ρ c where
  v291 := by
    rw [show W32 m ρ c (Proc.devRef .tc main_v291) = (dat8 (V31 m ρ) c).arrAt 5 cfg8.N from W32_arr m ρ c 5,
      Cert.KernelIdeal.RegionValue.region8_array (V31 m ρ) c]
    show Cert.Bridge.mlpB (F := Ideal) (W31 m ρ c (Proc.devRef .tc main_v280)) (W31 m ρ c (Proc.devRef .tc main_v282)) (W31 m ρ c (Proc.devRef .tc main_v289)) (W31 m ρ c (Proc.devRef .tc main_v286)) (W31 m ρ c (Proc.devRef .tc main_v290)) = _
    rw [h.v280, h.v282, h.v289, h.v286, h.v290]
    rfl
  args := fun r hr => (W32_of_ne m ρ c r (by revert r; decide)).trans (h.args r (by revert r; decide))

end Cert.KernelIdeal.Stages

end
-- ==== Proof.RegionLinE.lean ====
/- The last dense layer, x · w + b over the pooled rows, as one whole-array function. -/
import proofs.«165269_j27702539059574_1_alg».proof.Proof.RegionLin

set_option maxRecDepth 16384

noncomputable section

namespace Cert.KernelIdeal.RegionValue

open Idealize.ShloMosaic Idealize.ShloMosaic.TcCoe Idealize.SL.Sem Cert.KernelIdeal Cert.KernelIdeal.Gen Cert.KernelIdeal.GenP
open Idealize.ShloMosaic.ValueIdx Idealize.ShloMosaic.StackMember

namespace Lin

theorem k9_pay1_apply (X : Vec Ideal S64x128 .f32) (W : Vec Ideal S128x10 .f32) (b : Vec Ideal S1x10 .f32)
    (r : Fin 64) (q : Fin 10) :
    k9_pay1 (F := Ideal) X W b (ix2 r q) = linRow (fun k => X (ix2 r k)) W b q := by
  unfold k9_pay1 linRow
  dsimp only
  rw [addf_apply, shapeCast_self, shapeCast_self, broadcastTo_oneRow_apply,
    matmul_plain_zero_apply (M := 64) (K := 128) (N := 10) dot_S64x128_S128x10_S64x10_1_0_0_1_n_n rfl]
  rfl

theorem linE_apply (x : FVec Ideal S64x128 .f32) (w : FVec Ideal S128x10 .f32) (b : FVec Ideal S1x10 .f32)
    (r : Fin 64) (q : Fin 10) :
    Cert.Bridge.linE (F := Ideal) x w b (ix2 r q) = linRow (fun k => x (ix2 r k)) w b q := by
  unfold Cert.Bridge.linE linRow
  rw [addf_apply, broadcastInDim_oneRow_apply,
    dotGeneral_plain_apply_of_eq (M := 64) (K := 128) (N := 10)
      Cert.ReferenceIdeal.dot_S64x128_S128x10_S64x10_1_0_0_1_n_n rfl]

section Region
variable (V : (c : Dev nD) → (b : Ref sig .tc) → Buf (Elt Ideal) ((c : Thread nD τ).loc b))

theorem hz9 : (![0, 0] : Fin 2 → Nat) = fun _ => 0 := funext fun a => by fin_cases a <;> rfl

theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 ∧ t.val < 1 :=
  (by decide +kernel : ∀ t : Fin grid9.N, _)

abbrev xblk9 (c : Dev nD) (t : Fin cfg9.N) : Vec Ideal S64x128 .f32 := iblk9 V c 0 t
abbrev wblk9 (c : Dev nD) (t : Fin cfg9.N) : Vec Ideal S128x10 .f32 := iblk9 V c 1 t
abbrev bblk9 (c : Dev nD) (t : Fin cfg9.N) : Vec Ideal S1x10 .f32 := iblk9 V c 2 t
abbrev xarr9 (c : Dev nD) : Vec Ideal S64x128 .f32 := V c main_v303
abbrev warr9 (c : Dev nD) : Vec Ideal S128x10 .f32 := V c main_arg26
abbrev barr9 (c : Dev nD) : Vec Ideal S1x10 .f32 := V c main_v304

theorem xblk9_apply (c : Dev nD) (t : Fin cfg9.N) (y : Fin 64) (k : Fin 128) (r : Fin 64)
    (hr : r.val = t.val * 64 + y.val) : xblk9 V c t (ix2 y k) = xarr9 V c (ix2 r k) := by
  obtain ⟨e0, e1, -⟩ := idx9 t
  unfold xblk9 iblk9
  rw [View.read_apply]
  show V c main_v303 _ = V c main_v303 _
  congr 1
  funext a
  apply Fin.ext
  match a with
  | ⟨0, _⟩ => show win9_0.index t (0 : Fin 2) * 64 + 1 * y.val = r.val; rw [e0, hr]; omega
  | ⟨1, _⟩ => show win9_0.index t (1 : Fin 2) * 128 + 1 * k.val = k.val; rw [e1]; omega

theorem wblk9_eq (c : Dev nD) (t : Fin cfg9.N) : wblk9 V c t = warr9 V c := by
  obtain ⟨-, -, e2, e3, -⟩ := idx9 t
  funext j
  obtain ⟨a, b, rfl⟩ : ∃ (a : Fin 128) (b : Fin 10), j = ix2 a b := ⟨j 0, j 1, eq_ix2 j⟩
  unfold wblk9 iblk9
  rw [View.read_apply]
  show V c main_arg26 _ = V c main_arg26 _
  congr 1
  funext ax
  apply Fin.ext
  match ax with
  | ⟨0, _⟩ => show win9_1.index t (0 : Fin 2) * 128 + 1 * a.val = a.val; rw [e2]; omega
  | ⟨1, _⟩ => show win9_1.index t (1 : Fin 2) * 10 + 1 * b.val = b.val; rw [e3]; omega

theorem bblk9_eq (c : Dev nD) (t : Fin cfg9.N) : bblk9 V c t = barr9 V c := by
  obtain ⟨-, -, -, -, e4, e5, -⟩ := idx9 t
  funext j
  obtain ⟨a, b, rfl⟩ : ∃ (a : Fin 1) (b : Fin 10), j = ix2 a b := ⟨j 0, j 1, eq_ix2 j⟩
  unfold bblk9 iblk9
  rw [View.read_apply]
  show V c main_v304 _ = V c main_v304 _
  congr 1
  funext ax
  apply Fin.ext
  match ax with
  | ⟨0, _⟩ => show win9_2.index t (0 : Fin 2) * 1 + 1 * a.val = a.val; rw [e4]; omega
  | ⟨1, _⟩ => show win9_2.index t (1 : Fin 2) * 10 + 1 * b.val = b.val; rw [e5]; omega

theorem point9 (c : Dev nD) (t : Fin cfg9.N) (y : Fin 64) (q : Fin 10) (r : Fin 64)
    (hr : r.val = t.val * 64 + y.val) :
    k9_pay1 (F := Ideal) (xblk9 V c t) (wblk9 V c t) (bblk9 V c t) (ix2 y q)
      = Cert.Bridge.linE (F := Ideal) (xarr9 V c) (warr9 V c) (barr9 V c) (ix2 r q) := by
  rw [k9_pay1_apply, linE_apply, wblk9_eq, bblk9_eq]
  unfold linRow
  refine congrArg (· + _) (Finset.sum_congr rfl fun k _ => ?_)
  exact congrArg (· * _) (xblk9_apply V c t y k r hr)

theorem flushed9_eq (c : Dev nD) (t : Fin cfg9.N) :
    (dat9 (F := Ideal) V c).flushed 3 t
      = ((cfg9.win 3).blk t).view.read (Elt Ideal) (Cert.Bridge.linE (F := Ideal) (xarr9 V c) (warr9 V c) (barr9 V c)) := by
  show (cfg9.win 3).cut (grid9.coords t) ((dat9 V c).after 3 t) = _
  rw [after9_3]
  unfold out9_3
  rw [View.canon_unit_zero hz9]
  simp only [View.ld_unit_zero (S := S64x128) hz9, View.ld_unit_zero (S := S128x10) hz9,
    View.ld_unit_zero (S := S1x10) hz9]
  obtain ⟨-, -, -, -, -, -, e6, e7, hlt⟩ := idx9 t
  funext j
  obtain ⟨y, q, rfl⟩ : ∃ (y : Fin 64) (q : Fin 10), j = ix2 y q := ⟨j 0, j 1, eq_ix2 j⟩
  have hr : t.val * 64 + y.val < 64 := by have := y.isLt; omega
  rw [View.read_apply]
  show k9_pay1 (F := Ideal) (xblk9 V c t) (wblk9 V c t) (bblk9 V c t) (ix2 y q)
      = Cert.Bridge.linE (F := Ideal) (xarr9 V c) (warr9 V c) (barr9 V c) (((cfg9.win 3).blk t).view.emb (ix2 y q))
  refine (point9 V c t y q ⟨t.val * 64 + y.val, hr⟩ rfl).trans (congrArg _ ?_)
  funext a
  apply Fin.ext
  match a with
  | ⟨0, _⟩ => show t.val * 64 + y.val = win9_3.index t (0 : Fin 2) * 64 + 1 * y.val; rw [e6]; omega
  | ⟨1, _⟩ => show q.val = win9_3.index t (1 : Fin 2) * 10 + 1 * q.val; rw [e7]; omega

theorem mem_blk9 (t : Fin cfg9.N) (i : S64x10.Idx) :
    i ∈ ((cfg9.win 3).blk t).view.set ↔ ∀ a : Fin 2, win9_3.index t a * S64x10.size a ≤ (i a).val ∧ (i a).val < win9_3.index t a * S64x10.size a + S64x10.size a := by
  show i ∈ ((View.whole main_v305).slice (win9_3.rect t)).set ↔ _
  rw [View.set_slice_whole, Rect.mem_set_unit]
  exact Iff.rfl

theorem cover9 (i : S64x10.Idx) : ∃ t : Fin cfg9.N, (cfg9.win 3).flush t = true ∧ i ∈ ((cfg9.win 3).blk t).view.set := by
  have hi0 : (i 0).val < 64 := (i 0).isLt
  have hi1 : (i 1).val < 10 := (i 1).isLt
  obtain ⟨t, ht⟩ : ∃ t : Fin cfg9.N, t.val = (i 0).val / 64 :=
    ⟨⟨(i 0).val / 64, by show _ < grid9.N; rw [N_9]; omega⟩, rfl⟩
  obtain ⟨-, -, -, -, -, -, e6, e7, -⟩ := idx9 t
  refine ⟨t, flush9_3 t, ?_⟩
  rw [mem_blk9]
  intro a
  match a with
  | ⟨0, _⟩ => show win9_3.index t (0 : Fin 2) * 64 ≤ (i 0).val ∧ (i 0).val < win9_3.index t (0 : Fin 2) * 64 + 64; rw [e6, ht]; omega
  | ⟨1, _⟩ => show win9_3.index t (1 : Fin 2) * 10 ≤ (i 1).val ∧ (i 1).val < win9_3.index t (1 : Fin 2) * 10 + 10; rw [e7]; omega

end Region

end Lin

theorem region9_array (V : (c : Dev nD) → (b : Ref sig .tc) → Buf (Elt Ideal) ((c : Thread nD τ).loc b)) (c : Dev nD) :
    (dat9 (F := Ideal) V c).arrAt 3 cfg9.N = Cert.Bridge.linE (F := Ideal) (V c main_v303) (V c main_arg26) (V c main_v304) :=
  (dat9 (F := Ideal) V c).arrAt_eq_of_cover 3 _ (fun t _ => Lin.flushed9_eq V c t) Lin.cover9

end Cert.KernelIdeal.RegionValue

end
-- ==== Proof.Reg9.lean ====
/- Across region 9: its result array holds the dense layer of its operand arrays, and the operands hold the reference's stages, so the result holds the reference's stage at the end of that layer; the other buffers read later are carried. -/
import proofs.«165269_j27702539059574_1_alg».proof.Proof.Stages
import proofs.«165269_j27702539059574_1_alg».proof.Proof.RegionLinE

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem reg9 (c : Dev nD) (h : FactsW33 m ρ c) : FactsW34 m ρ c where
  v305 := by
    rw [show W34 m ρ c (Proc.devRef .tc main_v305) = (dat9 (V33 m ρ) c).arrAt 3 cfg9.N from W34_arr m ρ c 3,
      Cert.KernelIdeal.RegionValue.region9_array (V33 m ρ) c]
    show Cert.Bridge.linE (F := Ideal) (W33 m ρ c (Proc.devRef .tc main_v303)) (W33 m ρ c (Proc.devRef .tc main_arg26)) (W33 m ρ c (Proc.devRef .tc main_v304)) = _
    rw [h.v303, (h.args main_arg26 (by decide)), h.v304]
    rfl

end Cert.KernelIdeal.Stages

end
-- ==== Proof.Assembly.lean ====
/- Through @main boundary by boundary: each segment carries the facts of its entry boundary to its exit boundary. -/
import proofs.«165269_j27702539059574_1_alg».proof.Proof.Stages
import proofs.«165269_j27702539059574_1_alg».proof.Proof.Host0
import proofs.«165269_j27702539059574_1_alg».proof.Proof.Host2
import proofs.«165269_j27702539059574_1_alg».proof.Proof.Host4
import proofs.«165269_j27702539059574_1_alg».proof.Proof.Host6
import proofs.«165269_j27702539059574_1_alg».proof.Proof.Host8
import proofs.«165269_j27702539059574_1_alg».proof.Proof.Host10
import proofs.«165269_j27702539059574_1_alg».proof.Proof.Host12
import proofs.«165269_j27702539059574_1_alg».proof.Proof.Host14
import proofs.«165269_j27702539059574_1_alg».proof.Proof.Host16
import proofs.«165269_j27702539059574_1_alg».proof.Proof.Host18
import proofs.«165269_j27702539059574_1_alg».proof.Proof.Reg0
import proofs.«165269_j27702539059574_1_alg».proof.Proof.Reg1
import proofs.«165269_j27702539059574_1_alg».proof.Proof.Reg2
import proofs.«165269_j27702539059574_1_alg».proof.Proof.Reg3
import proofs.«165269_j27702539059574_1_alg».proof.Proof.Reg4
import proofs.«165269_j27702539059574_1_alg».proof.Proof.Reg5
import proofs.«165269_j27702539059574_1_alg».proof.Proof.Reg6
import proofs.«165269_j27702539059574_1_alg».proof.Proof.Reg7
import proofs.«165269_j27702539059574_1_alg».proof.Proof.Reg8
import proofs.«165269_j27702539059574_1_alg».proof.Proof.Reg9

set_option maxRecDepth 16384

noncomputable section

namespace Cert.KernelIdeal.Stages

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg)

theorem facts_end (c : Dev nD) : FactsW34 m ρ c :=
  reg9 m ρ c (host18 m ρ c (reg8 m ρ c (host16 m ρ c (reg7 m ρ c (host14 m ρ c (reg6 m ρ c (host12 m ρ c (reg5 m ρ c (host10 m ρ c (reg4 m ρ c (host8 m ρ c (reg3 m ρ c (host6 m ρ c (reg2 m ρ c (host4 m ρ c (reg1 m ρ c (host2 m ρ c (reg0 m ρ c (host0 m ρ c)))))))))))))))))))

end Cert.KernelIdeal.Stages

end
-- ==== Proof.lean ====
/- Kernel and reference are one two-layer graph network: the kernel evaluates each dense layer in row blocks, the reference in one product, and a row of a dense layer depends only on the same row of its input; everything between the dense layers is the same arithmetic on both sides. -/
import proofs.«165269_j27702539059574_1_alg».proof.Defs
import proofs.«165269_j27702539059574_1_alg».proof.Proof.Gen.Kernel
import proofs.«165269_j27702539059574_1_alg».proof.Proof.Gen.KernelIdeal
import proofs.«165269_j27702539059574_1_alg».proof.Proof.Gen.ReferenceIdeal
import proofs.«165269_j27702539059574_1_alg».proof.Proof.Gen.Pre_finite_inputs
import proofs.«165269_j27702539059574_1_alg».proof.Proof.FrameK
import proofs.«165269_j27702539059574_1_alg».proof.Proof.FrameKI
import proofs.«165269_j27702539059574_1_alg».proof.Proof.KRun
import proofs.«165269_j27702539059574_1_alg».proof.Proof.RAssembly
import proofs.«165269_j27702539059574_1_alg».proof.Proof.Assembly
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.RStages.run m ρ)

theorem algebraic : Cert.algebraic_KernelIdeal_ReferenceIdeal := by
  intro m ρ m' ρ' _ hagree
  refine ⟨fun c => Cert.KernelIdeal.GenP.W34 m ρ c (Proc.devRef .tc Cert.KernelIdeal.main_v305), Cert.KernelIdeal.RunResult.run_result (F := Ideal) m ρ, ?_⟩
  refine (θ_run Cert.ReferenceIdeal.defs _ _).mono (fun _ h c => ⟨(h c).1.trans ?_, (h c).2⟩)
    (Cert.ReferenceIdeal.RStages.run m' ρ')
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h15, h16, h17, h18, h19, h20, h21, h22, h23, h24, h25, h26, h27]
  exact ((Cert.KernelIdeal.Stages.facts_end m ρ c).v305).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
